-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v52)) (v3 : (c : Dev Cert.KernelIdeal.nD) → Buf (Elt Ideal) ((c.tc : Thread Cert.KernelIdeal.nD Cert.KernelIdeal.τ).loc Cert.KernelIdeal.main_v59_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_v59_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1024 : Shape := ⟨2, ![1, 1024]⟩
abbrev S2048x1x2048 : Shape := ⟨3, ![2048, 1, 2048]⟩
abbrev S50257x1024 : Shape := ⟨2, ![50257, 1024]⟩
abbrev S1024 : Shape := ⟨1, ![1024]⟩
abbrev S3072x1024 : Shape := ⟨2, ![3072, 1024]⟩
abbrev S1024x1 : Shape := ⟨2, ![1024, 1]⟩
abbrev S4096x1024 : Shape := ⟨2, ![4096, 1024]⟩
abbrev S4096x50257 : Shape := ⟨2, ![4096, 50257]⟩
abbrev S50257 : Shape := ⟨1, ![50257]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S2048x1x2048 : S_.BroadcastsInDim S2048x1x2048 (![] : Fin 0 → Fin S2048x1x2048.rank)
  reducesTo_S2048x1x2048_S_d0_1_2 : S2048x1x2048.ReducesTo [0, 1, 2] S_
  bcast_S_S50257x1024 : S_.BroadcastsInDim S50257x1024 (![] : Fin 0 → Fin S50257x1024.rank)
  reducesTo_S50257x1024_S_d0_1 : S50257x1024.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096x50257 : S_.BroadcastsInDim S4096x50257 (![] : Fin 0 → Fin S4096x50257.rank)
  reducesTo_S4096x50257_S_d0_1 : S4096x50257.ReducesTo [0, 1] S_
  bcast_S_S50257 : S_.BroadcastsInDim S50257 (![] : Fin 0 → Fin S50257.rank)
  reducesTo_S50257_S_d0 : S50257.ReducesTo [0] S_

variable [Facts]

def fn_part5 {F : FTy → Type} [FloatOps F] (main_arg0 : IVec S1 32) (main_arg19 : FVec F S50257 .f32) (main_v83 : IVec S_ 1) (main_v84 : FVec F S4096x50257 .f32) (main_cst_32 : FVec F S_ .f32) : IVec S_ 1 :=
  let main_v85 : FVec F S4096x50257 .f32 := broadcastInDim S4096x50257 ![] bcast_S_S4096x50257 main_cst_32
  let main_v86 : IVec S4096x50257 1 := cmpf .olt main_v84 main_v85
  let main_c_33 : IVec S_ 1 := constantI S_ 1 1#1
  let main_v87 : IVec S_ 1 := (fun x v => Host.reduce IntOp.andi x v reducesTo_S4096x50257_S_d0_1 h_S_) main_v86 main_c_33
  let main_v88 : IVec S_ 1 := andi main_v83 main_v87
  let main_v89 : FVec F S50257 .f32 := Host.absf main_arg19
  let main_cst_34 : FVec F S_ .f32 := constant S_ .f32 0x7F800000#32
  let main_v90 : FVec F S50257 .f32 := broadcastInDim S50257 ![] bcast_S_S50257 main_cst_34
  let main_v91 : IVec S50257 1 := cmpf .olt main_v89 main_v90
  let main_c_35 : IVec S_ 1 := constantI S_ 1 1#1
  let main_v92 : IVec S_ 1 := (fun x v => Host.reduce IntOp.andi x v reducesTo_S50257_S_d0 h_S_) main_v91 main_c_35
  let main_v93 : IVec S_ 1 := andi main_v88 main_v92
  let main_c_36 : IVec S_ 32 := constantI S_ 32 0#32
  let main_v94 : IVec S1 32 := broadcastInDim S1 ![] bcast_S_S1 main_c_36
  let main_v95 : IVec S1 1 := cmpi .sge main_arg0 main_v94
  let main_c_37 : IVec S_ 32 := constantI S_ 32 50257#32
  let main_v96 : IVec S1 32 := broadcastInDim S1 ![] bcast_S_S1 main_c_37
  let main_v97 : IVec S1 1 := cmpi .slt main_arg0 main_v96
  let main_v98 : IVec S1 1 := andi main_v95 main_v97
  let main_c_38 : IVec S_ 1 := constantI S_ 1 1#1
  let main_v99 : IVec S_ 1 := (fun x v => Host.reduce IntOp.andi x v reducesTo_S1_S_d0 h_S_) main_v98 main_c_38
  let main_v100 : IVec S_ 1 := andi main_v93 main_v99
  main_v100

def fn_part4 {F : FTy → Type} [FloatOps F] (main_arg0 : IVec S1 32) (main_arg15 : FVec F S1024 .f32) (main_arg16 : FVec F S4096x1024 .f32) (main_arg17 : FVec F S1024 .f32) (main_arg18 : FVec F S4096x50257 .f32) (main_arg19 : FVec F S50257 .f32) (main_v63 : IVec S_ 1) (main_v67 : IVec S_ 1) : IVec S_ 1 :=
  let main_v68 : IVec S_ 1 := andi main_v63 main_v67
  let main_v69 : FVec F S1024 .f32 := Host.absf main_arg15
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S4096x1024 .f32 := Host.absf main_arg16
  let main_cst_28 : FVec F S_ .f32 := constant S_ .f32 0x7F800000#32
  let main_v75 : FVec F S4096x1024 .f32 := broadcastInDim S4096x1024 ![] bcast_S_S4096x1024 main_cst_28
  let main_v76 : IVec S4096x1024 1 := cmpf .olt main_v74 main_v75
  let main_c_29 : IVec S_ 1 := constantI S_ 1 1#1
  let main_v77 : IVec S_ 1 := (fun x v => Host.reduce IntOp.andi x v reducesTo_S4096x1024_S_d0_1 h_S_) main_v76 main_c_29
  let main_v78 : IVec S_ 1 := andi main_v73 main_v77
  let main_v79 : FVec F S1024 .f32 := Host.absf main_arg17
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S4096x50257 .f32 := Host.absf main_arg18
  let main_cst_32 : FVec F S_ .f32 := constant S_ .f32 0x7F800000#32
  fn_part5 (F := F) main_arg0 main_arg19 main_v83 main_v84 main_cst_32

def fn_part3 {F : FTy → Type} [FloatOps F] (main_arg0 : IVec S1 32) (main_arg12 : FVec F S4096x1024 .f32) (main_arg13 : FVec F S1024 .f32) (main_arg14 : FVec F S4096x1024 .f32) (main_arg15 : FVec F S1024 .f32) (main_arg16 : FVec F S4096x1024 .f32) (main_arg17 : FVec F S1024 .f32) (main_arg18 : FVec F S4096x50257 .f32) (main_arg19 : FVec F S50257 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S4096x1024 .f32 := Host.absf main_arg12
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  let main_v59 : FVec F S1024 .f32 := Host.absf main_arg13
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S4096x1024 .f32 := Host.absf main_arg14
  let main_cst_24 : FVec F S_ .f32 := constant S_ .f32 0x7F800000#32
  let main_v65 : FVec F S4096x1024 .f32 := broadcastInDim S4096x1024 ![] bcast_S_S4096x1024 main_cst_24
  let main_v66 : IVec S4096x1024 1 := cmpf .olt main_v64 main_v65
  let main_c_25 : IVec S_ 1 := constantI S_ 1 1#1
  let main_v67 : IVec S_ 1 := (fun x v => Host.reduce IntOp.andi x v reducesTo_S4096x1024_S_d0_1 h_S_) main_v66 main_c_25
  fn_part4 (F := F) main_arg0 main_arg15 main_arg16 main_arg17 main_arg18 main_arg19 main_v63 main_v67

def fn_part2 {F : FTy → Type} [FloatOps F] (main_arg0 : IVec S1 32) (main_arg8 : FVec F S1024x1 .f32) (main_arg9 : FVec F S1 .f32) (main_arg10 : FVec F S4096x1024 .f32) (main_arg11 : FVec F S1024 .f32) (main_arg12 : FVec F S4096x1024 .f32) (main_arg13 : FVec F S1024 .f32) (main_arg14 : FVec F S4096x1024 .f32) (main_arg15 : FVec F S1024 .f32) (main_arg16 : FVec F S4096x1024 .f32) (main_arg17 : FVec F S1024 .f32) (main_arg18 : FVec F S4096x50257 .f32) (main_arg19 : FVec F S50257 .f32) (main_v33 : IVec S_ 1) : IVec S_ 1 :=
  let main_v34 : FVec F S1024x1 .f32 := Host.absf main_arg8
  let main_cst_12 : FVec F S_ .f32 := constant S_ .f32 0x7F800000#32
  let main_v35 : FVec F S1024x1 .f32 := broadcastInDim S1024x1 ![] bcast_S_S1024x1 main_cst_12
  let main_v36 : IVec S1024x1 1 := cmpf .olt main_v34 main_v35
  let main_c_13 : IVec S_ 1 := constantI S_ 1 1#1
  let main_v37 : IVec S_ 1 := (fun x v => Host.reduce IntOp.andi x v reducesTo_S1024x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S4096x1024 .f32 := Host.absf main_arg10
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg0 main_arg12 main_arg13 main_arg14 main_arg15 main_arg16 main_arg17 main_arg18 main_arg19 main_v48 main_v49 main_v50

def fn_part1 {F : FTy → Type} [FloatOps F] (main_arg0 : IVec S1 32) (main_arg5 : FVec F S1024 .f32) (main_arg6 : FVec F S3072x1024 .f32) (main_arg7 : FVec F S1024 .f32) (main_arg8 : FVec F S1024x1 .f32) (main_arg9 : FVec F S1 .f32) (main_arg10 : FVec F S4096x1024 .f32) (main_arg11 : FVec F S1024 .f32) (main_arg12 : FVec F S4096x1024 .f32) (main_arg13 : FVec F S1024 .f32) (main_arg14 : FVec F S4096x1024 .f32) (main_arg15 : FVec F S1024 .f32) (main_arg16 : FVec F S4096x1024 .f32) (main_arg17 : FVec F S1024 .f32) (main_arg18 : FVec F S4096x50257 .f32) (main_arg19 : FVec F S50257 .f32) (main_v13 : IVec S_ 1) (main_v16 : IVec S50257x1024 1) : IVec S_ 1 :=
  let main_c_5 : IVec S_ 1 := constantI S_ 1 1#1
  let main_v17 : IVec S_ 1 := (fun x v => Host.reduce IntOp.andi x v reducesTo_S50257x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S3072x1024 .f32 := Host.absf main_arg6
  let main_cst_8 : FVec F S_ .f32 := constant S_ .f32 0x7F800000#32
  let main_v25 : FVec F S3072x1024 .f32 := broadcastInDim S3072x1024 ![] bcast_S_S3072x1024 main_cst_8
  let main_v26 : IVec S3072x1024 1 := cmpf .olt main_v24 main_v25
  let main_c_9 : IVec S_ 1 := constantI S_ 1 1#1
  let main_v27 : IVec S_ 1 := (fun x v => Host.reduce IntOp.andi x v reducesTo_S3072x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_arg14 main_arg15 main_arg16 main_arg17 main_arg18 main_arg19 main_v33

def fn {F : FTy → Type} [FloatOps F] (main_arg0 : IVec S1 32) (main_arg1 : FVec F S1x1024 .f32) (main_arg2 : FVec F S2048x1x2048 .f32) (main_arg3 : FVec F S1x1024 .f32) (main_arg4 : FVec F S50257x1024 .f32) (main_arg5 : FVec F S1024 .f32) (main_arg6 : FVec F S3072x1024 .f32) (main_arg7 : FVec F S1024 .f32) (main_arg8 : FVec F S1024x1 .f32) (main_arg9 : FVec F S1 .f32) (main_arg10 : FVec F S4096x1024 .f32) (main_arg11 : FVec F S1024 .f32) (main_arg12 : FVec F S4096x1024 .f32) (main_arg13 : FVec F S1024 .f32) (main_arg14 : FVec F S4096x1024 .f32) (main_arg15 : FVec F S1024 .f32) (main_arg16 : FVec F S4096x1024 .f32) (main_arg17 : FVec F S1024 .f32) (main_arg18 : FVec F S4096x50257 .f32) (main_arg19 : FVec F S50257 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S2048x1x2048 .f32 := Host.absf main_arg2
  let main_cst_0 : FVec F S_ .f32 := constant S_ .f32 0x7F800000#32
  let main_v5 : FVec F S2048x1x2048 .f32 := broadcastInDim S2048x1x2048 ![] bcast_S_S2048x1x2048 main_cst_0
  let main_v6 : IVec S2048x1x2048 1 := cmpf .olt main_v4 main_v5
  let main_c_1 : IVec S_ 1 := constantI S_ 1 1#1
  let main_v7 : IVec S_ 1 := (fun x v => Host.reduce IntOp.andi x v reducesTo_S2048x1x2048_S_d0_1_2 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S50257x1024 .f32 := Host.absf main_arg4
  let main_cst_4 : FVec F S_ .f32 := constant S_ .f32 0x7F800000#32
  let main_v15 : FVec F S50257x1024 .f32 := broadcastInDim S50257x1024 ![] bcast_S_S50257x1024 main_cst_4
  let main_v16 : IVec S50257x1024 1 := cmpf .olt main_v14 main_v15
  fn_part1 (F := F) main_arg0 main_arg5 main_arg6 main_arg7 main_arg8 main_arg9 main_arg10 main_arg11 main_arg12 main_arg13 main_arg14 main_arg15 main_arg16 main_arg17 main_arg18 main_arg19 main_v13 main_v16
-- ==== Kernel.lean ====
abbrev S1 : Shape := ⟨1, ![1]⟩
abbrev S1x1024 : Shape := ⟨2, ![1, 1024]⟩
abbrev S2048x1x2048 : Shape := ⟨3, ![2048, 1, 2048]⟩
abbrev S50257x1024 : Shape := ⟨2, ![50257, 1024]⟩
abbrev S1024 : Shape := ⟨1, ![1024]⟩
abbrev S3072x1024 : Shape := ⟨2, ![3072, 1024]⟩
abbrev S1024x1 : Shape := ⟨2, ![1024, 1]⟩
abbrev S4096x1024 : Shape := ⟨2, ![4096, 1024]⟩
abbrev S4096x50257 : Shape := ⟨2, ![4096, 50257]⟩
abbrev S50257 : Shape := ⟨1, ![50257]⟩
abbrev S_ : Shape := ⟨0, ![]⟩
abbrev S2048x2048 : Shape := ⟨2, ![2048, 2048]⟩
abbrev S1x1 : Shape := ⟨2, ![1, 1]⟩
abbrev S2048x1 : Shape := ⟨2, ![2048, 1]⟩
abbrev S2x1x1 : Shape := ⟨3, ![2, 1, 1]⟩
abbrev S2x1x2048 : Shape := ⟨3, ![2, 1, 2048]⟩
abbrev S512x2048 : Shape := ⟨2, ![512, 2048]⟩
abbrev S2048x1024 : Shape := ⟨2, ![2048, 1024]⟩
abbrev S1024x1024 : Shape := ⟨2, ![1024, 1024]⟩
abbrev S512x1 : Shape := ⟨2, ![512, 1]⟩
abbrev S1x1x1 : Shape := ⟨3, ![1, 1, 1]⟩
abbrev S1x1x2048 : Shape := ⟨3, ![1, 1, 2048]⟩
abbrev S1x2048 : Shape := ⟨2, ![1, 2048]⟩
abbrev S512x1024 : Shape := ⟨2, ![512, 1024]⟩
abbrev S2048 : Shape := ⟨1, ![2048]⟩
abbrev S1x3072 : Shape := ⟨2, ![1, 3072]⟩
abbrev S1x4096 : Shape := ⟨2, ![1, 4096]⟩
abbrev S1024x512 : Shape := ⟨2, ![1024, 512]⟩
abbrev S1x512 : Shape := ⟨2, ![1, 512]⟩
abbrev S1x50257 : Shape := ⟨2, ![1, 50257]⟩

abbrev nBuf : Space → Nat
  | .hbm => 112
  | .vmem => 50
  | .smem => 0
  | _ => 0

abbrev bufTy : (tb : Table) → Fin (tcTables nBuf tb) → BufTy
  | .hbm, ⟨0, _⟩ => ⟨S1, .i32⟩
  | .hbm, ⟨1, _⟩ => ⟨S1x1024, .f32⟩
  | .hbm, ⟨2, _⟩ => ⟨S2048x1x2048, .f32⟩
  | .hbm, ⟨3, _⟩ => ⟨S1x1024, .f32⟩
  | .hbm, ⟨4, _⟩ => ⟨S50257x1024, .f32⟩
  | .hbm, ⟨5, _⟩ => ⟨S1024, .f32⟩
  | .hbm, ⟨6, _⟩ => ⟨S3072x1024, .f32⟩
  | .hbm, ⟨7, _⟩ => ⟨S1024, .f32⟩
  | .hbm, ⟨8, _⟩ => ⟨S1024x1, .f32⟩
  | .hbm, ⟨9, _⟩ => ⟨S1, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S1024, .f32⟩
  | .hbm, ⟨14, _⟩ => ⟨S4096x1024, .f32⟩
  | .hbm, ⟨15, _⟩ => ⟨S1024, .f32⟩
  | .hbm, ⟨16, _⟩ => ⟨S4096x1024, .f32⟩
  | .hbm, ⟨17, _⟩ => ⟨S1024, .f32⟩
  | .hbm, ⟨18, _⟩ => ⟨S4096x50257, .f32⟩
  | .hbm, ⟨19, _⟩ => ⟨S50257, .f32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x1024, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S2048x2048, .f32⟩
  | .hbm, ⟨39, _⟩ => ⟨S1x1024, .f32⟩
  | .hbm, ⟨40, _⟩ => ⟨S1x1, .f32⟩
  | .hbm, ⟨41, _⟩ => ⟨S2048x1, .f32⟩
  | .hbm, ⟨42, _⟩ => ⟨S2x1x1, .f32⟩
  | .hbm, ⟨43, _⟩ => ⟨S2x1x1, .f32⟩
  | .hbm, ⟨44, _⟩ => ⟨S2x1x2048, .f32⟩
  | .hbm, ⟨45, _⟩ => ⟨S1x1x1, .f32⟩
  | .hbm, ⟨46, _⟩ => ⟨S1x1, .f32⟩
  | .hbm, ⟨47, _⟩ => ⟨S1x1x1, .f32⟩
  | .hbm, ⟨48, _⟩ => ⟨S1x1, .f32⟩
  | .hbm, ⟨49, _⟩ => ⟨S1x1x1, .f32⟩
  | .hbm, ⟨50, _⟩ => ⟨S1x1, .f32⟩
  | .hbm, ⟨51, _⟩ => ⟨S1x1x1, .f32⟩
  | .hbm, ⟨52, _⟩ => ⟨S1x1, .f32⟩
  | .hbm, ⟨53, _⟩ => ⟨S1x1x2048, .f32⟩
  | .hbm, ⟨54, _⟩ => ⟨S1x2048, .f32⟩
  | .hbm, ⟨55, _⟩ => ⟨S1x1x2048, .f32⟩
  | .hbm, ⟨56, _⟩ => ⟨S1x2048, .f32⟩
  | .hbm, ⟨57, _⟩ => ⟨S1x1, .f32⟩
  | .hbm, ⟨58, _⟩ => ⟨S1x1, .f32⟩
  | .hbm, ⟨59, _⟩ => ⟨S1x1, .f32⟩
  | .hbm, ⟨60, _⟩ => ⟨S1x1, .f32⟩
  | .hbm, ⟨61, _⟩ => ⟨S1x1, .f32⟩
  | .hbm, ⟨62, _⟩ => ⟨S1x1, .f32⟩
  | .hbm, ⟨63, _⟩ => ⟨S1x1, .f32⟩
  | .hbm, ⟨64, _⟩ => ⟨S1x1, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S1x2048, .f32⟩
  | .hbm, ⟨72, _⟩ => ⟨S_, .f32⟩
  | .hbm, ⟨73, _⟩ => ⟨S1, .f32⟩
  | .hbm, ⟨74, _⟩ => ⟨S_, .f32⟩
  | .hbm, ⟨75, _⟩ => ⟨S1, .f32⟩
  | .hbm, ⟨76, _⟩ => ⟨S1, .f32⟩
  | .hbm, ⟨77, _⟩ => ⟨S1x1, .f32⟩
  | .hbm, ⟨78, _⟩ => ⟨S2048x1, .f32⟩
  | .hbm, ⟨79, _⟩ => ⟨S2048x1, .f32⟩
  | .hbm, ⟨80, _⟩ => ⟨S2048x1, .f32⟩
  | .hbm, ⟨81, _⟩ => ⟨S_, .f32⟩
  | .hbm, ⟨82, _⟩ => ⟨S1, .f32⟩
  | .hbm, ⟨83, _⟩ => ⟨S1x1, .f32⟩
  | .hbm, ⟨84, _⟩ => ⟨S2048x1, .f32⟩
  | .hbm, ⟨85, _⟩ => ⟨S2048x1, .f32⟩
  | .hbm, ⟨86, _⟩ => ⟨S1x3072, .f32⟩
  | .hbm, ⟨87, _⟩ => ⟨S1x4096, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x4096, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S2048x1024, .f32⟩
  | .local _ .vmem, ⟨4, _⟩ => ⟨S1024x1024, .f32⟩
  | .local _ .vmem, ⟨5, _⟩ => ⟨S1x1024, .f32⟩
  | .local _ .vmem, ⟨6, _⟩ => ⟨S1024x1, .f32⟩
  | .local _ .vmem, ⟨7, _⟩ => ⟨S1x1, .f32⟩
  | .local _ .vmem, ⟨8, _⟩ => ⟨S512x1, .f32⟩
  | .local _ .vmem, ⟨9, _⟩ => ⟨S512x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x2048, .f32⟩
  | .local _ .vmem, ⟨15, _⟩ => ⟨S1x1x2048, .f32⟩
  | .local _ .vmem, ⟨16, _⟩ => ⟨S1x1, .f32⟩
  | .local _ .vmem, ⟨17, _⟩ => ⟨S1x1, .f32⟩
  | .local _ .vmem, ⟨18, _⟩ => ⟨S1x2048, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S1x4096, .f32⟩
  | .local _ .vmem, ⟨44, _⟩ => ⟨S4096x1024, .f32⟩
  | .local _ .vmem, ⟨45, _⟩ => ⟨S4096x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_c_1 : Ref sig .tc := ⟨.hbm, 26, rfl⟩
abbrev main_c_2 : Ref sig .tc := ⟨.hbm, 27, rfl⟩
abbrev main_v4 : Ref sig .tc := ⟨.hbm, 28, rfl⟩
abbrev main_c_3 : Ref sig .tc := ⟨.hbm, 29, rfl⟩
abbrev main_c_4 : Ref sig .tc := ⟨.hbm, 30, rfl⟩
abbrev main_v5 : Ref sig .tc := ⟨.hbm, 31, rfl⟩
abbrev main_c_5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14_0 : Ref sig .tc := ⟨.hbm, 41, rfl⟩
abbrev main_v14_1 : Ref sig .tc := ⟨.hbm, 42, rfl⟩
abbrev main_v14_2 : Ref sig .tc := ⟨.hbm, 43, rfl⟩
abbrev main_v14_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_7 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59_0 : Ref sig .tc := ⟨.hbm, 92, rfl⟩
abbrev main_v59_1 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call0_cst : Ref sig .tc := ⟨.hbm, 97, rfl⟩
abbrev main_call0_v0 : Ref sig .tc := ⟨.hbm, 98, rfl⟩
abbrev main_call0_cst_0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_cst_1 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_v63 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_scratch0 : Ref sig .tc := ⟨.vmem, 39, rfl⟩
abbrev cc1_scratch1 : Ref sig .tc := ⟨.vmem, 40, rfl⟩
abbrev cc1_scratch2 : Ref sig .tc := ⟨.vmem, 41, rfl⟩
abbrev cc1_scratch3 : Ref sig .tc := ⟨.vmem, 42, rfl⟩
abbrev cc2_stg0_0 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem10_1 : DmaSem sig := 32
abbrev cc1_sem11_0 : DmaSem sig := 33
abbrev cc1_sem11_1 : DmaSem sig := 34
abbrev cc2_sem0_0 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v53 : BitVec 1 := Scalar.cmpi .eq arg1 c1_i32
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_29 : BitVec 32 := 0#32
  let v40 : BitVec 1 := Scalar.cmpi .ne v39 c0_i32_29
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, false]

abbrev stage1_10 : Fin 2 → Memref sig .tc .vmem S1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  shapeCasts_S1024_S1x1024 : S1024.ShapeCasts S1x1024
  shapeCasts_S2048x1x2048_S2048x2048 : S2048x1x2048.ShapeCasts S2048x2048
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024_S1x1024_0_0 : ∀ a, (![0, 0] : Fin 2 → Nat) a + S1x1024.size a ≤ S1x1024.size a
  h_S1x1024 : 0 < S1x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1x1024_S1x1024 : S1x1024.ShapeCasts S1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  broadcasts_S1x1_S512x1 : S1x1.Broadcasts S512x1
  inb_S512x1_S512x1_0_0 : ∀ a, (![0, 0] : Fin 2 → Nat) a + S512x1.size a ≤ S512x1.size a
  h_S512x1 : 0 < S512x1.numel
  reduces_S512x1_S1 : S512x1.Reduces [0] S1
  broadcasts_S512x1_S512x2048 : S512x1.Broadcasts S512x2048
  reduces_S512x2048_S2048 : S512x2048.Reduces [0] S2048
  shapeCasts_S2048_S1x2048 : S2048.ShapeCasts S1x2048
  broadcasts_S1x1_S1x2048 : S1x1.Broadcasts S1x2048
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  slices_S2x1x1_S1x1x1_0_0_0 : S2x1x1.Slices ![0, 0, 0] S1x1x1
  shapeCasts_S1x1x1_S1x1 : S1x1x1.ShapeCasts S1x1
  slices_S2x1x1_S1x1x1_1_0_0 : S2x1x1.Slices ![1, 0, 0] S1x1x1
  slices_S2x1x2048_S1x1x2048_0_0_0 : S2x1x2048.Slices ![0, 0, 0] S1x1x2048
  shapeCasts_S1x1x2048_S1x2048 : S1x1x2048.ShapeCasts S1x2048
  slices_S2x1x2048_S1x1x2048_1_0_0 : S2x1x2048.Slices ![1, 0, 0] S1x1x2048
  bcast_S1x1_S1x2048_0_1 : S1x1.BroadcastsInDim S1x2048 (![0, 1] : Fin 2 → Fin S1x2048.rank)
  reducesTo_S2048x1_S1_d0 : S2048x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  concatenates_S1x1024_S1x2048_S1x3072_d1 : Shape.Concatenates [S1x1024, S1x2048] S1x3072 1
  concatenates_S1x3072_S1x1024_S1x4096_d1 : Shape.Concatenates [S1x3072, S1x1024] S1x4096 1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  concatenates_S1x1024_S1x1024_S1x2048_S1x4096_d1 : Shape.Concatenates [S1x1024, S1x1024, S1x2048] S1x4096 1
  shapeCasts_S50257_S1x50257 : S50257.ShapeCasts S1x50257
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4096x1024_S4096x1024_0_0 : ∀ a, (![0, 0] : Fin 2 → Nat) a + S4096x1024.size a ≤ S4096x1024.size a
  h_S4096x1024 : 0 < S4096x1024.numel
  reducesTo_S1x50257_S1_d1 : S1x50257.ReducesTo [1] S1
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  dot_S1x1024_S1024x1024_S1x1024_1_0_0_1_n_n_wf : DotDims.WF S1x1024 S1024x1024 S1x1024 [1] [0] [0] [1] [] []
  dot_S512x2048_S2048x1024_S512x1024_1_0_0_1_n_n_wf : DotDims.WF S512x2048 S2048x1024 S512x1024 [1] [0] [0] [1] [] []
  dot_S512x1024_S1024x1_S512x1_1_0_0_1_n_n_wf : DotDims.WF S512x1024 S1024x1 S512x1 [1] [0] [0] [1] [] []
  dot_S1x1024_S1024x512_S1x512_1_0_0_1_n_n_wf : DotDims.WF S1x1024 S1024x512 S1x512 [1] [0] [0] [1] [] []
  dot_S1x4096_S4096x1024_S1x1024_1_0_0_1_n_n_wf : DotDims.WF S1x4096 S4096x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hstart0_2 : ∀ (i : grid0.Coords) a, cc0_transform_2 i a * S2048x1024.size a < S3072x1024.size a
  hwx0_2 : ∀ i : grid0.Coords, EltTy.bits .f32 = 32 ∨ (Rect.unit (s := S3072x1024) (fun a => cc0_transform_2 i a * S2048x1024.size a) (fun a => (Pipeline.Clip.of (cc0_transform_2 i a) (S2048x1024.size a) (S3072x1024.size a)).extent (S2048x1024.size a)) fun a => Pipeline.Clip.inb (Pipeline.Clip.ok_of (hstart0_2 i a))).WholeWords (EltTy.packing .f32)
  hwxs0_2 : ∀ i : grid0.Coords, EltTy.bits .f32 = 32 ∨ (Rect.unit (s := S2048x1024) (fun _ => 0) (fun a => (Pipeline.Clip.of (cc0_transform_2 i a) (S2048x1024.size a) (S3072x1024.size a)).extent (S2048x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S3072x1024.size a
  hwx0_3 : ∀ i : grid0.Coords, EltTy.bits .f32 = 32 ∨ (Rect.block (s := S3072x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .f32 = 32 ∨ (Rect.block (s := S1024x1) S1024x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S2048x1.size a
  hwx0_7 : ∀ i : grid0.Coords, EltTy.bits .f32 = 32 ∨ (Rect.block (s := S2048x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S2x1x1.size a
  hwx0_8 : ∀ i : grid0.Coords, EltTy.bits .f32 = 32 ∨ (Rect.block (s := S2x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S2x1x1.size a
  hwx0_9 : ∀ i : grid0.Coords, EltTy.bits .f32 = 32 ∨ (Rect.block (s := S2x1x1) S1x1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x2048.size a ≤ S2x1x2048.size a
  hwx0_10 : ∀ i : grid0.Coords, EltTy.bits .f32 = 32 ∨ (Rect.block (s := S2x1x2048) S1x1x2048.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x4096.size a
  hwx1_0 : ∀ i : grid1.Coords, EltTy.bits .f32 = 32 ∨ (Rect.block (s := S1x4096) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x1024.size a
  hwx1_1 : ∀ i : grid1.Coords, EltTy.bits .f32 = 32 ∨ (Rect.block (s := S4096x1024) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x1024.size a
  hwx1_2 : ∀ i : grid1.Coords, EltTy.bits .f32 = 32 ∨ (Rect.block (s := S4096x1024) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x1024.size a
  hwx1_3 : ∀ i : grid1.Coords, EltTy.bits .f32 = 32 ∨ (Rect.block (s := S4096x1024) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S4096x1024.size a
  hwx1_4 : ∀ i : grid1.Coords, EltTy.bits .f32 = 32 ∨ (Rect.block (s := S4096x1024) S1024x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x1024.size a
  hwx1_5 : ∀ i : grid1.Coords, EltTy.bits .f32 = 32 ∨ (Rect.block (s := S1x1024) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x1024.size a
  hwx1_6 : ∀ i : grid1.Coords, EltTy.bits .f32 = 32 ∨ (Rect.block (s := S1x1024) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x1024.size a
  hwx1_7 : ∀ i : grid1.Coords, EltTy.bits .f32 = 32 ∨ (Rect.block (s := S1x1024) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x1024.size a
  hwx1_8 : ∀ i : grid1.Coords, EltTy.bits .f32 = 32 ∨ (Rect.block (s := S1x1024) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x1024.size a
  hwx1_9 : ∀ i : grid1.Coords, EltTy.bits .f32 = 32 ∨ (Rect.block (s := S1x1024) S1x512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x1024.size a
  hwx1_10 : ∀ i : grid1.Coords, EltTy.bits .f32 = 32 ∨ (Rect.block (s := S1x1024) S1x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x512.size a ≤ S1x1024.size a
  hwx1_11 : ∀ i : grid1.Coords, EltTy.bits .f32 = 32 ∨ (Rect.block (s := S1x1024) S1x512.size (cc1_transform_11 i) (hinb1_11 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S4096x1024.size a < S4096x50257.size a
  hwx2_1 : ∀ i : grid2.Coords, EltTy.bits .f32 = 32 ∨ (Rect.unit (s := S4096x50257) (fun a => cc2_transform_1 i a * S4096x1024.size a) (fun a => (Pipeline.Clip.of (cc2_transform_1 i a) (S4096x1024.size a) (S4096x50257.size a)).extent (S4096x1024.size a)) fun a => Pipeline.Clip.inb (Pipeline.Clip.ok_of (hstart2_1 i a))).WholeWords (EltTy.packing .f32)
  hwxs2_1 : ∀ i : grid2.Coords, EltTy.bits .f32 = 32 ∨ (Rect.unit (s := S4096x1024) (fun _ => 0) (fun a => (Pipeline.Clip.of (cc2_transform_1 i a) (S4096x1024.size a) (S4096x50257.size a)).extent (S4096x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x1024.size a < S1x50257.size a
  hwx2_2 : ∀ i : grid2.Coords, EltTy.bits .f32 = 32 ∨ (Rect.unit (s := S1x50257) (fun a => cc2_transform_2 i a * S1x1024.size a) (fun a => (Pipeline.Clip.of (cc2_transform_2 i a) (S1x1024.size a) (S1x50257.size a)).extent (S1x1024.size a)) fun a => Pipeline.Clip.inb (Pipeline.Clip.ok_of (hstart2_2 i a))).WholeWords (EltTy.packing .f32)
  hwxs2_2 : ∀ i : grid2.Coords, EltTy.bits .f32 = 32 ∨ (Rect.unit (s := S1x1024) (fun _ => 0) (fun a => (Pipeline.Clip.of (cc2_transform_2 i a) (S1x1024.size a) (S1x50257.size a)).extent (S1x1024.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x1024.size a < S1x50257.size a
  hwx2_3 : ∀ i : grid2.Coords, EltTy.bits .f32 = 32 ∨ (Rect.unit (s := S1x50257) (fun a => cc2_transform_3 i a * S1x1024.size a) (fun a => (Pipeline.Clip.of (cc2_transform_3 i a) (S1x1024.size a) (S1x50257.size a)).extent (S1x1024.size a)) fun a => Pipeline.Clip.inb (Pipeline.Clip.ok_of (hstart2_3 i a))).WholeWords (EltTy.packing .f32)
  hwxs2_3 : ∀ i : grid2.Coords, EltTy.bits .f32 = 32 ∨ (Rect.unit (s := S1x1024) (fun _ => 0) (fun a => (Pipeline.Clip.of (cc2_transform_3 i a) (S1x1024.size a) (S1x50257.size a)).extent (S1x1024.size a)) fun a => (Nat.zero_add _).trans_le (Pipeline.Clip.extent_le (Pipeline.Clip.ok_of (hstart2_3 i a)))).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf

abbrev win0_0 : Pipeline.Window sig grid0 :=
  Pipeline.Window.ofSpec (Memref.whole main_v11) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg6) S2048x1024.size cc0_transform_2 reads0_2 false true 1 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S512x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_2) S1x1x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_3) S1x1x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v54) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S1024x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v55) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg3) S1x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v59_0) S1x512.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v59_1) S1x512.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

abbrev win2_0 : Pipeline.Window sig grid2 :=
  Pipeline.Window.ofSpec (Memref.whole main_v60) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg18) S4096x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v61) S1x1024.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v62) S1x1024.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1024 : Shape := ⟨2, ![1, 1024]⟩
abbrev S2048x1x2048 : Shape := ⟨3, ![2048, 1, 2048]⟩
abbrev S50257x1024 : Shape := ⟨2, ![50257, 1024]⟩
abbrev S1024 : Shape := ⟨1, ![1024]⟩
abbrev S3072x1024 : Shape := ⟨2, ![3072, 1024]⟩
abbrev S1024x1 : Shape := ⟨2, ![1024, 1]⟩
abbrev S4096x1024 : Shape := ⟨2, ![4096, 1024]⟩
abbrev S4096x50257 : Shape := ⟨2, ![4096, 50257]⟩
abbrev S50257 : Shape := ⟨1, ![50257]⟩
abbrev S1x1 : Shape := ⟨2, ![1, 1]⟩
abbrev S1x50257 : Shape := ⟨2, ![1, 50257]⟩
abbrev S2048x2048 : Shape := ⟨2, ![2048, 2048]⟩
abbrev S2048x1024 : Shape := ⟨2, ![2048, 1024]⟩
abbrev S2048x3072 : Shape := ⟨2, ![2048, 3072]⟩
abbrev S2048x1 : Shape := ⟨2, ![2048, 1]⟩
abbrev S_ : Shape := ⟨0, ![]⟩
abbrev S2048 : Shape := ⟨1, ![2048]⟩
abbrev S1x2048 : Shape := ⟨2, ![1, 2048]⟩
abbrev S1x3072 : Shape := ⟨2, ![1, 3072]⟩
abbrev S1x4096 : Shape := ⟨2, ![1, 4096]⟩

abbrev nBuf : Space → Nat
  | .hbm => 122
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024, .f32⟩
  | .hbm, ⟨2, _⟩ => ⟨S2048x1x2048, .f32⟩
  | .hbm, ⟨3, _⟩ => ⟨S1x1024, .f32⟩
  | .hbm, ⟨4, _⟩ => ⟨S50257x1024, .f32⟩
  | .hbm, ⟨5, _⟩ => ⟨S1024, .f32⟩
  | .hbm, ⟨6, _⟩ => ⟨S3072x1024, .f32⟩
  | .hbm, ⟨7, _⟩ => ⟨S1024, .f32⟩
  | .hbm, ⟨8, _⟩ => ⟨S1024x1, .f32⟩
  | .hbm, ⟨9, _⟩ => ⟨S1, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S1024, .f32⟩
  | .hbm, ⟨14, _⟩ => ⟨S4096x1024, .f32⟩
  | .hbm, ⟨15, _⟩ => ⟨S1024, .f32⟩
  | .hbm, ⟨16, _⟩ => ⟨S4096x1024, .f32⟩
  | .hbm, ⟨17, _⟩ => ⟨S1024, .f32⟩
  | .hbm, ⟨18, _⟩ => ⟨S4096x50257, .f32⟩
  | .hbm, ⟨19, _⟩ => ⟨S50257, .f32⟩
  | .hbm, ⟨20, _⟩ => ⟨S1x1, .i32⟩
  | .hbm, ⟨21, _⟩ => ⟨S1x50257, .i32⟩
  | .hbm, ⟨22, _⟩ => ⟨S1x50257, .i32⟩
  | .hbm, ⟨23, _⟩ => ⟨S1x50257, .i1⟩
  | .hbm, ⟨24, _⟩ => ⟨S1x50257, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S2048x2048, .f32⟩
  | .hbm, ⟨29, _⟩ => ⟨S2048x1024, .f32⟩
  | .hbm, ⟨30, _⟩ => ⟨S2048x3072, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1, .f32⟩
  | .hbm, ⟨37, _⟩ => ⟨S1x1, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1x1, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S1, .f32⟩
  | .hbm, ⟨51, _⟩ => ⟨S1x1, .f32⟩
  | .hbm, ⟨52, _⟩ => ⟨S2048x1, .f32⟩
  | .hbm, ⟨53, _⟩ => ⟨S2048x1, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S1x3072, .f32⟩
  | .hbm, ⟨60, _⟩ => ⟨S1x4096, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S_, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S1x1024, .f32⟩
  | .hbm, ⟨103, _⟩ => ⟨S1x4096, .f32⟩
  | .hbm, ⟨104, _⟩ => ⟨S1x50257, .f32⟩
  | .hbm, ⟨105, _⟩ => ⟨S1x50257, .f32⟩
  | .hbm, ⟨106, _⟩ => ⟨S1x50257, .f32⟩
  | .hbm, ⟨107, _⟩ => ⟨S_, .f32⟩
  | .hbm, ⟨108, _⟩ => ⟨S1, .f32⟩
  | .hbm, ⟨109, _⟩ => ⟨S_, .f32⟩
  | .hbm, ⟨110, _⟩ => ⟨S1, .f32⟩
  | .hbm, ⟨111, _⟩ => ⟨S1, .f32⟩
  | .hbm, ⟨112, _⟩ => ⟨S1x1, .f32⟩
  | .hbm, ⟨113, _⟩ => ⟨S1x50257, .f32⟩
  | .hbm, ⟨114, _⟩ => ⟨S1x50257, .f32⟩
  | .hbm, ⟨115, _⟩ => ⟨S1x50257, .f32⟩
  | .hbm, ⟨116, _⟩ => ⟨S_, .f32⟩
  | .hbm, ⟨117, _⟩ => ⟨S1, .f32⟩
  | .hbm, ⟨118, _⟩ => ⟨S1x1, .f32⟩
  | .hbm, ⟨119, _⟩ => ⟨S1x1, .f32⟩
  | .hbm, ⟨120, _⟩ => ⟨S1x50257, .f32⟩
  | .hbm, ⟨121, _⟩ => ⟨S1x50257, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_5 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call1_cst : Ref sig .tc := ⟨.hbm, 107, rfl⟩
abbrev main_call1_v0 : Ref sig .tc := ⟨.hbm, 108, rfl⟩
abbrev main_call1_cst_0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_cst_1 : Ref sig .tc := ⟨.hbm, 116, rfl⟩
abbrev main_call1_v7 : Ref sig .tc := ⟨.hbm, 117, rfl⟩
abbrev main_call1_v8 : Ref sig .tc := ⟨.hbm, 118, rfl⟩
abbrev main_call1_v9 : Ref sig .tc := ⟨.hbm, 119, rfl⟩
abbrev main_call1_v10 : Ref sig .tc := ⟨.hbm, 120, rfl⟩
abbrev main_v73 : Ref sig .tc := ⟨.hbm, 121, rfl⟩

abbrev nD : Nat := 1
abbrev τ : Topo := Topo.v7x

variable {F : FTy → Type} [FloatOps F]

class Facts₀ : Prop where
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1024_S1x1024_1 : S1024.BroadcastsInDim S1x1024 (![1] : Fin 1 → Fin S1x1024.rank)
  shapeCasts_S2048x1x2048_S2048x2048 : S2048x1x2048.ShapeCasts S2048x2048
  bcast_S1x1024_S2048x1024_0_1 : S1x1024.BroadcastsInDim S2048x1024 (![0, 1] : Fin 2 → Fin S2048x1024.rank)
  concatenates_S2048x2048_S2048x1024_S2048x3072_d1 : Shape.Concatenates [S2048x2048, S2048x1024] S2048x3072 1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S1_d0 : S2048x1.ReducesTo [0] S1
  h_S_ : 0 < S_.numel
  bcast_S_S1 : S_.BroadcastsInDim S1 (![] : Fin 0 → Fin S1.rank)
  bcast_S2048x1_S2048x2048_0_1 : S2048x1.BroadcastsInDim S2048x2048 (![0, 1] : Fin 2 → Fin S2048x2048.rank)
  reducesTo_S2048x2048_S2048_d0 : S2048x2048.ReducesTo [0] S2048
  bcast_S2048_S1x2048_1 : S2048.BroadcastsInDim S1x2048 (![1] : Fin 1 → Fin S1x2048.rank)
  concatenates_S1x1024_S1x2048_S1x3072_d1 : Shape.Concatenates [S1x1024, S1x2048] S1x3072 1
  concatenates_S1x3072_S1x1024_S1x4096_d1 : Shape.Concatenates [S1x3072, S1x1024] S1x4096 1
  bcast_S_S1x1024 : S_.BroadcastsInDim S1x1024 (![] : Fin 0 → Fin S1x1024.rank)
  concatenates_S1x1024_S1x1024_S1x2048_S1x4096_d1 : Shape.Concatenates [S1x1024, S1x1024, S1x2048] S1x4096 1
  bcast_S50257_S1x50257_1 : S50257.BroadcastsInDim S1x50257 (![1] : Fin 1 → Fin S1x50257.rank)
  reducesTo_S1x50257_S1_d1 : S1x50257.ReducesTo [1] S1
  dot_S1x50257_S50257x1024_S1x1024_1_0_0_1_n_n_wf : DotDims.WF S1x50257 S50257x1024 S1x1024 [1] [0] [0] [1] [] []
  dot_S2048x3072_S3072x1024_S2048x1024_1_0_0_1_n_n_wf : DotDims.WF S2048x3072 S3072x1024 S2048x1024 [1] [0] [0] [1] [] []
  dot_S2048x1024_S1024x1_S2048x1_1_0_0_1_n_n_wf : DotDims.WF S2048x1024 S1024x1 S2048x1 [1] [0] [0] [1] [] []
  dot_S1x4096_S4096x1024_S1x1024_1_0_0_1_n_n_wf : DotDims.WF S1x4096 S4096x1024 S1x1024 [1] [0] [0] [1] [] []
  dot_S1x4096_S4096x50257_S1x50257_1_0_0_1_n_n_wf : DotDims.WF S1x4096 S4096x50257 S1x50257 [1] [0] [0] [1] [] []

variable [Facts₀]

def dot_S1x50257_S50257x1024_S1x1024_1_0_0_1_n_n : DotDims S1x50257 S50257x1024 S1x1024 where
  lhsContracting := [1]
  rhsContracting := [0]
  lhsNonContracting := [0]
  rhsNonContracting := [1]
  lhsBatch := []
  rhsBatch := []
  wf := dot_S1x50257_S50257x1024_S1x1024_1_0_0_1_n_n_wf
def dot_S2048x3072_S3072x1024_S2048x1024_1_0_0_1_n_n : DotDims S2048x3072 S3072x1024 S2048x1024 where
  lhsContracting := [1]
  rhsContracting := [0]
  lhsNonContracting := [0]
  rhsNonContracting := [1]
  lhsBatch := []
  rhsBatch := []
  wf := dot_S2048x3072_S3072x1024_S2048x1024_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf
def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf
def dot_S1x4096_S4096x50257_S1x50257_1_0_0_1_n_n : DotDims S1x4096 S4096x50257 S1x50257 where
  lhsContracting := [1]
  rhsContracting := [0]
  lhsNonContracting := [0]
  rhsNonContracting := [1]
  lhsBatch := []
  rhsBatch := []
  wf := dot_S1x4096_S4096x50257_S1x50257_1_0_0_1_n_n_wf

class Facts : Prop extends Facts₀ where

variable [Facts]
-- ==== Proof.KernelB.R0.Dat.lean ====
import proofs.«409657_j24300924961385_3_alg».proof.Proof.Gen.Kernel.Launch
import proofs.«409657_j24300924961385_3_alg».proof.Proof.Gen.Kernel.Skeleton
import proofs.«409657_j24300924961385_3_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def wlo0 (c : Dev nD) (t : Fin cfg0.N) : Vec F S2048x1024 .f32 :=
  (cfg0.win 2).fill (cfg0.grid.coords t) (fun _ => Scalar.ofBits .f32 0#32) (blk0 V c 2 t)

/-- The running maximum, the running sum, the running weighted sum of rows, and the hidden row's term of the score. -/
structure Scr0 (F : FTy → Type) [FloatOps F] where
  m : Vec F S1x1 .f32
  l : Vec F S1x1 .f32
  acc : Vec F S1x2048 .f32
  ht : Vec F S1x1024 .f32

def init0 (hid : Vec F S1x1024 .f32) (whi : Vec F S1024x1024 .f32) (battn : Vec F S1x1024 .f32) : Scr0 F :=
  ⟨k0_pay7, k0_pay8, k0_pay9, k0_pay10 hid whi battn⟩

def step0 (enc : Vec F S512x2048 .f32) (wlo : Vec F S2048x1024 .f32) (wout : Vec F S1024x1 .f32) (bout : Vec F S1x1 .f32)
    (s : Scr0 F) : Scr0 F :=
  ⟨k0_pay3 (k0_pay13 enc wlo s.ht wout bout s.m),
   k0_pay1 (k0_pay16 enc wlo s.ht wout bout s.m s.l) (k0_pay17 enc wlo s.ht wout bout s.m),
   k0_pay2 (k0_pay11 enc) (k0_pay14 enc wlo s.ht wout bout s.m) (k0_pay15 enc wlo s.ht wout bout s.m) s.acc,
   s.ht⟩

def scoresOf0 (enc : Vec F S512x2048 .f32) (wlo : Vec F S2048x1024 .f32) (wout : Vec F S1024x1 .f32) (bout : Vec F S1x1 .f32)
    (s : Scr0 F) : Vec F S512x1 .f32 :=
  k0_pay12 enc wlo s.ht wout bout

def prev0 (t : Fin cfg0.N) : Fin cfg0.N := ⟨t.val - 1, Nat.lt_of_le_of_lt (Nat.sub_le _ _) t.isLt⟩

def initAt0 (c : Dev nD) (t : Fin cfg0.N) : Scr0 F := init0 (blk0 V c 1 t) (blk0 V c 3 t) (blk0 V c 4 t)

def stepAt0 (c : Dev nD) (t : Fin cfg0.N) (s : Scr0 F) : Scr0 F := step0 (blk0 V c 0 t) (wlo0 V c t) (blk0 V c 5 t) (blk0 V c 6 t) s

/-- The state the step at point `t` starts from: the reset at an even point, what the point before left at an odd one. -/
def scrMid0 (c : Dev nD) (t : Fin cfg0.N) : Scr0 F :=
  if t.val % 2 = 0 then initAt0 V c t else stepAt0 V c (prev0 t) (initAt0 V c (prev0 t))

def scrAfter0 (c : Dev nD) (t : Fin cfg0.N) : Scr0 F := stepAt0 V c t (scrMid0 V c t)

def scoresAt0 (c : Dev nD) (t : Fin cfg0.N) : Vec F S512x1 .f32 :=
  scoresOf0 (blk0 V c 0 t) (wlo0 V c t) (blk0 V c 5 t) (blk0 V c 6 t) (scrMid0 V c t)

abbrev cond0_init (i : grid0.Coords) : Prop :=
  (Scalar.cmpi .ne (Scalar.extui (Scalar.cmpi .eq (BitVec.ofNat 32 (i 1).val) 0#32)) 0#32) = 1#1

theorem hcond0_init : ∀ t : Fin cfg0.N, cond0_init (grid0.coords t) ↔ t.val % 2 = 0 :=
  (by decide +kernel : ∀ t : Fin grid0.N, cond0_init (grid0.coords t) ↔ t.val % 2 = 0)

theorem hcond0_last : ∀ t : Fin cfg0.N, k0_cond2 (grid0.coords t) = 1#1 ↔ t.val % 2 = 1 :=
  (by decide +kernel : ∀ t : Fin grid0.N, k0_cond2 (grid0.coords t) = 1#1 ↔ t.val % 2 = 1)

abbrev scM0_0 : Memref sig .tc .vmem S1x1 .f32 := Memref.whole cc0_scratch0
abbrev scM0_1 : Memref sig .tc .vmem S1x1 .f32 := Memref.whole cc0_scratch1
abbrev scM0_2 : Memref sig .tc .vmem S1x2048 .f32 := Memref.whole cc0_scratch2
abbrev scM0_3 : Memref sig .tc .vmem S1x1024 .f32 := Memref.whole cc0_scratch3

def scrOwn0 (c : Dev nD) (s : Scr0 F) : sProp 𝕄 :=
  iprop(owns (c : Thread nD τ) scM0_0 fullShare s.m ∗ owns (c : Thread nD τ) scM0_1 fullShare s.l
    ∗ owns (c : Thread nD τ) scM0_2 fullShare s.acc ∗ owns (c : Thread nD τ) scM0_3 fullShare s.ht)

def PhiNamed0 (c : Dev nD) (s : Scr0 F) : sProp 𝕄 :=
  iprop((∃ r, prngReg c r) ∗ scrOwn0 c s
    ∗ Pipeline.scopedRestBut (Ix := Unit) (Name := ℕ) (U := UR sig nD τ) (Lvl := ℕ) (Val := Elt F) spec0 c [cc0_scratch0, cc0_scratch1, cc0_scratch2, cc0_scratch3])

def PhiAny0 (c : Dev nD) : sProp 𝕄 :=
  iprop((∃ r, prngReg c r) ∗ Pipeline.scopedRest (Ix := Unit) (Name := ℕ) (U := UR sig nD τ) (Lvl := ℕ) (Val := Elt F) spec0 c)

/-- Before positions 1 and 3 the state is what the even point before left; elsewhere it is unconstrained. -/
def Phi0 (c : Dev nD) (n : ℕ) : sProp 𝕄 :=
  if n = 1 then PhiNamed0 c (scrAfter0 V c t0_0) else if n = 3 then PhiNamed0 c (scrAfter0 V c t0_2) else PhiAny0 c

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => wlo0 V c t
    | ⟨3, _⟩ => blk0 V c 3 t
    | ⟨4, _⟩ => blk0 V c 4 t
    | ⟨5, _⟩ => blk0 V c 5 t
    | ⟨6, _⟩ => blk0 V c 6 t
    | ⟨7, _⟩ => scoresAt0 V c t
    | ⟨8, _⟩ => k0_pay4 (scrAfter0 V c t).m
    | ⟨9, _⟩ => k0_pay5 (scrAfter0 V c t).l
    | ⟨10, _⟩ => k0_pay6 (scrAfter0 V c t).acc
  Φ t := Phi0 V c t.val
  q w := if w = 2 then fullShare.left else if w = 3 then fullShare.right else fullShare
  owed _ := 0

theorem dat0_A (c : Dev nD) (w : Fin cfg0.W) : (dat0 V c).A w = V c (Pipeline.arrRef spec0 w) := rfl

theorem dat0_owed (c : Dev nD) (t : Fin (cfg0.N + 1)) : (dat0 V c).owed t = 0 := rfl

theorem dat0_q (c : Dev nD) (w : Fin cfg0.W) :
    (dat0 V c).q w = if w = 2 then fullShare.left else if w = 3 then fullShare.right else fullShare := rfl

theorem dat0_Φ (c : Dev nD) (t : Fin (cfg0.N + 1)) : (dat0 V c).Φ t = Phi0 V c t.val := rfl

theorem dat0_after_0 (c : Dev nD) (t : Fin cfg0.N) : (dat0 V c).after 0 t = blk0 V c 0 t := rfl
theorem dat0_after_1 (c : Dev nD) (t : Fin cfg0.N) : (dat0 V c).after 1 t = blk0 V c 1 t := rfl
theorem dat0_after_2 (c : Dev nD) (t : Fin cfg0.N) : (dat0 V c).after 2 t = wlo0 V c t := rfl
theorem dat0_after_3 (c : Dev nD) (t : Fin cfg0.N) : (dat0 V c).after 3 t = blk0 V c 3 t := rfl
theorem dat0_after_4 (c : Dev nD) (t : Fin cfg0.N) : (dat0 V c).after 4 t = blk0 V c 4 t := rfl
theorem dat0_after_5 (c : Dev nD) (t : Fin cfg0.N) : (dat0 V c).after 5 t = blk0 V c 5 t := rfl
theorem dat0_after_6 (c : Dev nD) (t : Fin cfg0.N) : (dat0 V c).after 6 t = blk0 V c 6 t := rfl
theorem dat0_after_7 (c : Dev nD) (t : Fin cfg0.N) : (dat0 V c).after 7 t = scoresAt0 V c t := rfl
theorem dat0_after_8 (c : Dev nD) (t : Fin cfg0.N) : (dat0 V c).after 8 t = k0_pay4 (scrAfter0 V c t).m := rfl
theorem dat0_after_9 (c : Dev nD) (t : Fin cfg0.N) : (dat0 V c).after 9 t = k0_pay5 (scrAfter0 V c t).l := rfl
theorem dat0_after_10 (c : Dev nD) (t : Fin cfg0.N) : (dat0 V c).after 10 t = k0_pay6 (scrAfter0 V c t).acc := rfl

theorem hin0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := Idealize.SL.BI.Entails.refl _

theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) :=
  Idealize.SL.BI.Entails.refl _

theorem dat0_recorded (c : Dev nD) (t : Fin (cfg0.N + 1)) : (dat0 V c).recorded t = Set.univ := rfl

theorem scrMid0_odd (c : Dev nD) (t : Fin cfg0.N) (h : t.val % 2 = 1) : scrMid0 V c t = scrAfter0 V c (prev0 t) := by
  unfold scrAfter0 scrMid0
  rw [if_neg (by omega), if_pos (show (prev0 t).val % 2 = 0 by unfold prev0; dsimp only; omega)]

theorem scrAfter0_even (c : Dev nD) (t : Fin cfg0.N) (h : t.val % 2 = 0) :
    scrAfter0 V c t = step0 (blk0 V c 0 t) (wlo0 V c t) (blk0 V c 5 t) (blk0 V c 6 t) (init0 (blk0 V c 1 t) (blk0 V c 3 t) (blk0 V c 4 t)) := by
  unfold scrAfter0 scrMid0; rw [if_pos h]; rfl

theorem scoresAt0_even (c : Dev nD) (t : Fin cfg0.N) (h : t.val % 2 = 0) :
    scoresAt0 V c t = scoresOf0 (blk0 V c 0 t) (wlo0 V c t) (blk0 V c 5 t) (blk0 V c 6 t) (init0 (blk0 V c 1 t) (blk0 V c 3 t) (blk0 V c 4 t)) := by
  unfold scoresAt0 scrMid0; rw [if_pos h]; rfl

theorem scrAfter0_odd (c : Dev nD) (t : Fin cfg0.N) (h : t.val % 2 = 1) :
    scrAfter0 V c t = step0 (blk0 V c 0 t) (wlo0 V c t) (blk0 V c 5 t) (blk0 V c 6 t) (scrAfter0 V c (prev0 t)) := by
  rw [← scrMid0_odd V c t h]; rfl

theorem scoresAt0_odd (c : Dev nD) (t : Fin cfg0.N) (h : t.val % 2 = 1) :
    scoresAt0 V c t = scoresOf0 (blk0 V c 0 t) (wlo0 V c t) (blk0 V c 5 t) (blk0 V c 6 t) (scrAfter0 V c (prev0 t)) := by
  rw [← scrMid0_odd V c t h]; rfl

end Cert.Kernel.Hand

end
-- ==== Proof.KernelB.R1.Dat.lean ====
import proofs.«409657_j24300924961385_3_alg».proof.Proof.Gen.Kernel.Skeleton
import proofs.«409657_j24300924961385_3_alg».proof.Proof.Gen.Kernel.Launch
import proofs.«409657_j24300924961385_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Acc1 (F : FTy → Type) : Type :=
  Vec F S1x512 .f32 × Vec F S1x512 .f32 × Vec F S1x512 .f32 × Vec F S1x512 .f32

def zero1 : Acc1 F := (k1_pay4 (F := F), k1_pay5 (F := F), k1_pay6 (F := F), k1_pay7 (F := F))

def step1 (x : Vec F S1x1024 .f32) (w1 w2 w3 w4 : Vec F S1024x512 .f32) (a : Acc1 F) : Acc1 F :=
  (k1_pay9 x a.1 w1, k1_pay10 x a.2.1 w2, k1_pay11 x a.2.2.1 w3, k1_pay1 (k1_pay8 x) a.2.2.2 w4)

def stepAt1 (c : Dev nD) (t : Fin cfg1.N) (a : Acc1 F) : Acc1 F :=
  step1 (blk1 V c 0 t) (blk1 V c 1 t) (blk1 V c 2 t) (blk1 V c 3 t) (blk1 V c 4 t) a

def back1 (t : Fin cfg1.N) (i : ℕ) : Fin cfg1.N := ⟨t.val - i, lt_of_le_of_lt (Nat.sub_le _ _) t.isLt⟩

/-- The accumulators after point `t = (j, k)`: `k + 1` tiles folded from the zero fill, over the points `(j, 0), …, (j, k)`. -/
def accAfter1 (c : Dev nD) (t : Fin cfg1.N) : Acc1 F :=
  match t.val % 4 with
  | 0 => stepAt1 V c t zero1
  | 1 => stepAt1 V c t (stepAt1 V c (back1 t 1) zero1)
  | 2 => stepAt1 V c t (stepAt1 V c (back1 t 1) (stepAt1 V c (back1 t 2) zero1))
  | _ => stepAt1 V c t (stepAt1 V c (back1 t 1) (stepAt1 V c (back1 t 2) (stepAt1 V c (back1 t 3) zero1)))

theorem accAfter1_first (c : Dev nD) (t : Fin cfg1.N) (h : t.val % 4 = 0) :
    accAfter1 V c t = stepAt1 V c t zero1 := by
  unfold accAfter1; rw [h]; rfl

theorem accAfter1_last (c : Dev nD) (t : Fin cfg1.N) (h : t.val % 4 = 3) :
    accAfter1 V c t = stepAt1 V c t (stepAt1 V c (back1 t 1) (stepAt1 V c (back1 t 2) (stepAt1 V c (back1 t 3) zero1))) := by
  unfold accAfter1; rw [h]; rfl

/-- After a point that is not a first tile: one more tile over what the point before left. -/
theorem accAfter1_next (c : Dev nD) (t : Fin cfg1.N) (h : t.val % 4 ≠ 0) :
    accAfter1 V c t = stepAt1 V c t (accAfter1 V c (back1 t 1)) := by
  have h1 : ∀ i, back1 (back1 t 1) i = back1 t (i + 1) := fun i => Fin.ext (by simp only [back1]; omega)
  have hb : (back1 t 1).val = t.val - 1 := rfl
  unfold accAfter1
  obtain hk | hk | hk : t.val % 4 = 1 ∨ t.val % 4 = 2 ∨ t.val % 4 = 3 := by omega
  · simp only [hk, show (back1 t 1).val % 4 = 0 by omega]
  · simp only [hk, show (back1 t 1).val % 4 = 1 by omega, h1]
  · simp only [hk, show (back1 t 1).val % 4 = 2 by omega, h1]

def out10_1 (a : Acc1 F) (b5 b7 b8 cell : Vec F S1x512 .f32) : Vec F S1x512 .f32 :=
  k1_pay2 a.1 b5 a.2.2.1 b7 a.2.2.2 b8 cell

def out11_1 (a : Acc1 F) (b5 b6 b7 b8 cell : Vec F S1x512 .f32) : Vec F S1x512 .f32 :=
  k1_pay3 a.1 b5 a.2.1 b6 a.2.2.1 b7 a.2.2.2 b8 cell

abbrev r1_scM_0 : Memref sig .tc .vmem S1x512 .f32 := Memref.whole cc1_scratch0
abbrev r1_scM_1 : Memref sig .tc .vmem S1x512 .f32 := Memref.whole cc1_scratch1
abbrev r1_scM_2 : Memref sig .tc .vmem S1x512 .f32 := Memref.whole cc1_scratch2
abbrev r1_scM_3 : Memref sig .tc .vmem S1x512 .f32 := Memref.whole cc1_scratch3

def r1_scrAny (c : Dev nD) : sProp 𝕄 :=
  iprop((∃ d, owns (c : Thread nD τ) r1_scM_0 fullShare d) ∗ (∃ d, owns (c : Thread nD τ) r1_scM_1 fullShare d)
    ∗ (∃ d, owns (c : Thread nD τ) r1_scM_2 fullShare d) ∗ (∃ d, owns (c : Thread nD τ) r1_scM_3 fullShare d))

def r1_scrAt (c : Dev nD) (a : Acc1 F) : sProp 𝕄 :=
  iprop(owns (c : Thread nD τ) r1_scM_0 fullShare a.1 ∗ owns (c : Thread nD τ) r1_scM_1 fullShare a.2.1
    ∗ owns (c : Thread nD τ) r1_scM_2 fullShare a.2.2.1 ∗ owns (c : Thread nD τ) r1_scM_3 fullShare a.2.2.2)

def r1_rest (c : Dev nD) : sProp 𝕄 :=
  iprop((∃ r, prngReg c r) ∗ Pipeline.scopedRestBut spec1 c [cc1_scratch0, cc1_scratch1, cc1_scratch2, cc1_scratch3])

def r1_PhiS (c : Dev nD) : (n : ℕ) → n ≤ cfg1.N → sProp 𝕄
  | 0, _ => iprop(r1_rest c ∗ r1_scrAny c)
  | n + 1, hn => iprop(r1_rest c ∗ if (n + 1) % 4 = 0 then r1_scrAny c else r1_scrAt c (accAfter1 V c ⟨n, hn⟩))

theorem r1_PhiS_any (c : Dev nD) (n : ℕ) (h : n ≤ cfg1.N) (hn : n % 4 = 0) :
    r1_PhiS V c n h = iprop(r1_rest c ∗ r1_scrAny c) := by
  cases n with
  | zero => rfl
  | succ n => simp only [r1_PhiS, if_pos hn]

theorem r1_PhiS_at (c : Dev nD) (n : ℕ) (h : n ≤ cfg1.N) (hn : n % 4 ≠ 0) :
    r1_PhiS V c n h = iprop(r1_rest c ∗ r1_scrAt c (accAfter1 V c ⟨n - 1, by omega⟩)) := by
  cases n with
  | zero => exact absurd rfl hn
  | succ n => simp only [r1_PhiS, if_neg hn]; rfl

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => out10_1 (accAfter1 V c t) (blk1 V c 5 t) (blk1 V c 7 t) (blk1 V c 8 t) (blk1 V c 9 t)
    | ⟨11, _⟩ => out11_1 (accAfter1 V c t) (blk1 V c 5 t) (blk1 V c 6 t) (blk1 V c 7 t) (blk1 V c 8 t) (blk1 V c 9 t)
  Φ t := r1_PhiS V c t.val (Nat.le_of_lt_succ t.isLt)
  q _ := fullShare
  owed _ := 0

theorem dat1_A (c : Dev nD) (w : Fin cfg1.W) : (dat1 V c).A w = V c (Pipeline.arrRef spec1 w) := rfl

theorem dat1_owed (c : Dev nD) (t : Fin (cfg1.N + 1)) : (dat1 V c).owed t = 0 := rfl

theorem dat1_q (c : Dev nD) (w : Fin cfg1.W) : (dat1 V c).q w = fullShare := rfl

theorem r1_dat_Phi (c : Dev nD) (t : Fin (cfg1.N + 1)) :
    (dat1 V c).Φ t = r1_PhiS V c t.val (Nat.le_of_lt_succ t.isLt) := rfl

theorem dat1_after_0 (c : Dev nD) (t : Fin cfg1.N) : (dat1 V c).after 0 t = blk1 V c 0 t := rfl
theorem dat1_after_1 (c : Dev nD) (t : Fin cfg1.N) : (dat1 V c).after 1 t = blk1 V c 1 t := rfl
theorem dat1_after_2 (c : Dev nD) (t : Fin cfg1.N) : (dat1 V c).after 2 t = blk1 V c 2 t := rfl
theorem dat1_after_3 (c : Dev nD) (t : Fin cfg1.N) : (dat1 V c).after 3 t = blk1 V c 3 t := rfl
theorem dat1_after_4 (c : Dev nD) (t : Fin cfg1.N) : (dat1 V c).after 4 t = blk1 V c 4 t := rfl
theorem dat1_after_5 (c : Dev nD) (t : Fin cfg1.N) : (dat1 V c).after 5 t = blk1 V c 5 t := rfl
theorem dat1_after_6 (c : Dev nD) (t : Fin cfg1.N) : (dat1 V c).after 6 t = blk1 V c 6 t := rfl
theorem dat1_after_7 (c : Dev nD) (t : Fin cfg1.N) : (dat1 V c).after 7 t = blk1 V c 7 t := rfl
theorem dat1_after_8 (c : Dev nD) (t : Fin cfg1.N) : (dat1 V c).after 8 t = blk1 V c 8 t := rfl
theorem dat1_after_9 (c : Dev nD) (t : Fin cfg1.N) : (dat1 V c).after 9 t = blk1 V c 9 t := rfl
theorem dat1_after_10 (c : Dev nD) (t : Fin cfg1.N) :
    (dat1 V c).after 10 t = out10_1 (accAfter1 V c t) (blk1 V c 5 t) (blk1 V c 7 t) (blk1 V c 8 t) (blk1 V c 9 t) := rfl
theorem dat1_after_11 (c : Dev nD) (t : Fin cfg1.N) :
    (dat1 V c).after 11 t = out11_1 (accAfter1 V c t) (blk1 V c 5 t) (blk1 V c 6 t) (blk1 V c 7 t) (blk1 V c 8 t) (blk1 V c 9 t) := rfl

theorem hin1 (c : Dev nD) :
    iprop((∃ r, prngReg c r) ∗ Pipeline.scopedRest spec1 c) ⊢ ((dat1 V c).Φ 0 : sProp 𝕄) := by
  rw [r1_dat_Phi, r1_PhiS_any V c (0 : Fin (cfg1.N + 1)).val _ (by rfl), scopedRest1_split]
  unfold r1_rest r1_scrAny
  simp only [r1_scM_0, r1_scM_1, r1_scM_2, r1_scM_3, owns_whole]
  iintro ⟨Hg, Hs, Hr⟩
  isplitl [Hg Hr]
  · isplitl [Hg]; · iexact Hg
    iexact Hr
  iexact Hs

theorem hout1 (c : Dev nD) :
    (dat1 V c).Φ (Fin.last cfg1.N) ⊢ (iprop((∃ r, prngReg c r) ∗ Pipeline.scopedRest spec1 c) : sProp 𝕄) := by
  rw [r1_dat_Phi, r1_PhiS_any V c _ _ (by rw [Fin.val_last]; show grid1.N % 4 = 0; rw [N_1]), scopedRest1_split]
  unfold r1_rest r1_scrAny
  simp only [r1_scM_0, r1_scM_1, r1_scM_2, r1_scM_3, owns_whole]
  iintro ⟨⟨Hg, Hr⟩, Hs⟩
  isplitl [Hg]; · iexact Hg
  isplitr [Hr]; · iexact Hs
  iexact Hr

theorem dat1_recorded (c : Dev nD) (t : Fin (cfg1.N + 1)) : (dat1 V c).recorded t = Set.univ := rfl

end Cert.Kernel.Hand

end
-- ==== Proof.KernelB.R2.lean ====
import proofs.«409657_j24300924961385_3_alg».proof.Proof.Gen.Kernel.Launch
import proofs.«409657_j24300924961385_3_alg».proof.Proof.Gen.Kernel.Skeleton
import proofs.«409657_j24300924961385_3_alg».proof.Proof.Gen.Kernel.Points
import Idealize.ShloMosaic.Lib.Pipeline.FrameBody
import Idealize.ShloMosaic.Lib.Pipeline.Regions
import Idealize.ShloMosaic.Lib.Tactic

set_option maxRecDepth 1160

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def asmb_rdat2 (c : Dev nD) : RDat τ (Elt F) Unit ℕ (UR sig nD τ) ℕ cfg2 c where
  A w := V c (Pipeline.arrRef spec2 w)
  after _ _ _ _ := True
  Φ _ := Pipeline.ΦA spec2 c
  q _ := fullShare
  owed _ := 0

theorem asmb_rdat2_share (c : Dev nD) (w : Fin cfg2.W) : (asmb_rdat2 V c).share w = fullShare := by
  unfold RDat.share; split <;> rfl

theorem asmb_sound_kernel2 (c : Dev nD) (E : Set ℕ) (i : grid2.Coords)
    (arg1 : Memref sig .tc .vmem S1x4096 .f32) (harg1 : arg1.IsWhole) (arg2 : Memref sig .tc .vmem S4096x1024 .f32) (harg2 : arg2.IsWhole)
    (arg3 : Memref sig .tc .vmem S1x1024 .f32) (harg3 : arg3.IsWhole) (arg4 : Memref sig .tc .vmem S1x1024 .f32) (harg4 : arg4.IsWhole)
    (x1 : Vec F S1x4096 .f32) (x2 : Vec F S4096x1024 .f32) (x3 : Vec F S1x1024 .f32) (x4 : Vec F S1x1024 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ (iprop(owns (c : Thread nD τ) arg1 fullShare x1 ∗ owns (c : Thread nD τ) arg2 fullShare x2 ∗ owns (c : Thread nD τ) arg3 fullShare x3
            ∗ ∃ d, owns (c : Thread nD τ) arg4 fullShare d) -∗ K ⟨⟩))
      ⊢ wp frame (wpE (defs₀ (F := F)) Variants.none c none) E (cc2__linear_act_kernel i arg1 harg1 arg2 harg2 arg3 harg3 arg4 harg4) K := by
  simp only [cc2__linear_act_kernel_eq_skeleton]; unfold cc2__linear_act_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; iexists _; isplitr
  swap; · iexact H4
  ipureintro; rfl

theorem asmb_sound_body2 (c : Dev nD) (t : Fin cfg2.N) (Y : (w : Fin cfg2.W) → (cfg2.win w).block.Idx → Elt F (cfg2.win w).elt) :
    iprop((asmb_rdat2 V c).Φ t.castSucc ∗ (asmb_rdat2 V c).owesAt () t.castSucc
        ∗ owns (c : Thread nD τ) (st2_0 t) fullShare (Y 0) ∗ owns (c : Thread nD τ) (st2_1 t) fullShare (Y 1)
        ∗ owns (c : Thread nD τ) (st2_2 t) fullShare (Y 2) ∗ owns (c : Thread nD τ) (st2_3 t) fullShare (Y 3))
      ⊢ wp frame (wpE (defs₀ (F := F)) Variants.none c none) Set.univ (bodyAt2 t) (fun _ =>
          iprop((asmb_rdat2 V c).Φ t.succ ∗ (asmb_rdat2 V c).owesAt () t.succ
            ∗ (∃ X, ⌜(asmb_rdat2 V c).after 0 t (Y 0) X⌝ ∗ owns (c : Thread nD τ) (st2_0 t) fullShare X)
            ∗ (∃ X, ⌜(asmb_rdat2 V c).after 1 t (Y 1) X⌝ ∗ owns (c : Thread nD τ) (st2_1 t) fullShare X)
            ∗ (∃ X, ⌜(asmb_rdat2 V c).after 2 t (Y 2) X⌝ ∗ owns (c : Thread nD τ) (st2_2 t) fullShare X)
            ∗ (∃ X, ⌜(asmb_rdat2 V c).after 3 t (Y 3) X⌝ ∗ owns (c : Thread nD τ) (st2_3 t) fullShare X))) := by
  unfold bodyAt2
  rw [show (asmb_rdat2 V c).Φ t.succ = (asmb_rdat2 V c).Φ t.castSucc from rfl,
    show (asmb_rdat2 V c).owesAt () t.succ = (asmb_rdat2 V c).owesAt () t.castSucc from rfl]
  iintro ⟨HΦ, Ho, H0, H1, H2, H3⟩
  iapply (asmb_sound_kernel2 c Set.univ _ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, ⟨%d, H3⟩⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  iexists d; isplitr; · ipureintro; trivial
  iexact H3

theorem asmb_body_obligation2 (c : Dev nD) : (asmb_rdat2 (F := F) V c).BodyObligation (defs₀ (F := F)) Variants.none () Set.univ := fun t Y _ => by
  rw [bigSep_W2, bigSep_W2]
  exact asmb_sound_body2 V c t Y

end Region2

end Cert.Kernel.Hand

end
-- ==== Proof.KernelB.Vals.lean ====
import proofs.«409657_j24300924961385_3_alg».proof.Proof.KernelB.R0.Dat
import proofs.«409657_j24300924961385_3_alg».proof.Proof.KernelB.R1.Dat
import proofs.«409657_j24300924961385_3_alg».proof.Proof.KernelB.R2
import proofs.«409657_j24300924961385_3_alg».proof.Proof.Gen.Kernel.Regions
import Idealize.ShloMosaic.Lib.Pipeline.Frame
import Idealize.ShloMosaic.Lib.Pipeline.Regions

set_option maxRecDepth 1160

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Pipeline (Seg HostSeg)

variable (m : (ℓ : Loc nD τ sig) → Buf (Elt F) ℓ)

abbrev asmb_V : Variants := Variants.none

abbrev asmb_L : GSem nD τ sig → Finset Unit := fun _ => ∅
abbrev asmb_lv : GSem nD τ sig → Unit → ℕ := fun _ _ => 0

abbrev asmb_R (c : Dev nD) : sProp 𝕄 := iprop((∃ r, prngReg c r) ∗ ∃ W, owes (c : Thread nD τ) (0 : CellTallies nD τ sig Unit) W)

abbrev asmb_E : Fin 4 → Dev nD → sProp 𝕄 := fun _ => asmb_R

abbrev asmb_VR (W : Dev nD → Valuation τ sig (Elt F)) : (c : Dev nD) → (b : Ref sig .tc) → Buf (Elt F) ((c : Thread nD τ).loc b) :=
  fun c b => W c b

def asmb_outsA : Outs (F := F) := fun _ r c =>
  if h : r = main_v14_0 then h ▸ (show Buf (Elt F) ((c : Thread nD τ).loc main_v14_0) from (dat0 (asmb_VR (V1 m)) c).arrAt 7 cfg0.N)
  else if h : r = main_v14_1 then h ▸ (show Buf (Elt F) ((c : Thread nD τ).loc main_v14_1) from (dat0 (asmb_VR (V1 m)) c).arrAt 8 cfg0.N)
  else if h : r = main_v14_2 then h ▸ (show Buf (Elt F) ((c : Thread nD τ).loc main_v14_2) from (dat0 (asmb_VR (V1 m)) c).arrAt 9 cfg0.N)
  else if h : r = main_v14_3 then h ▸ (show Buf (Elt F) ((c : Thread nD τ).loc main_v14_3) from (dat0 (asmb_VR (V1 m)) c).arrAt 10 cfg0.N)
  else V0 m c r

def asmb_outsB : Outs (F := F) := fun J r c =>
  match J with
  | 4 =>
    if h : r = main_v59_0 then h ▸ (show Buf (Elt F) ((c : Thread nD τ).loc main_v59_0) from (dat1 (asmb_VR (V3 m (asmb_outsA m))) c).arrAt 10 cfg1.N)
    else if h : r = main_v59_1 then h ▸ (show Buf (Elt F) ((c : Thread nD τ).loc main_v59_1) from (dat1 (asmb_VR (V3 m (asmb_outsA m))) c).arrAt 11 cfg1.N)
    else V0 m c r
  | _ => asmb_outsA m J r c

theorem asmb_V3B (c : Dev nD) : V3 m (asmb_outsB m) c = V3 m (asmb_outsA m) c := rfl

def asmb_rdats : (p : Fin 3) → (c : Dev nD) → RDat τ (Elt F) Unit ℕ (UR sig nD τ) ℕ (Pipeline.pin (pcfgs (F := F)) Gen.adm p) c
  | ⟨0, _⟩ => fun c => (dat0 (asmb_VR (V1 m)) c).toR
  | ⟨1, _⟩ => fun c => (dat1 (asmb_VR (V3 m (asmb_outsA m))) c).toR
  | ⟨2, _⟩ => fun c => asmb_rdat2 (asmb_VR (V5 m (asmb_outsB m))) c

theorem asmb_outsA_0 (c : Dev nD) : asmb_outsA m 2 main_v14_0 c = (dat0 (asmb_VR (V1 m)) c).arrAt 7 cfg0.N := by
  unfold asmb_outsA; rw [dif_pos rfl]
theorem asmb_outsA_1 (c : Dev nD) : asmb_outsA m 2 main_v14_1 c = (dat0 (asmb_VR (V1 m)) c).arrAt 8 cfg0.N := by
  unfold asmb_outsA; rw [dif_neg (by decide), dif_pos rfl]
theorem asmb_outsA_2 (c : Dev nD) : asmb_outsA m 2 main_v14_2 c = (dat0 (asmb_VR (V1 m)) c).arrAt 9 cfg0.N := by
  unfold asmb_outsA; rw [dif_neg (by decide), dif_neg (by decide), dif_pos rfl]
theorem asmb_outsA_3 (c : Dev nD) : asmb_outsA m 2 main_v14_3 c = (dat0 (asmb_VR (V1 m)) c).arrAt 10 cfg0.N := by
  unfold asmb_outsA; rw [dif_neg (by decide), dif_neg (by decide), dif_neg (by decide), dif_pos rfl]
theorem asmb_outsB_0 (c : Dev nD) : asmb_outsB m 4 main_v59_0 c = (dat1 (asmb_VR (V3 m (asmb_outsA m))) c).arrAt 10 cfg1.N := by
  unfold asmb_outsB; dsimp only; rw [dif_pos rfl]; rfl
theorem asmb_outsB_1 (c : Dev nD) : asmb_outsB m 4 main_v59_1 c = (dat1 (asmb_VR (V3 m (asmb_outsA m))) c).arrAt 11 cfg1.N := by
  unfold asmb_outsB; dsimp only; rw [dif_neg (by decide), dif_pos rfl]; rfl

theorem asmb_tail_arg (outs : Outs (F := F)) (c : Dev nD) (X : Buf (Elt F) ((c : Thread nD τ).loc main_v62)) (r : Ref sig .tc)
    (h0 : r ∉ hostOps0_W) (h1 : r ∉ ([main_v14_0, main_v14_1, main_v14_2, main_v14_3] : List (Ref sig .tc))) (h2 : r ∉ hostOps1_W)
    (h3 : r ∉ ([main_v59_0, main_v59_1] : List (Ref sig .tc))) (h4 : r ∉ hostOps2_W) (h5 : r ∉ ([main_v62] : List (Ref sig .tc)))
    (h6 : r ∉ hostOps3_W) :
    StableHlo.after hostOps3 (Function.update (V5 m outs c) main_v62 X) r = m ((c : Thread nD τ).loc r) :=
  (StableHlo.after_of_writes_sub hostOps3 _ hostOps3_writes h6).trans <|
    (Function.update_of_ne (StableHlo.devRef_ne_of_ne (List.ne_of_not_mem_cons h5) : (Proc.devRef .tc r : DevRef τ sig) ≠ Proc.devRef .tc main_v62) _ _).trans <|
    (V5_of m outs c r h4).trans <| (V4_of m outs c r h3).trans <| (V3_of m outs c r h2).trans <| (V2_of m outs c r h1).trans <|
    (V1_of m c r h0).trans rfl

theorem asmb_share1 (c : Dev nD) (w : Fin cfg1.W) : (asmb_rdats m 1 c).share w = fullShare := by
  show (dat1 (asmb_VR (V3 m (asmb_outsA m))) c).share w = fullShare
  unfold Dat.share; split
  · rfl
  · exact dat1_q _ c w

theorem asmb_share2 (c : Dev nD) (w : Fin cfg2.W) : (asmb_rdats m 2 c).share w = fullShare := asmb_rdat2_share _ c w

end Cert.Kernel.Hand

end
-- ==== Proof.KernelB.Shape.lean ====
import proofs.«409657_j24300924961385_3_alg».proof.Proof.Gen.Kernel.Launch
import Idealize.ShloMosaic.Lib.Pipeline.Frame
import Idealize.ShloMosaic.Lib.Pipeline.Regions
import Idealize.ShloMosaic.Lib.Tactic

set_option maxRecDepth 1160

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

theorem asmb_shape_entry {P₁ P₂ P₃ P₄ P₅ P₆ P₇ P₈ : sProp 𝕄} (hA : P₁ ⊢ iprop(P₂ ∗ P₃)) (hO : P₅ ⊢ P₆) (hPH : (BI.emp : sProp 𝕄) ⊢ P₇) :
    iprop(iprop(P₁ ∗ P₄ ∗ P₅) ∗ emp ∗ P₈) ⊢ (|={Set.univ}=> iprop(P₂ ∗ P₇ ∗ P₆ ∗ P₄ ∗ P₃) : sProp 𝕄) := by
  iintro ⟨⟨Hh, Hp, HO⟩, -, -⟩
  ihave H1 := hA $$ Hh
  icases H1 with ⟨Ha, Hz⟩
  ihave HO' := hO $$ HO
  imodintro
  isplitl [Ha]; · iexact Ha
  isplitr; · iapply hPH; iempintro
  isplitl [HO']; · iexact HO'
  isplitl [Hp]; · iexact Hp
  iexact Hz

theorem asmb_shape_exit {P₁ P₂ P₃ P₄ P₅ P₆ : sProp 𝕄} (hH : iprop(P₁ ∗ P₂) ⊢ P₃) (hO : P₄ ⊢ P₅) :
    iprop(P₁ ∗ P₄ ∗ P₆ ∗ P₂) ⊢ (|={Set.univ}=> iprop(P₃ ∗ P₆ ∗ P₅) : sProp 𝕄) := by
  iintro ⟨Ha, HO, HY, Hz⟩
  ihave Hh := hH $$ [Ha Hz]
  · isplitl [Ha] <;> iassumption
  ihave HO' := hO $$ HO
  imodintro
  isplitl [Hh]; · iexact Hh
  isplitl [HY]; · iexact HY
  iexact HO'

theorem asmb_shape_in {P₁ P₂ P₃ P₄ : sProp 𝕄} (h : iprop(P₁ ∗ P₂) ⊢ P₃) : iprop(P₁ ∗ P₄ ∗ P₂) ⊢ (P₃ : sProp 𝕄) := by
  refine BIBase.Entails.trans ?_ h
  iintro ⟨Hp, -, Hr⟩
  isplitl [Hp]; · iexact Hp
  iexact Hr

theorem asmb_shape_out {P₁ P₂ P₃ : sProp 𝕄} (h : P₁ ⊢ iprop(P₂ ∗ P₃)) : P₁ ⊢ (iprop(P₂ ∗ emp ∗ P₃) : sProp 𝕄) := by
  refine h.trans ?_
  iintro ⟨Hp, Hr⟩
  isplitl [Hp]; · iexact Hp
  isplitr; · iempintro
  iexact Hr

theorem asmb_owes_in (c : Dev nD) (B : Set (SemLoc sig × Unit)) (hB : ∀ x, x ∈ B) :
    (iprop(∃ W, owes (c : Thread nD τ) (0 : CellTallies nD τ sig Unit) W) : sProp 𝕄) ⊢ Pipeline.owesWithin c 0 B := by
  iintro ⟨%W, HO⟩; iexists W; isplitr
  · ipureintro; exact fun x _ => hB x
  iexact HO
theorem asmb_owes_out (c : Dev nD) (B : Set (SemLoc sig × Unit)) :
    (Pipeline.owesWithin c 0 B : sProp 𝕄) ⊢ iprop(∃ W, owes (c : Thread nD τ) (0 : CellTallies nD τ sig Unit) W) := by
  iintro ⟨%W, -, HO⟩; iexists W; iexact HO

theorem asmb_prefHeld (p : Fin 3) (c : Dev nD) :
    (BI.emp : sProp 𝕄) ⊢ Pipeline.prefHeld (Ix := Unit) (Name := ℕ) (U := UR sig nD τ) (Lvl := ℕ) (pcfgs (F := F) p).pre c (fun _ => fullShare) ((cfgs p).toPCfg_adm (Val := Elt F)).1 := by
  unfold Pipeline.prefHeld
  rw [show (Finset.univ : Finset (Fin 0)) = ∅ from rfl, BI.bigSep_empty]

end Cert.Kernel.Hand

end
-- ==== Proof.KernelB.R0.Body.lean ====
import proofs.«409657_j24300924961385_3_alg».proof.Proof.KernelB.R0.Dat
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem r0_hz2 : (![0, 0] : Fin 2 → Nat) = fun _ => 0 := funext fun a => by fin_cases a <;> rfl
theorem r0_hz3 : (![0, 0, 0] : Fin 3 → Nat) = fun _ => 0 := funext fun a => by fin_cases a <;> rfl

theorem r0_read_last_whole {sig : RefSig} {κ : Kind} {sp : Space} {Val : EltTy → Type} [∀ e, Nonempty (Val e)] {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

variable (c : Dev nD) (E : Set ℕ) (i : grid0.Coords) (arg2 : Memref sig .tc .vmem S512x2048 .f32) (harg2 : arg2.IsWhole) (arg3 : Memref sig .tc .vmem S1x1024 .f32) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x2048 .f32) (harg15 : arg15.IsWhole) (arg16 : Memref sig .tc .vmem S1x1024 .f32) (harg16 : arg16.IsWhole)

set_option maxHeartbeats 4000000 in
/-- One run of the body: the scratch state reset first on a row's first block, the partial results stored on its last only. -/
theorem r0_kernel (enc : Vec F S512x2048 .f32) (hid : Vec F S1x1024 .f32) (wlo : Vec F S2048x1024 .f32) (whi : Vec F S1024x1024 .f32)
    (battn : Vec F S1x1024 .f32) (wout : Vec F S1024x1 .f32) (bout : Vec F S1x1 .f32) (y8 y9 o8 o9 : Vec F S1x1x1 .f32)
    (y10 o10 : Vec F S1x1x2048 .f32) (s z : Scr0 F) (hz : z = if cond0_init i then init0 hid whi battn else s)
    (ho8 : o8 = if k0_cond2 i = 1#1 then k0_pay4 (step0 enc wlo wout bout z).m else y8) (ho9 : o9 = if k0_cond2 i = 1#1 then k0_pay5 (step0 enc wlo wout bout z).l else y9)
    (ho10 : o10 = if k0_cond2 i = 1#1 then k0_pay6 (step0 enc wlo wout bout z).acc else y10) (K : PUnit → sProp 𝕄) :
    iprop(owns c arg2 fullShare enc ∗ owns c arg3 fullShare hid ∗ owns c arg4 fullShare wlo ∗ owns c arg5 fullShare whi ∗ owns c arg6 fullShare battn ∗ owns c arg7 fullShare wout ∗ owns c arg8 fullShare bout ∗ (∃ d, owns c arg9 fullShare d) ∗ owns c arg10 fullShare y8 ∗ owns c arg11 fullShare y9 ∗ owns c arg12 fullShare y10
        ∗ owns c arg13 fullShare s.m ∗ owns c arg14 fullShare s.l ∗ owns c arg15 fullShare s.acc ∗ owns c arg16 fullShare s.ht
        ∗ (iprop(owns c arg2 fullShare enc ∗ owns c arg3 fullShare hid ∗ owns c arg4 fullShare wlo ∗ owns c arg5 fullShare whi ∗ owns c arg6 fullShare battn ∗ owns c arg7 fullShare wout ∗ owns c arg8 fullShare bout ∗ owns c arg9 fullShare (scoresOf0 enc wlo wout bout z) ∗ owns c arg10 fullShare o8 ∗ owns c arg11 fullShare o9 ∗ owns c arg12 fullShare o10
          ∗ owns c arg13 fullShare (step0 enc wlo wout bout z).m ∗ owns c arg14 fullShare (step0 enc wlo wout bout z).l ∗ owns c arg15 fullShare (step0 enc wlo wout bout z).acc ∗ owns c arg16 fullShare (step0 enc wlo wout bout z).ht) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hz ho8 ho9 ho10
  obtain ⟨sm, sl, sacc, sht⟩ := s
  by_cases hc0 : cond0_init i <;> by_cases hc1 : k0_cond2 i = 1#1 <;>
  · first | simp only [if_neg hc0] | simp only [if_pos hc0]
    first | simp only [if_neg hc1] | simp only [if_pos hc1]
    simp only [cc0__attn_kernel_eq_skeleton]; unfold cc0__attn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    subst hf2 hf3 hf4 hf5 hf6 hf7 hf8 hf10 hf11 hf12 hf13 hf14 hf15 hf16
    sl_exec (disch := first | exact hc0 | exact hc1)
    sl_step
    iapply Hk
    isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap; isplitl [H14]; swap; isplitl [H15]; swap
    all_goals
      iexists _; isplitr; swap; · iassumption
      ipureintro
      first
      | (try dsimp only)
        sl_unfold_run_names
        first
        | rw [r0_read_last_whole (S := S1x1) _ _ r0_hz2] | rw [r0_read_last_whole (S := S1x2048) _ _ r0_hz2]
        | rw [r0_read_last_whole (S := S1x1024) _ _ r0_hz2] | rw [r0_read_last_whole (S := S512x1) _ _ r0_hz2]
        | rw [r0_read_last_whole (S := S1x1x1) _ _ r0_hz3] | rw [r0_read_last_whole (S := S1x1x2048) _ _ r0_hz3]
        (try dsimp only)
        simp only [step0, init0, scoresOf0, View.readAt_eq_ld, View.ld_unit_zero (S := S512x2048) r0_hz2, View.ld_unit_zero (S := S1x1024) r0_hz2,
          View.ld_unit_zero (S := S2048x1024) r0_hz2, View.ld_unit_zero (S := S1024x1024) r0_hz2, View.ld_unit_zero (S := S1024x1) r0_hz2,
          View.ld_unit_zero (S := S1x1) r0_hz2, View.ld_unit_zero (S := S1x2048) r0_hz2, View.readCov_cons_toLoadRect,
          View.readCov_unit_zero (S := S1x1) _ r0_hz2, View.readCov_unit_zero (S := S1x2048) _ r0_hz2, View.readCov_unit_zero (S := S1x1024) _ r0_hz2]
      | rfl

variable (V : (c : Dev nD) → (b : Ref sig .tc) → Buf (Elt F) ((c : Thread nD τ).loc b))

theorem r0_clip_2 : ∀ (t : Fin cfg0.N) (a : Fin (cfg0.win 2).shape.rank), (cfg0.win 2).clip (cfg0.grid.coords t) a = none := by
  decide +kernel

theorem r0_before_2 (c : Dev nD) (t : Fin cfg0.N) (d) : (dat0 V c).before 2 t d = wlo0 V c t :=
  ((dat0 V c).before_in_eq_fetched 2 rfl (fun _ => rfl)
    (fun t t' _ => funext fun a => (r0_clip_2 t a).trans (r0_clip_2 t' a).symm)
    (fun t => by rw [dat0_after_2]; unfold wlo0 Dat.blockOf blk0; rw [dat0_A]; exact (cfg0.win 2).cut_fill _ _ _) t d).trans
    (by unfold Dat.fetched Dat.blockOf wlo0 blk0; rw [dat0_A]; exact Pipeline.fill_of_clip_none (cfg := cfg0) 2 _ (r0_clip_2 t) _ _ _)

/-- For an input window what the body finds is what it leaves, whatever was there. -/
theorem r0_before (c : Dev nD) (t : Fin cfg0.N) (w : Fin cfg0.W) (hw : w.val < 7) (d) :
    (dat0 V c).before w t d = (dat0 V c).after w t := by
  obtain ⟨w, h⟩ := w
  dsimp only at hw
  rcases (by omega : w = 0 ∨ w = 1 ∨ w = 2 ∨ w = 3 ∨ w = 4 ∨ w = 5 ∨ w = 6) with rfl | rfl | rfl | rfl | rfl | rfl | rfl <;>
  first
  | exact r0_before_2 V c t d
  | exact (dat0 V c).before_in_eq_fetched _ rfl (fun _ => rfl) (fun _ _ _ => rfl) (fun _ => rfl) t d

theorem r0_idle_even : ∀ t : Fin cfg0.N, t.val % 2 = 0 →
    idle0 8 (grid0.coords t) = true ∧ idle0 9 (grid0.coords t) = true ∧ idle0 10 (grid0.coords t) = true
    ∧ (cfg0.win 8).flush t = false ∧ (cfg0.win 9).flush t = false ∧ (cfg0.win 10).flush t = false := by decide +kernel

theorem r0_live_odd : ∀ t : Fin cfg0.N, t.val % 2 = 1 →
    idle0 8 (grid0.coords t) = false ∧ idle0 9 (grid0.coords t) = false ∧ idle0 10 (grid0.coords t) = false := by decide +kernel

theorem r0_Phi_even (c : Dev nD) (t : Fin cfg0.N) (h : t.val % 2 = 0) : Phi0 V c t.val = PhiAny0 c := by
  unfold Phi0; rw [if_neg (by omega), if_neg (by omega)]

theorem r0_Phi_succ_odd (c : Dev nD) (t : Fin cfg0.N) (h : t.val % 2 = 1) : Phi0 V c (t.val + 1) = PhiAny0 c := by
  unfold Phi0; rw [if_neg (by omega), if_neg (by omega)]

theorem r0_Phi_succ_even (c : Dev nD) (t : Fin cfg0.N) (h : t.val % 2 = 0) :
    Phi0 V c (t.val + 1) = PhiNamed0 c (scrAfter0 V c t) := by
  rcases fin_N0 t with rfl | rfl | rfl | rfl <;> first | rfl | exact absurd h (by decide)

theorem r0_Phi_odd (c : Dev nD) (t : Fin cfg0.N) (h : t.val % 2 = 1) :
    Phi0 V c t.val = PhiNamed0 c (scrAfter0 V c (prev0 t)) := by
  rcases fin_N0 t with rfl | rfl | rfl | rfl <;> first | rfl | exact absurd h (by decide)

theorem r0_PhiAny_eq (c : Dev nD) :
    (PhiAny0 c : sProp 𝕄)
      = iprop((∃ r, prngReg c r)
          ∗ ((∃ d, owns (c : Thread nD τ) scM0_0 fullShare d) ∗ (∃ d, owns (c : Thread nD τ) scM0_1 fullShare d)
              ∗ (∃ d, owns (c : Thread nD τ) scM0_2 fullShare d) ∗ (∃ d, owns (c : Thread nD τ) scM0_3 fullShare d))
          ∗ Pipeline.scopedRestBut (Ix := Unit) (Name := ℕ) (U := UR sig nD τ) (Lvl := ℕ) (Val := Elt F) spec0 c [cc0_scratch0, cc0_scratch1, cc0_scratch2, cc0_scratch3]) := by
  unfold PhiAny0; rw [scopedRest0_split]; simp only [scM0_0, scM0_1, scM0_2, scM0_3, owns_whole]; try rfl

set_option maxHeartbeats 4000000 in
/-- The point's parity selects the case of the body; the invariant hands the scratch state over and takes it back. -/
theorem body_obligation0 (c : Dev nD) : BodyObligation (dat0 (F := F) V c) (defs₀ (F := F)) Variants.none () Set.univ := fun t => by
  rw [bigSep_W0, bigSep_W0]
  show (_ : sProp 𝕄) ⊢ wp frame _ Set.univ (bodyAt0 t) _
  simp (disch := decide) only [r0_before V c t, dat0_after_0, dat0_after_1, dat0_after_2, dat0_after_3, dat0_after_4,
    dat0_after_5, dat0_after_6, dat0_after_7]
  rw [show (dat0 V c).owesAt () t.succ = (dat0 V c).owesAt () t.castSucc from rfl, dat0_Φ, dat0_Φ, Fin.coe_castSucc, Fin.val_succ]
  unfold bodyAt0
  by_cases h : t.val % 2 = 0
  · have hc0 : cond0_init (grid0.coords t) := (hcond0_init t).mpr h
    have hc1 : ¬k0_cond2 (grid0.coords t) = 1#1 := fun h' => by have := (hcond0_last t).mp h'; omega
    obtain ⟨hi8, hi9, hi10, hf8, hf9, hf10⟩ := r0_idle_even t h
    simp only [hi8, hi9, hi10, hf8, hf9, hf10]
    rw [r0_Phi_even V c t h, r0_Phi_succ_even V c t h, r0_PhiAny_eq, scoresAt0_even V c t h]
    unfold PhiNamed0 scrOwn0
    rw [scrAfter0_even V c t h]
    iintro ⟨⟨Hg, ⟨⟨%e0, HS0⟩, ⟨%e1, HS1⟩, ⟨%e2, HS2⟩, ⟨%e3, HS3⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (r0_kernel c Set.univ (grid0.coords t) _ _ _ _ _ _ _ _ _ _ _ _ _ _ _ _ _ _ _ _ _ _ _ _ _ _ _ _ _ _ (blk0 V c 0 t) (blk0 V c 1 t) (wlo0 V c t) (blk0 V c 3 t) (blk0 V c 4 t) (blk0 V c 5 t) (blk0 V c 6 t) _ _ _ _ _ _ ⟨e0, e1, e2, e3⟩ _
      (if_pos hc0).symm (if_neg hc1).symm (if_neg hc1).symm (if_neg hc1).symm _)
    iframe H0 H1 H2 H3 H4 H5 H6 H8 H9 H10 HS0 HS1 HS2 HS3
    isplitl [H7]; · iexists _; iexact H7
    iintro ⟨H0, H1, H2, H3, H4, H5, H6, H7, H8, H9, H10, HS0, HS1, HS2, HS3⟩
    iframe Hg HR Ho H0 H1 H2 H3 H4 H5 H6 H7 HS0 HS1 HS2 HS3
    isplitl [H8]; · iexists _; iexact H8
    isplitl [H9]; · iexists _; iexact H9
    iexists _; iexact H10
  · have h1 : t.val % 2 = 1 := by omega
    have hc0 : ¬cond0_init (grid0.coords t) := fun h' => h ((hcond0_init t).mp h')
    have hc1 : k0_cond2 (grid0.coords t) = 1#1 := (hcond0_last t).mpr h1
    obtain ⟨hl8, hl9, hl10⟩ := r0_live_odd t h1
    simp only [hl8, hl9, hl10, dat0_after_8, dat0_after_9, dat0_after_10]
    rw [r0_Phi_odd V c t h1, r0_Phi_succ_odd V c t h1, r0_PhiAny_eq, scoresAt0_odd V c t h1, scrAfter0_odd V c t h1]
    unfold PhiNamed0 scrOwn0
    iintro ⟨⟨Hg, ⟨HS0, HS1, HS2, HS3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (r0_kernel c Set.univ (grid0.coords t) _ _ _ _ _ _ _ _ _ _ _ _ _ _ _ _ _ _ _ _ _ _ _ _ _ _ _ _ _ _ (blk0 V c 0 t) (blk0 V c 1 t) (wlo0 V c t) (blk0 V c 3 t) (blk0 V c 4 t) (blk0 V c 5 t) (blk0 V c 6 t) _ _ _ _ _ _ (scrAfter0 V c (prev0 t)) _
      (if_neg hc0).symm (if_pos hc1).symm (if_pos hc1).symm (if_pos hc1).symm _)
    iframe H0 H1 H2 H3 H4 H5 H6 H8 H9 H10 HS0 HS1 HS2 HS3
    isplitl [H7]; · iexists _; iexact H7
    iintro ⟨H0, H1, H2, H3, H4, H5, H6, H7, H8, H9, H10, HS0, HS1, HS2, HS3⟩
    iframe Hg HR Ho H0 H1 H2 H3 H4 H5 H6 H7 H8 H9 H10
    isplitl [HS0]; · iexists _; iexact HS0
    isplitl [HS1]; · iexists _; iexact HS1
    isplitl [HS2]; · iexists _; iexact HS2
    iexists _; iexact HS3

end Cert.Kernel.Hand

end
-- ==== Proof.KernelB.R0Arr.lean ====
import proofs.«409657_j24300924961385_3_alg».proof.Proof.KernelB.R0.Dat
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem asmb_arr_img0 : (Finset.univ : Finset (Fin 11)).image (Pipeline.arrRef spec0)
    = ((Finset.univ : Finset (Fin 11)).erase 3).image (Pipeline.arrRef spec0) := by decide

theorem asmb_arr_injOn0 : Set.InjOn (Pipeline.arrRef spec0) (((Finset.univ : Finset (Fin 11)).erase 3 : Finset (Fin 11)) : Set (Fin 11)) := by
  intro a ha b hb h
  rw [Finset.mem_coe] at ha hb
  revert a b; decide

theorem asmb_share0_of (c : Dev nD) (w : Fin cfg0.W) (h2 : w ≠ 2) (h3 : w ≠ 3) : (dat0 V c).share w = fullShare := by
  unfold Dat.share; split
  · rfl
  · rw [dat0_q, if_neg h2, if_neg h3]
theorem asmb_share0_2 (c : Dev nD) : (dat0 V c).share 2 = fullShare.left := by
  unfold Dat.share; rw [if_neg (by decide), dat0_q, if_pos rfl]
theorem asmb_share0_3 (c : Dev nD) : (dat0 V c).share 3 = fullShare.right := by
  unfold Dat.share; rw [if_neg (by decide), dat0_q, if_neg (by decide), if_pos rfl]

theorem asmb_arrays0_eq (c : Dev nD) (V' : (b : Ref sig .tc) → Buf (Elt F) ((c : Thread nD τ).loc b))
    (Fs : (w : Fin cfg0.W) → Buf (Elt F) ((cfg0.win w).arr.view.loc (c : Thread nD τ)))
    (hF : ∀ w, Fs w = V' (Pipeline.arrRef spec0 w)) :
    ((dat0 V c).arrays Fs : sProp 𝕄)
      = iprop((((c : Thread nD τ).loc main_arg6) ↦{fullShare.right} V' main_arg6)
          ∗ (((c : Thread nD τ).loc main_arg6) ↦{fullShare.left} V' main_arg6)
          ∗ bigSep (((Finset.univ : Finset (Fin 11)).erase 3).erase 2) fun w => (((c : Thread nD τ).loc (Pipeline.arrRef spec0 w)) ↦{fullShare} V' (Pipeline.arrRef spec0 w))) := by
  unfold Dat.arrays
  rw [bigSep_erase (Finset.mem_univ (3 : Fin 11)), bigSep_erase (by decide : (2 : Fin 11) ∈ (Finset.univ : Finset (Fin 11)).erase 3)]
  refine congrArg₂ BIBase.sep ?_ (congrArg₂ BIBase.sep ?_ (bigSep_congr fun w hw => ?_))
  · rw [(arr_whole0 3).set_eq_univ, asmb_share0_3, hF]
  · rw [(arr_whole0 2).set_eq_univ, asmb_share0_2, hF]
  · have h2 : w ≠ 2 := (Finset.mem_erase.mp hw).1
    have h3 : w ≠ 3 := (Finset.mem_erase.mp (Finset.mem_erase.mp hw).2).1
    rw [(arr_whole0 w).set_eq_univ, asmb_share0_of V c w h2 h3, hF]

theorem asmb_arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg6) ↦{fullShare} V' main_arg6)
          ∗ bigSep (((Finset.univ : Finset (Fin 11)).erase 3).erase 2) fun w => (((c : Thread nD τ).loc (Pipeline.arrRef spec0 w)) ↦{fullShare} V' (Pipeline.arrRef spec0 w))) := by
  unfold Pipeline.arrBufs
  rw [asmb_arr_img0, bigSep_image_of_injOn asmb_arr_injOn0, bigSep_erase (by decide : (2 : Fin 11) ∈ (Finset.univ : Finset (Fin 11)).erase 3)]
  rfl

theorem asmb_arrays_of_arrBufs0 (c : Dev nD) (V' : (b : Ref sig .tc) → Buf (Elt F) ((c : Thread nD τ).loc b))
    (Fs : (w : Fin cfg0.W) → Buf (Elt F) ((cfg0.win w).arr.view.loc (c : Thread nD τ)))
    (hF : ∀ w, Fs w = V' (Pipeline.arrRef spec0 w)) :
    (Pipeline.arrBufs (Ix := Unit) (Name := ℕ) (U := UR sig nD τ) (Lvl := ℕ) spec0 c V' : sProp 𝕄) ⊢ (dat0 V c).arrays Fs := by
  rw [asmb_arrBufs0_eq, asmb_arrays0_eq V c V' Fs hF]
  iintro ⟨H6, Hrest⟩
  ihave H6' := (pointsTo_share (PosShare.mem_left_op_right fullShare)).1 $$ H6
  icases H6' with ⟨Hl, Hr⟩
  isplitl [Hr]; · iexact Hr
  isplitl [Hl]; · iexact Hl
  iexact Hrest

theorem asmb_arrBufs_of_arrays0 (c : Dev nD) (V' : (b : Ref sig .tc) → Buf (Elt F) ((c : Thread nD τ).loc b))
    (Fs : (w : Fin cfg0.W) → Buf (Elt F) ((cfg0.win w).arr.view.loc (c : Thread nD τ)))
    (hF : ∀ w, Fs w = V' (Pipeline.arrRef spec0 w)) :
    ((dat0 V c).arrays Fs : sProp 𝕄) ⊢ Pipeline.arrBufs (Ix := Unit) (Name := ℕ) (U := UR sig nD τ) (Lvl := ℕ) spec0 c V' := by
  rw [asmb_arrBufs0_eq, asmb_arrays0_eq V c V' Fs hF]
  iintro ⟨Hr, Hl, Hrest⟩
  isplitl [Hl Hr]
  · iapply (pointsTo_share (PosShare.mem_left_op_right fullShare)).2
    isplitl [Hl]; · iexact Hl
    iexact Hr
  iexact Hrest

end

end Cert.Kernel.Hand

end
-- ==== Proof.KernelB.Reg0.lean ====
import proofs.«409657_j24300924961385_3_alg».proof.Proof.KernelB.Vals
import proofs.«409657_j24300924961385_3_alg».proof.Proof.KernelB.Shape
import proofs.«409657_j24300924961385_3_alg».proof.Proof.KernelB.R0.Body
import proofs.«409657_j24300924961385_3_alg».proof.Proof.KernelB.R0Arr
import Idealize.ShloMosaic.Lib.Pipeline.Kit

set_option maxRecDepth 1160

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Pipeline (Seg HostSeg)

variable (m : (ℓ : Loc nD τ sig) → Buf (Elt F) ℓ)

theorem asmb_in0 : ∀ w : Fin 11, w ≠ 7 → w ≠ 8 → w ≠ 9 → w ≠ 10 →
    (cfg0.win w).isOut = false ∧ Pipeline.arrRef spec0 w ∉ ([main_v14_0, main_v14_1, main_v14_2, main_v14_3] : List (Ref sig .tc)) := by decide

theorem asmb_V2A_0 (c : Dev nD) : V2 m (asmb_outsA m) c main_v14_0 = (dat0 (asmb_VR (V1 m)) c).arrAt 7 cfg0.N := by
  rw [← asmb_outsA_0]
  exact (Function.update_of_ne (StableHlo.devRef_ne_of_ne (by decide : main_v14_0 ≠ main_v14_3) :
      (Proc.devRef .tc main_v14_0 : DevRef τ sig) ≠ Proc.devRef .tc main_v14_3) _ _).trans <|
    (Function.update_of_ne (StableHlo.devRef_ne_of_ne (by decide : main_v14_0 ≠ main_v14_2) :
      (Proc.devRef .tc main_v14_0 : DevRef τ sig) ≠ Proc.devRef .tc main_v14_2) _ _).trans <|
    (Function.update_of_ne (StableHlo.devRef_ne_of_ne (by decide : main_v14_0 ≠ main_v14_1) :
      (Proc.devRef .tc main_v14_0 : DevRef τ sig) ≠ Proc.devRef .tc main_v14_1) _ _).trans (Function.update_self ..)
theorem asmb_V2A_1 (c : Dev nD) : V2 m (asmb_outsA m) c main_v14_1 = (dat0 (asmb_VR (V1 m)) c).arrAt 8 cfg0.N := by
  rw [← asmb_outsA_1]
  exact (Function.update_of_ne (StableHlo.devRef_ne_of_ne (by decide : main_v14_1 ≠ main_v14_3) :
      (Proc.devRef .tc main_v14_1 : DevRef τ sig) ≠ Proc.devRef .tc main_v14_3) _ _).trans <|
    (Function.update_of_ne (StableHlo.devRef_ne_of_ne (by decide : main_v14_1 ≠ main_v14_2) :
      (Proc.devRef .tc main_v14_1 : DevRef τ sig) ≠ Proc.devRef .tc main_v14_2) _ _).trans (Function.update_self ..)
theorem asmb_V2A_2 (c : Dev nD) : V2 m (asmb_outsA m) c main_v14_2 = (dat0 (asmb_VR (V1 m)) c).arrAt 9 cfg0.N := by
  rw [← asmb_outsA_2]
  exact (Function.update_of_ne (StableHlo.devRef_ne_of_ne (by decide : main_v14_2 ≠ main_v14_3) :
      (Proc.devRef .tc main_v14_2 : DevRef τ sig) ≠ Proc.devRef .tc main_v14_3) _ _).trans (Function.update_self ..)
theorem asmb_V2A_3 (c : Dev nD) : V2 m (asmb_outsA m) c main_v14_3 = (dat0 (asmb_VR (V1 m)) c).arrAt 10 cfg0.N := by
  rw [← asmb_outsA_3]
  exact Function.update_self ..

theorem asmb_hF0 (c : Dev nD) (w : Fin 11) :
    (dat0 (asmb_VR (V1 m)) c).arrAt w cfg0.N = V2 m (asmb_outsA m) c (Pipeline.arrRef spec0 w) := by
  by_cases h7 : w = 7
  · subst h7; exact (asmb_V2A_0 m c).symm
  by_cases h8 : w = 8
  · subst h8; exact (asmb_V2A_1 m c).symm
  by_cases h9 : w = 9
  · subst h9; exact (asmb_V2A_2 m c).symm
  by_cases h10 : w = 10
  · subst h10; exact (asmb_V2A_3 m c).symm
  rw [(dat0 (asmb_VR (V1 m)) c).arrAt_in w (asmb_in0 w h7 h8 h9 h10).1 cfg0.N, dat0_A]
  exact (V2_of m (asmb_outsA m) c _ (asmb_in0 w h7 h8 h9 h10).2).symm

theorem asmb_hrest0 (c : Dev nD) (b : Ref sig .tc) (hb : b ∉ Finset.univ.image (Pipeline.arrRef spec0)) :
    V2 m (asmb_outsA m) c b = V1 m c b :=
  V2_of m (asmb_outsA m) c b fun hmem => hb ((by decide : ∀ r ∈ ([main_v14_0, main_v14_1, main_v14_2, main_v14_3] : List (Ref sig .tc)),
    r ∈ Finset.univ.image (Pipeline.arrRef spec0)) b hmem)

section
set_option backward.isDefEq.respectTransparency.types false

def asmb_reg0 : Pipeline.RDat.RegionSeg (pcfgs (F := F)) Gen.adm (asmb_rdats m) () defs₀ asmb_V asmb_L asmb_lv 0 where
  win := winFacts₀0
  block_pos := block_pos0
  stage_whole := stage_whole0
  K := PEmpty
  osem k := k.elim
  ho := Pipeline.OwnSemFacts.none _
  hbody c := (body_obligation0 (asmb_VR (V1 m)) c).toR
  hwaits := Pipeline.RDat.hwaits_of_owed_zero _ _ _ _ asmb_L asmb_lv 0 fun c t => dat0_owed (asmb_VR (V1 m)) c t
  pre c := iprop(StableHlo.held (c : Thread nD τ) (Pipeline.ucRefs τ sig) (V1 m c) ∗ asmb_R c)
  post c := iprop(StableHlo.held (c : Thread nD τ) (Pipeline.ucRefs τ sig) (V2 m (asmb_outsA m) c) ∗ asmb_R c)
  X c := iprop(∃ r, prngReg c r)
  Y c := iprop(∃ r, prngReg c r)
  Z c := Pipeline.unscopedRest (Ix := Unit) (Name := ℕ) (U := UR sig nD τ) (Lvl := ℕ) spec0 c (asmb_VR (V1 m) c)
  hentry c := by
    rw [Pipeline.ownSems0_none]
    refine asmb_shape_entry ?_ (asmb_owes_in c _ fun _ => Or.inl trivial) (asmb_prefHeld 0 c)
    have hheld := Pipeline.unscopedBufs_held (Ix := Unit) (Name := ℕ) (U := UR sig nD τ) (Lvl := ℕ) c (V1 m c)
    have hsplit := Pipeline.unscopedBufs_split₀ (Ix := Unit) (Name := ℕ) (U := UR sig nD τ) (Lvl := ℕ) cfgs (0 : Fin 3) winFacts₀0.arr_unscoped c (asmb_VR (V1 m) c)
    rw [← hheld]
    refine (Entails.of_eq hsplit).trans (BIClass.sep_mono ?_ .rfl)
    exact asmb_arrays_of_arrBufs0 (asmb_VR (V1 m)) c (asmb_VR (V1 m) c) (dat0 (asmb_VR (V1 m)) c).A (fun w => dat0_A (asmb_VR (V1 m)) c w)
  hin c := asmb_shape_in (hin0 (asmb_VR (V1 m)) c)
  hout c := by
    rw [Pipeline.ownSems0_none]
    exact asmb_shape_out (hout0 (asmb_VR (V1 m)) c)
  hexit c := by
    refine asmb_shape_exit ?_ (asmb_owes_out c _)
    have hheld := Pipeline.unscopedBufs_held (Ix := Unit) (Name := ℕ) (U := UR sig nD τ) (Lvl := ℕ) c (V2 m (asmb_outsA m) c)
    have hsplit := Pipeline.unscopedBufs_split₀ (Ix := Unit) (Name := ℕ) (U := UR sig nD τ) (Lvl := ℕ) cfgs (0 : Fin 3) winFacts₀0.arr_unscoped c (asmb_VR (V2 m (asmb_outsA m)) c)
    have hrest : (Pipeline.unscopedRest (Ix := Unit) (Name := ℕ) (U := UR sig nD τ) (Lvl := ℕ) spec0 c (asmb_VR (V2 m (asmb_outsA m)) c) : sProp 𝕄)
        = Pipeline.unscopedRest spec0 c (asmb_VR (V1 m) c) := by
      unfold Pipeline.unscopedRest
      exact bigSep_congr fun b hb => by rw [show asmb_VR (V2 m (asmb_outsA m)) c b = asmb_VR (V1 m) c b from asmb_hrest0 m c b (Finset.mem_sdiff.mp hb).2]
    rw [← hheld]
    refine BIBase.Entails.trans ?_ (Entails.of_eq hsplit.symm)
    refine BIClass.sep_mono ?_ (Entails.of_eq hrest.symm)
    refine (Entails.of_eq ((dat0 (asmb_VR (V1 m)) c).toR_arraysAt_eq cfg0.N)).trans ?_
    exact asmb_arrBufs_of_arrays0 (asmb_VR (V1 m)) c (asmb_VR (V2 m (asmb_outsA m)) c) ((dat0 (asmb_VR (V1 m)) c).arrAt · cfg0.N) (asmb_hF0 m c)

end

end Cert.Kernel.Hand

end
-- ==== Proof.KernelB.R1.Run.lean ====
import proofs.«409657_j24300924961385_3_alg».proof.Proof.KernelB.R1.Dat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_cond0 (i : grid1.Coords) : Prop := (Scalar.cmpi .ne (Scalar.extui (Scalar.cmpi .eq (BitVec.ofNat 32 (i 1).val) 0#32)) 0#32) = 1#1
theorem r1_hcond0 : ∀ t : Fin cfg1.N, r1_cond0 (grid1.coords t) ↔ t.val % 4 = 0 :=
  (by decide +kernel : ∀ t : Fin grid1.N, r1_cond0 (grid1.coords t) ↔ t.val % 4 = 0)
abbrev r1_cond1 (i : grid1.Coords) : Prop := k1_cond2 i = 1#1
theorem r1_hcond1 : ∀ t : Fin cfg1.N, r1_cond1 (grid1.coords t) ↔ t.val % 4 = 3 :=
  (by decide +kernel : ∀ t : Fin grid1.N, r1_cond1 (grid1.coords t) ↔ t.val % 4 = 3)

theorem r1_zz2 : (![0, 0] : Fin 2 → ℕ) = fun _ => 0 := by funext a; fin_cases a <;> rfl

section Whole
variable {sg : RefSig} {κ : Kind} {sp : Space} {S : Shape} {e : EltTy} {Val : EltTy → Type}

theorem r1_wr_whole [∀ e, Nonempty (Val e)] (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons_self .., View.mem_set_unit_zero h inb y⟩),
    View.canon_cons_unit_zero h inb]

end Whole

variable (c : Dev nD) (E : Set ℕ) (i : grid1.Coords) (arg2 : Memref sig .tc .vmem S1x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole)

set_option maxHeartbeats 4000000 in
/-- One run of the body: zero fill first on the first K tile, the two outputs stored on the last only. -/
theorem r1_kernelRun (x : Vec F S1x1024 .f32) (w1 w2 w3 w4 : Vec F S1024x512 .f32) (b5 b6 b7 b8 b9 y0 y1 : Vec F S1x512 .f32)
    (a z : Acc1 F) (o0 o1 : Vec F S1x512 .f32) (hz : z = if r1_cond0 i then zero1 else a)
    (ho0 : o0 = if r1_cond1 i then out10_1 (step1 x w1 w2 w3 w4 z) b5 b7 b8 b9 else y0)
    (ho1 : o1 = if r1_cond1 i then out11_1 (step1 x w1 w2 w3 w4 z) b5 b6 b7 b8 b9 else y1) (K : PUnit → sProp 𝕄) :
    iprop(owns c arg2 fullShare x ∗ owns c arg3 fullShare w1 ∗ owns c arg4 fullShare w2 ∗ owns c arg5 fullShare w3 ∗ owns c arg6 fullShare w4 ∗ owns c arg7 fullShare b5 ∗ owns c arg8 fullShare b6 ∗ owns c arg9 fullShare b7 ∗ owns c arg10 fullShare b8 ∗ owns c arg11 fullShare b9 ∗ owns c arg12 fullShare y0 ∗ owns c arg13 fullShare y1 ∗ owns c arg14 fullShare a.1 ∗ owns c arg15 fullShare a.2.1 ∗ owns c arg16 fullShare a.2.2.1 ∗ owns c arg17 fullShare a.2.2.2
        ∗ (iprop(owns c arg2 fullShare x ∗ owns c arg3 fullShare w1 ∗ owns c arg4 fullShare w2 ∗ owns c arg5 fullShare w3 ∗ owns c arg6 fullShare w4 ∗ owns c arg7 fullShare b5 ∗ owns c arg8 fullShare b6 ∗ owns c arg9 fullShare b7 ∗ owns c arg10 fullShare b8 ∗ owns c arg11 fullShare b9 ∗ owns c arg12 fullShare o0 ∗ owns c arg13 fullShare o1 ∗ owns c arg14 fullShare (step1 x w1 w2 w3 w4 z).1 ∗ owns c arg15 fullShare (step1 x w1 w2 w3 w4 z).2.1 ∗ owns c arg16 fullShare (step1 x w1 w2 w3 w4 z).2.2.1 ∗ owns c arg17 fullShare (step1 x w1 w2 w3 w4 z).2.2.2) -∗ K ⟨⟩))
      ⊢ wp frame (wpE (defs₀ (F := F)) Variants.none c none) E (cc1__lstm_gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hz ho0 ho1
  obtain ⟨a0, a1, a2, a3⟩ := a
  by_cases hc0 : r1_cond0 i <;> by_cases hc1 : r1_cond1 i <;>
  · first | simp only [if_neg hc0] | simp only [if_pos hc0]
    first | simp only [if_neg hc1] | simp only [if_pos hc1]
    simp only [step1, zero1, out10_1, out11_1]
    simp only [cc1__lstm_gates_kernel_eq_skeleton]; unfold cc1__lstm_gates_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    subst hf2 hf3 hf4 hf5 hf6 hf7 hf8 hf9 hf10 hf11 hf12 hf13 hf14 hf15 hf16 hf17
    sl_exec (disch := first | exact hc0 | exact hc1)
    sl_step
    iapply Hk
    isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap; isplitl [H14]; swap; isplitl [H15]; swap; isplitl [H16]; swap
    all_goals
      iexists _; isplitr; swap; · iassumption
      ipureintro
      first
      | sl_unfold_run_names
        rw [r1_wr_whole (S := S1x512) _ _ r1_zz2]
        simp only [View.readCov_cons_toLoadRect, View.readAt_eq_ld, View.ld_unit_zero (S := S1x512) r1_zz2,
          View.ld_unit_zero (S := S1x1024) r1_zz2, View.ld_unit_zero (S := S1024x512) r1_zz2]
      | rfl

end Cert.Kernel.Hand

end
-- ==== Proof.KernelB.R1.Body.lean ====
import proofs.«409657_j24300924961385_3_alg».proof.Proof.KernelB.R1.Dat
import proofs.«409657_j24300924961385_3_alg».proof.Proof.KernelB.R1.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r1_out_idle : ∀ t : Fin cfg1.N, ¬r1_cond1 (grid1.coords t) →
    idle1 10 (grid1.coords t) = true ∧ (win1 10).flush t = false ∧ idle1 11 (grid1.coords t) = true ∧ (win1 11).flush t = false := by
  decide +kernel

theorem r1_out_live : ∀ t : Fin cfg1.N, r1_cond1 (grid1.coords t) →
    idle1 10 (grid1.coords t) = false ∧ idle1 11 (grid1.coords t) = false := by decide +kernel

/-- For an input window what the body finds is what it leaves, whatever was there. -/
theorem r1_before (c : Dev nD) (t : Fin cfg1.N) (w : Fin cfg1.W) (hw : w.val < 10) (d) :
    (dat1 V c).before w t d = (dat1 V c).after w t := by
  obtain ⟨w, h⟩ := w
  dsimp only at hw
  rcases (by omega : w = 0 ∨ w = 1 ∨ w = 2 ∨ w = 3 ∨ w = 4 ∨ w = 5 ∨ w = 6 ∨ w = 7 ∨ w = 8 ∨ w = 9) with
    rfl | rfl | rfl | rfl | rfl | rfl | rfl | rfl | rfl | rfl <;>
  exact (dat1 V c).before_in_eq_fetched _ rfl (fun _ => rfl) (fun _ _ _ => rfl) (fun _ => rfl) t d

theorem r1_Phi_any (c : Dev nD) (n : Fin (cfg1.N + 1)) (h : n.val % 4 = 0) :
    (dat1 V c).Φ n = iprop(r1_rest c ∗ r1_scrAny c) :=
  r1_PhiS_any V c _ _ h

theorem r1_Phi_at (c : Dev nD) (n : Fin (cfg1.N + 1)) (m : Fin cfg1.N) (hm : m.val + 1 = n.val) (h : n.val % 4 ≠ 0) :
    (dat1 V c).Φ n = iprop(r1_rest c ∗ r1_scrAt c (accAfter1 V c m)) := by
  obtain ⟨n, hn⟩ := n
  dsimp only at hm h
  subst hm
  simp only [r1_dat_Phi, r1_PhiS, if_neg h]

set_option maxHeartbeats 4000000 in
/-- The K-tile index of the point selects the case of the body; the invariant hands the accumulators over and takes them back. -/
theorem body_obligation1 (c : Dev nD) : BodyObligation (dat1 (F := F) V c) (defs₀ (F := F)) Variants.none () Set.univ := fun t => by
  rw [bigSep_W1, bigSep_W1]
  show (_ : sProp 𝕄) ⊢ wp frame _ Set.univ (bodyAt1 t) _
  simp (disch := decide) only [r1_before V c t, dat1_after_0, dat1_after_1, dat1_after_2, dat1_after_3, dat1_after_4,
    dat1_after_5, dat1_after_6, dat1_after_7, dat1_after_8, dat1_after_9]
  rw [show (dat1 V c).owesAt () t.succ = (dat1 V c).owesAt () t.castSucc from rfl]
  unfold bodyAt1
  by_cases h0 : t.val % 4 = 0
  · have hc0 : r1_cond0 (grid1.coords t) := (r1_hcond0 t).mpr h0
    have hc1 : ¬r1_cond1 (grid1.coords t) := fun h => by have := (r1_hcond1 t).mp h; omega
    obtain ⟨hi10, hf10, hi11, hf11⟩ := r1_out_idle t hc1
    simp only [hi10, hf10, hi11, hf11]
    rw [r1_Phi_any V c t.castSucc h0, r1_Phi_at V c t.succ t rfl (by rw [Fin.val_succ]; omega), accAfter1_first V c t h0]
    unfold r1_scrAny r1_scrAt stepAt1
    iintro ⟨⟨Hr, ⟨%e0, HS0⟩, ⟨%e1, HS1⟩, ⟨%e2, HS2⟩, ⟨%e3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (r1_kernelRun c Set.univ (grid1.coords t) _ _ _ _ _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _ _ (e0, e1, e2, e3) _ _ _
      (if_pos hc0).symm (if_neg hc1).symm (if_neg hc1).symm _)
    iframe H0 H1 H2 H3 H4 H5 H6 H7 H8 H9 H10 H11 HS0 HS1 HS2 HS3
    iintro ⟨H0, H1, H2, H3, H4, H5, H6, H7, H8, H9, H10, H11, HS0, HS1, HS2, HS3⟩
    iframe Hr Ho H0 H1 H2 H3 H4 H5 H6 H7 H8 H9 HS0 HS1 HS2 HS3
    isplitl [H10]; · iexists _; iexact H10
    iexists _; iexact H11
  · have hc0 : ¬r1_cond0 (grid1.coords t) := fun h => h0 ((r1_hcond0 t).mp h)
    by_cases h1 : t.val % 4 = 3
    · have hc1 : r1_cond1 (grid1.coords t) := (r1_hcond1 t).mpr h1
      obtain ⟨hl10, hl11⟩ := r1_out_live t hc1
      simp only [hl10, hl11, dat1_after_10, dat1_after_11]
      rw [r1_Phi_at V c t.castSucc (back1 t 1) (by show t.val - 1 + 1 = t.val; omega) h0, r1_Phi_any V c t.succ (by rw [Fin.val_succ]; omega), accAfter1_next V c t h0]
      unfold r1_scrAny r1_scrAt stepAt1
      iintro ⟨⟨Hr, HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (r1_kernelRun c Set.univ (grid1.coords t) _ _ _ _ _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _ _ (accAfter1 V c (back1 t 1)) _ _ _
      (if_neg hc0).symm (if_pos hc1).symm (if_pos hc1).symm _)
      iframe H0 H1 H2 H3 H4 H5 H6 H7 H8 H9 H10 H11 HS0 HS1 HS2 HS3
      iintro ⟨H0, H1, H2, H3, H4, H5, H6, H7, H8, H9, H10, H11, HS0, HS1, HS2, HS3⟩
      iframe Hr Ho H0 H1 H2 H3 H4 H5 H6 H7 H8 H9 H10 H11
      isplitl [HS0]; · iexists _; iexact HS0
      isplitl [HS1]; · iexists _; iexact HS1
      isplitl [HS2]; · iexists _; iexact HS2
      iexists _; iexact HS3
    · have hc1 : ¬r1_cond1 (grid1.coords t) := fun h => h1 ((r1_hcond1 t).mp h)
      obtain ⟨hi10, hf10, hi11, hf11⟩ := r1_out_idle t hc1
      simp only [hi10, hf10, hi11, hf11]
      rw [r1_Phi_at V c t.castSucc (back1 t 1) (by show t.val - 1 + 1 = t.val; omega) h0, r1_Phi_at V c t.succ t rfl (by rw [Fin.val_succ]; omega), accAfter1_next V c t h0]
      unfold r1_scrAt stepAt1
      iintro ⟨⟨Hr, HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (r1_kernelRun c Set.univ (grid1.coords t) _ _ _ _ _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _ _ (accAfter1 V c (back1 t 1)) _ _ _
      (if_neg hc0).symm (if_neg hc1).symm (if_neg hc1).symm _)
      iframe H0 H1 H2 H3 H4 H5 H6 H7 H8 H9 H10 H11 HS0 HS1 HS2 HS3
      iintro ⟨H0, H1, H2, H3, H4, H5, H6, H7, H8, H9, H10, H11, HS0, HS1, HS2, HS3⟩
      iframe Hr Ho H0 H1 H2 H3 H4 H5 H6 H7 H8 H9 HS0 HS1 HS2 HS3
      isplitl [H10]; · iexists _; iexact H10
      iexists _; iexact H11

end Cert.Kernel.Hand

end
-- ==== Proof.KernelB.RLib.lean ====
import proofs.«409657_j24300924961385_3_alg».proof.Proof.Gen.Kernel.Launch
import Idealize.ShloMosaic.Lib.Pipeline.Frame
import Idealize.ShloMosaic.Lib.Pipeline.Regions
import Idealize.ShloMosaic.Lib.Tactic

set_option maxRecDepth 1160

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section
variable {cfg : Pipeline.Cfg sig Λ₀} {c : Dev nD} (rd : RDat τ (Elt F) Unit ℕ (UR sig nD τ) ℕ cfg c)

theorem asmb_arraysAt_elim (n : Nat) :
    (rd.arraysAt n : sProp 𝕄) ⊢ iprop(∃ Fs : (w : Fin cfg.W) → Buf (Elt F) ((cfg.win w).arr.view.loc (c : Thread nD τ)),
      ⌜∀ w, rd.ArrAt w n (Fs w)⌝ ∗ rd.arrays Fs) := by
  classical
  unfold RDat.arraysAt RDat.arrays
  iintro Ha
  ihave Ha' := (BI.bigSep_exists_pi Finset.univ (fun w F => iprop(⌜rd.ArrAt w n F⌝
      ∗ (cfg.win w).arr.view.loc (c : Thread nD τ) ↦[(cfg.win w).arr.view.set]{rd.share w} F))) $$ Ha
  icases Ha' with ⟨%Fs, Ha⟩
  ihave Ha2 := (BI.bigSep_pure_sep Finset.univ (fun w => rd.ArrAt w n (Fs w))
      (fun w => (cfg.win w).arr.view.loc (c : Thread nD τ) ↦[(cfg.win w).arr.view.set]{rd.share w} Fs w)) $$ Ha
  icases Ha2 with ⟨%hFs, Ha⟩
  iexists Fs
  isplitr
  · ipureintro; exact fun w => hFs w (Finset.mem_univ w)
  iexact Ha

end

section
variable (asmb_rdats : (p : Fin 3) → (c : Dev nD) → RDat τ (Elt F) Unit ℕ (UR sig nD τ) ℕ (Pipeline.pin (pcfgs (F := F)) (fun p => (cfgs p).toPCfg_adm) p) c)

theorem asmb_bufs_of_arrays (p : Fin 3) (hw : Pipeline.WinFacts (Pipeline.pin (pcfgs (F := F)) (fun p => (cfgs p).toPCfg_adm) p).spec)
    (harr : ∀ w, ((Pipeline.pin (pcfgs (F := F)) (fun p => (cfgs p).toPCfg_adm) p).spec w).arr.IsWhole)
    (c : Dev nD) (hshare : ∀ w, (asmb_rdats p c).share w = fullShare)
    (V V' : (b : Ref sig .tc) → Buf (Elt F) ((c : Thread nD τ).loc b))
    (Fs : (w : Fin (Pipeline.pin (pcfgs (F := F)) (fun p => (cfgs p).toPCfg_adm) p).W) → Buf (Elt F) (((Pipeline.pin (pcfgs (F := F)) (fun p => (cfgs p).toPCfg_adm) p).spec w).arr.view.loc (c : Thread nD τ)))
    (hF : ∀ w, Fs w = V' (Pipeline.arrRef (Pipeline.pin (pcfgs (F := F)) (fun p => (cfgs p).toPCfg_adm) p).spec w))
    (hrest : ∀ b, b ∉ Finset.univ.image (Pipeline.arrRef (Pipeline.pin (pcfgs (F := F)) (fun p => (cfgs p).toPCfg_adm) p).spec) → V' b = V b) :
    iprop((asmb_rdats p c).arrays Fs ∗ Pipeline.unscopedRest (Pipeline.pin (pcfgs (F := F)) (fun p => (cfgs p).toPCfg_adm) p).spec c V)
      ⊢ (unscopedBufs c V' : sProp 𝕄) := by
  rw [Pipeline.unscopedBufs_split (Pipeline.pin (pcfgs (F := F)) (fun p => (cfgs p).toPCfg_adm)) p hw.arr_unscoped hw.arr_inj c V',
    Pipeline.RDat.arrays_eq (pcfgs (F := F)) (fun p => (cfgs p).toPCfg_adm) asmb_rdats p c harr hshare]
  refine sep_mono (Entails.of_eq (bigSep_congr fun w _ => by rw [hF])) (Entails.of_eq ?_)
  unfold Pipeline.unscopedRest
  exact bigSep_congr fun b hb => by rw [hrest b (Finset.mem_sdiff.mp hb).2]

end

end Cert.Kernel.Hand

end
-- ==== Proof.KernelB.Reg1.lean ====
import proofs.«409657_j24300924961385_3_alg».proof.Proof.KernelB.Vals
import proofs.«409657_j24300924961385_3_alg».proof.Proof.KernelB.Shape
import proofs.«409657_j24300924961385_3_alg».proof.Proof.KernelB.R1.Body
import proofs.«409657_j24300924961385_3_alg».proof.Proof.KernelB.RLib
import Idealize.ShloMosaic.Lib.Pipeline.Kit

set_option maxRecDepth 1160

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Pipeline (Seg HostSeg)

variable (m : (ℓ : Loc nD τ sig) → Buf (Elt F) ℓ)

theorem asmb_in1 : ∀ w : Fin 12, w ≠ 10 → w ≠ 11 →
    (cfg1.win w).isOut = false ∧ Pipeline.arrRef spec1 w ∉ ([main_v59_0, main_v59_1] : List (Ref sig .tc)) := by decide

theorem asmb_V4B_0 (c : Dev nD) : V4 m (asmb_outsB m) c main_v59_0 = (dat1 (asmb_VR (V3 m (asmb_outsA m))) c).arrAt 10 cfg1.N := by
  rw [← asmb_outsB_0]
  exact (Function.update_of_ne (StableHlo.devRef_ne_of_ne (by decide : main_v59_0 ≠ main_v59_1) :
      (Proc.devRef .tc main_v59_0 : DevRef τ sig) ≠ Proc.devRef .tc main_v59_1) _ _).trans (Function.update_self ..)
theorem asmb_V4B_1 (c : Dev nD) : V4 m (asmb_outsB m) c main_v59_1 = (dat1 (asmb_VR (V3 m (asmb_outsA m))) c).arrAt 11 cfg1.N := by
  rw [← asmb_outsB_1]
  exact Function.update_self ..

theorem asmb_hF1 (c : Dev nD) (w : Fin 12) :
    (dat1 (asmb_VR (V3 m (asmb_outsA m))) c).arrAt w cfg1.N = V4 m (asmb_outsB m) c (Pipeline.arrRef spec1 w) := by
  by_cases h10 : w = 10
  · subst h10; exact (asmb_V4B_0 m c).symm
  by_cases h11 : w = 11
  · subst h11; exact (asmb_V4B_1 m c).symm
  rw [(dat1 (asmb_VR (V3 m (asmb_outsA m))) c).arrAt_in w (asmb_in1 w h10 h11).1 cfg1.N, dat1_A]
  exact ((V4_of m (asmb_outsB m) c _ (asmb_in1 w h10 h11).2).trans (congrFun (asmb_V3B m c) _)).symm

theorem asmb_hrest1 (c : Dev nD) (b : Ref sig .tc) (hb : b ∉ Finset.univ.image (Pipeline.arrRef spec1)) :
    V4 m (asmb_outsB m) c b = V3 m (asmb_outsA m) c b :=
  (V4_of m (asmb_outsB m) c b fun hmem => hb ((by decide : ∀ r ∈ ([main_v59_0, main_v59_1] : List (Ref sig .tc)),
    r ∈ Finset.univ.image (Pipeline.arrRef spec1)) b hmem)).trans (congrFun (asmb_V3B m c) _)

section
set_option backward.isDefEq.respectTransparency.types false

def asmb_reg1 : Pipeline.RDat.RegionSeg (pcfgs (F := F)) Gen.adm (asmb_rdats m) () defs₀ asmb_V asmb_L asmb_lv 1 where
  win := launch1.win.to₀
  block_pos := launch1.block_pos
  stage_whole := launch1.stage_whole
  K := PEmpty
  osem k := k.elim
  ho := Pipeline.OwnSemFacts.none _
  hbody c := (body_obligation1 (asmb_VR (V3 m (asmb_outsA m))) c).toR
  hwaits := Pipeline.RDat.hwaits_of_owed_zero _ _ _ _ asmb_L asmb_lv 1 fun c t => dat1_owed (asmb_VR (V3 m (asmb_outsA m))) c t
  pre c := iprop(StableHlo.held (c : Thread nD τ) (Pipeline.ucRefs τ sig) (V3 m (asmb_outsA m) c) ∗ asmb_R c)
  post c := iprop(StableHlo.held (c : Thread nD τ) (Pipeline.ucRefs τ sig) (V4 m (asmb_outsB m) c) ∗ asmb_R c)
  X c := iprop(∃ r, prngReg c r)
  Y c := iprop(∃ r, prngReg c r)
  Z c := Pipeline.unscopedRest (Ix := Unit) (Name := ℕ) (U := UR sig nD τ) (Lvl := ℕ) spec1 c (asmb_VR (V3 m (asmb_outsA m)) c)
  hentry c := by
    rw [Pipeline.ownSems0_none]
    refine asmb_shape_entry ?_ (asmb_owes_in c _ fun _ => Or.inl trivial) (asmb_prefHeld 1 c)
    have h := Pipeline.RDat.arrays_of_unscopedBufs (p := 1) (pcfgs (F := F)) Gen.adm (asmb_rdats m) launch1.win launch1.arr_whole c
      (asmb_share1 m c) (asmb_VR (V3 m (asmb_outsA m)) c) fun w => dat1_A (asmb_VR (V3 m (asmb_outsA m))) c w
    rwa [Pipeline.unscopedBufs_held] at h
  hin c := asmb_shape_in (hin1 (asmb_VR (V3 m (asmb_outsA m))) c)
  hout c := by
    rw [Pipeline.ownSems0_none]
    exact asmb_shape_out (hout1 (asmb_VR (V3 m (asmb_outsA m))) c)
  hexit c := by
    refine asmb_shape_exit ?_ (asmb_owes_out c _)
    have h := asmb_bufs_of_arrays (asmb_rdats m) 1 launch1.win launch1.arr_whole c (asmb_share1 m c) (asmb_VR (V3 m (asmb_outsA m)) c)
      (fun b => V4 m (asmb_outsB m) c b) (fun w => (dat1 (asmb_VR (V3 m (asmb_outsA m))) c).arrAt w cfg1.N) (asmb_hF1 m c) (asmb_hrest1 m c)
    rw [Pipeline.unscopedBufs_held] at h
    exact (BIClass.sep_mono (Entails.of_eq ((dat1 (asmb_VR (V3 m (asmb_outsA m))) c).toR_arraysAt_eq cfg1.N)) .rfl).trans h

end

end Cert.Kernel.Hand

end
-- ==== Proof.KernelB.Reg2.lean ====
import proofs.«409657_j24300924961385_3_alg».proof.Proof.KernelB.Vals
import proofs.«409657_j24300924961385_3_alg».proof.Proof.KernelB.RLib
import proofs.«409657_j24300924961385_3_alg».proof.Proof.KernelB.Shape
import Idealize.ShloMosaic.Lib.Pipeline.Kit

set_option maxRecDepth 1160

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Pipeline (Seg HostSeg)

variable (m : (ℓ : Loc nD τ sig) → Buf (Elt F) ℓ)

theorem asmb_in2 : ∀ w : Fin 4, w ≠ 3 → (cfg2.win w).isOut = false ∧ Pipeline.arrRef spec2 w ∉ ([main_v62] : List (Ref sig .tc)) := by decide

section
set_option backward.isDefEq.respectTransparency.types false

theorem asmb_exit2 (c : Dev nD) :
    iprop((asmb_rdats m 2 c).arraysAt (Pipeline.pin (pcfgs (F := F)) Gen.adm 2).N
        ∗ Pipeline.unscopedRest (Ix := Unit) (Name := ℕ) (U := UR sig nD τ) (Lvl := ℕ) spec2 c (asmb_VR (V5 m (asmb_outsB m)) c))
      ⊢ (iprop(∃ X : Buf (Elt F) ((c : Thread nD τ).loc main_v62),
          StableHlo.held (c : Thread nD τ) (Pipeline.ucRefs τ sig) (Function.update (V5 m (asmb_outsB m) c) main_v62 X)) : sProp 𝕄) := by
  iintro ⟨Ha, Hrest⟩
  ihave Ha' := (asmb_arraysAt_elim (asmb_rdats m 2 c) (Pipeline.pin (pcfgs (F := F)) Gen.adm 2).N) $$ Ha
  icases Ha' with ⟨%Fs, %hFs, Ha⟩
  have hin : ∀ w : Fin 4, w ≠ 3 → Fs w = (asmb_VR (V5 m (asmb_outsB m)) c) (Pipeline.arrRef spec2 w) := fun w hw =>
    Eq.mp (congrFun ((asmb_rdats m 2 c).ArrAt_in w (asmb_in2 w hw).1 (Pipeline.pin (pcfgs (F := F)) Gen.adm 2).N) (Fs w)) (hFs w)
  have hjoin := asmb_bufs_of_arrays (asmb_rdats m) 2 launch2.win launch2.arr_whole c (asmb_share2 m c) (asmb_VR (V5 m (asmb_outsB m)) c)
    (fun b => Function.update (V5 m (asmb_outsB m) c) main_v62 (show Buf (Elt F) ((c : Thread nD τ).loc main_v62) from Fs 3) b) Fs
    (fun w => by
      by_cases hw : w = 3
      · subst hw; exact (Function.update_self (Proc.devRef .tc main_v62 : DevRef τ sig) _ (V5 m (asmb_outsB m) c)).symm
      · rw [hin w hw]
        exact (Function.update_of_ne (StableHlo.devRef_ne_of_ne (List.ne_of_not_mem_cons (asmb_in2 w hw).2) :
          (Proc.devRef .tc (Pipeline.arrRef spec2 w) : DevRef τ sig) ≠ Proc.devRef .tc main_v62) _ _).symm)
    (fun b hb => Function.update_of_ne (StableHlo.devRef_ne_of_ne (fun e => hb (Finset.mem_image.mpr ⟨3, Finset.mem_univ _, e.symm⟩)) :
      (Proc.devRef .tc b : DevRef τ sig) ≠ Proc.devRef .tc main_v62) _ _)
  rw [Pipeline.unscopedBufs_held] at hjoin
  iexists (show Buf (Elt F) ((c : Thread nD τ).loc main_v62) from Fs 3)
  iapply hjoin; isplitl [Ha] <;> iassumption

theorem asmb_owes2_in (c : Dev nD) :
    (iprop(∃ W, owes (c : Thread nD τ) (0 : CellTallies nD τ sig Unit) W) : sProp 𝕄) ⊢ (asmb_rdats m 2 c).owesAt () 0 := by
  exact asmb_owes_in c _ fun _ => Or.inl trivial
theorem asmb_owes2_out (c : Dev nD) :
    ((asmb_rdats m 2 c).owesAt () (Fin.last (Pipeline.pin (pcfgs (F := F)) Gen.adm 2).N) : sProp 𝕄)
      ⊢ iprop(∃ W, owes (c : Thread nD τ) (0 : CellTallies nD τ sig Unit) W) := by
  exact asmb_owes_out c _

def asmb_reg2 : Pipeline.RDat.RegionSeg (pcfgs (F := F)) Gen.adm (asmb_rdats m) () defs₀ asmb_V asmb_L asmb_lv 2 where
  win := launch2.win.to₀
  block_pos := launch2.block_pos
  stage_whole := launch2.stage_whole
  K := PEmpty
  osem k := k.elim
  ho := Pipeline.OwnSemFacts.none _
  hbody c := asmb_body_obligation2 (asmb_VR (V5 m (asmb_outsB m))) c
  hwaits := Pipeline.RDat.hwaits_of_owed_zero _ _ _ _ asmb_L asmb_lv 2 fun _ _ => rfl
  pre c := iprop(StableHlo.held (c : Thread nD τ) (Pipeline.ucRefs τ sig) (V5 m (asmb_outsB m) c) ∗ asmb_R c)
  post c := iprop(∃ X : Buf (Elt F) ((c : Thread nD τ).loc main_v62),
    StableHlo.held (c : Thread nD τ) (Pipeline.ucRefs τ sig) (Function.update (V5 m (asmb_outsB m) c) main_v62 X) ∗ asmb_R c)
  X c := iprop(∃ r, prngReg c r)
  Y c := iprop(∃ r, prngReg c r)
  Z c := Pipeline.unscopedRest (Ix := Unit) (Name := ℕ) (U := UR sig nD τ) (Lvl := ℕ) spec2 c (asmb_VR (V5 m (asmb_outsB m)) c)
  hentry c := by
    rw [Pipeline.ownSems0_none]
    refine asmb_shape_entry ?_ (asmb_owes2_in m c) (asmb_prefHeld 2 c)
    have h := Pipeline.RDat.arrays_of_unscopedBufs (p := 2) (pcfgs (F := F)) Gen.adm (asmb_rdats m) launch2.win launch2.arr_whole c
      (asmb_share2 m c) (asmb_VR (V5 m (asmb_outsB m)) c) fun _ => rfl
    rwa [Pipeline.unscopedBufs_held] at h
  hin c := by
    rw [show (asmb_rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (asmb_rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Hh := (asmb_exit2 m c) $$ [Ha Hrest]
    · isplitl [Ha] <;> iassumption
    icases Hh with ⟨%X, Hh⟩
    ihave HO' := (asmb_owes2_out m c) $$ HO
    imodintro
    iexists X
    isplitl [Hh]; · iexact Hh
    isplitl [HY]; · iexact HY
    iexact HO'

end

end Cert.Kernel.Hand

end
-- ==== Proof.R0.Dat.lean ====
import proofs.«409657_j24300924961385_3_alg».proof.Proof.Gen.KernelIdeal.Launch
import proofs.«409657_j24300924961385_3_alg».proof.Proof.Gen.KernelIdeal.Skeleton
import proofs.«409657_j24300924961385_3_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def wlo0 (c : Dev nD) (t : Fin cfg0.N) : Vec F S2048x1024 .f32 :=
  (cfg0.win 2).fill (cfg0.grid.coords t) (fun _ => Scalar.ofBits .f32 0#32) (blk0 V c 2 t)

/-- The running maximum, the running sum, the running weighted sum of rows, and the hidden row's term of the score. -/
structure Scr0 (F : FTy → Type) [FloatOps F] where
  m : Vec F S1x1 .f32
  l : Vec F S1x1 .f32
  acc : Vec F S1x2048 .f32
  ht : Vec F S1x1024 .f32

def init0 (hid : Vec F S1x1024 .f32) (whi : Vec F S1024x1024 .f32) (battn : Vec F S1x1024 .f32) : Scr0 F :=
  ⟨k0_pay7, k0_pay8, k0_pay9, k0_pay10 hid whi battn⟩

def step0 (enc : Vec F S512x2048 .f32) (wlo : Vec F S2048x1024 .f32) (wout : Vec F S1024x1 .f32) (bout : Vec F S1x1 .f32)
    (s : Scr0 F) : Scr0 F :=
  ⟨k0_pay3 (k0_pay13 enc wlo s.ht wout bout s.m),
   k0_pay1 (k0_pay16 enc wlo s.ht wout bout s.m s.l) (k0_pay17 enc wlo s.ht wout bout s.m),
   k0_pay2 (k0_pay11 enc) (k0_pay14 enc wlo s.ht wout bout s.m) (k0_pay15 enc wlo s.ht wout bout s.m) s.acc,
   s.ht⟩

def scoresOf0 (enc : Vec F S512x2048 .f32) (wlo : Vec F S2048x1024 .f32) (wout : Vec F S1024x1 .f32) (bout : Vec F S1x1 .f32)
    (s : Scr0 F) : Vec F S512x1 .f32 :=
  k0_pay12 enc wlo s.ht wout bout

def prev0 (t : Fin cfg0.N) : Fin cfg0.N := ⟨t.val - 1, Nat.lt_of_le_of_lt (Nat.sub_le _ _) t.isLt⟩

def initAt0 (c : Dev nD) (t : Fin cfg0.N) : Scr0 F := init0 (blk0 V c 1 t) (blk0 V c 3 t) (blk0 V c 4 t)

def stepAt0 (c : Dev nD) (t : Fin cfg0.N) (s : Scr0 F) : Scr0 F := step0 (blk0 V c 0 t) (wlo0 V c t) (blk0 V c 5 t) (blk0 V c 6 t) s

/-- The state the step at point `t` starts from: the reset at an even point, what the point before left at an odd one. -/
def scrMid0 (c : Dev nD) (t : Fin cfg0.N) : Scr0 F :=
  if t.val % 2 = 0 then initAt0 V c t else stepAt0 V c (prev0 t) (initAt0 V c (prev0 t))

def scrAfter0 (c : Dev nD) (t : Fin cfg0.N) : Scr0 F := stepAt0 V c t (scrMid0 V c t)

def scoresAt0 (c : Dev nD) (t : Fin cfg0.N) : Vec F S512x1 .f32 :=
  scoresOf0 (blk0 V c 0 t) (wlo0 V c t) (blk0 V c 5 t) (blk0 V c 6 t) (scrMid0 V c t)

abbrev cond0_init (i : grid0.Coords) : Prop :=
  (Scalar.cmpi .ne (Scalar.extui (Scalar.cmpi .eq (BitVec.ofNat 32 (i 1).val) 0#32)) 0#32) = 1#1

theorem hcond0_init : ∀ t : Fin cfg0.N, cond0_init (grid0.coords t) ↔ t.val % 2 = 0 :=
  (by decide +kernel : ∀ t : Fin grid0.N, cond0_init (grid0.coords t) ↔ t.val % 2 = 0)

theorem hcond0_last : ∀ t : Fin cfg0.N, k0_cond2 (grid0.coords t) = 1#1 ↔ t.val % 2 = 1 :=
  (by decide +kernel : ∀ t : Fin grid0.N, k0_cond2 (grid0.coords t) = 1#1 ↔ t.val % 2 = 1)

abbrev scM0_0 : Memref sig .tc .vmem S1x1 .f32 := Memref.whole cc0_scratch0
abbrev scM0_1 : Memref sig .tc .vmem S1x1 .f32 := Memref.whole cc0_scratch1
abbrev scM0_2 : Memref sig .tc .vmem S1x2048 .f32 := Memref.whole cc0_scratch2
abbrev scM0_3 : Memref sig .tc .vmem S1x1024 .f32 := Memref.whole cc0_scratch3

def scrOwn0 (c : Dev nD) (s : Scr0 F) : sProp 𝕄 :=
  iprop(owns (c : Thread nD τ) scM0_0 fullShare s.m ∗ owns (c : Thread nD τ) scM0_1 fullShare s.l
    ∗ owns (c : Thread nD τ) scM0_2 fullShare s.acc ∗ owns (c : Thread nD τ) scM0_3 fullShare s.ht)

def PhiNamed0 (c : Dev nD) (s : Scr0 F) : sProp 𝕄 :=
  iprop((∃ r, prngReg c r) ∗ scrOwn0 c s
    ∗ Pipeline.scopedRestBut (Ix := Unit) (Name := ℕ) (U := UR sig nD τ) (Lvl := ℕ) (Val := Elt F) spec0 c [cc0_scratch0, cc0_scratch1, cc0_scratch2, cc0_scratch3])

def PhiAny0 (c : Dev nD) : sProp 𝕄 :=
  iprop((∃ r, prngReg c r) ∗ Pipeline.scopedRest (Ix := Unit) (Name := ℕ) (U := UR sig nD τ) (Lvl := ℕ) (Val := Elt F) spec0 c)

/-- Before positions 1 and 3 the state is what the even point before left; elsewhere it is unconstrained. -/
def Phi0 (c : Dev nD) (n : ℕ) : sProp 𝕄 :=
  if n = 1 then PhiNamed0 c (scrAfter0 V c t0_0) else if n = 3 then PhiNamed0 c (scrAfter0 V c t0_2) else PhiAny0 c

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => wlo0 V c t
    | ⟨3, _⟩ => blk0 V c 3 t
    | ⟨4, _⟩ => blk0 V c 4 t
    | ⟨5, _⟩ => blk0 V c 5 t
    | ⟨6, _⟩ => blk0 V c 6 t
    | ⟨7, _⟩ => scoresAt0 V c t
    | ⟨8, _⟩ => k0_pay4 (scrAfter0 V c t).m
    | ⟨9, _⟩ => k0_pay5 (scrAfter0 V c t).l
    | ⟨10, _⟩ => k0_pay6 (scrAfter0 V c t).acc
  Φ t := Phi0 V c t.val
  q w := if w = 2 then fullShare.left else if w = 3 then fullShare.right else fullShare
  owed _ := 0

theorem dat0_A (c : Dev nD) (w : Fin cfg0.W) : (dat0 V c).A w = V c (Pipeline.arrRef spec0 w) := rfl

theorem dat0_owed (c : Dev nD) (t : Fin (cfg0.N + 1)) : (dat0 V c).owed t = 0 := rfl

theorem dat0_q (c : Dev nD) (w : Fin cfg0.W) :
    (dat0 V c).q w = if w = 2 then fullShare.left else if w = 3 then fullShare.right else fullShare := rfl

theorem dat0_Φ (c : Dev nD) (t : Fin (cfg0.N + 1)) : (dat0 V c).Φ t = Phi0 V c t.val := rfl

theorem dat0_after_0 (c : Dev nD) (t : Fin cfg0.N) : (dat0 V c).after 0 t = blk0 V c 0 t := rfl
theorem dat0_after_1 (c : Dev nD) (t : Fin cfg0.N) : (dat0 V c).after 1 t = blk0 V c 1 t := rfl
theorem dat0_after_2 (c : Dev nD) (t : Fin cfg0.N) : (dat0 V c).after 2 t = wlo0 V c t := rfl
theorem dat0_after_3 (c : Dev nD) (t : Fin cfg0.N) : (dat0 V c).after 3 t = blk0 V c 3 t := rfl
theorem dat0_after_4 (c : Dev nD) (t : Fin cfg0.N) : (dat0 V c).after 4 t = blk0 V c 4 t := rfl
theorem dat0_after_5 (c : Dev nD) (t : Fin cfg0.N) : (dat0 V c).after 5 t = blk0 V c 5 t := rfl
theorem dat0_after_6 (c : Dev nD) (t : Fin cfg0.N) : (dat0 V c).after 6 t = blk0 V c 6 t := rfl
theorem dat0_after_7 (c : Dev nD) (t : Fin cfg0.N) : (dat0 V c).after 7 t = scoresAt0 V c t := rfl
theorem dat0_after_8 (c : Dev nD) (t : Fin cfg0.N) : (dat0 V c).after 8 t = k0_pay4 (scrAfter0 V c t).m := rfl
theorem dat0_after_9 (c : Dev nD) (t : Fin cfg0.N) : (dat0 V c).after 9 t = k0_pay5 (scrAfter0 V c t).l := rfl
theorem dat0_after_10 (c : Dev nD) (t : Fin cfg0.N) : (dat0 V c).after 10 t = k0_pay6 (scrAfter0 V c t).acc := rfl

theorem hin0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := Idealize.SL.BI.Entails.refl _

theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) :=
  Idealize.SL.BI.Entails.refl _

theorem dat0_recorded (c : Dev nD) (t : Fin (cfg0.N + 1)) : (dat0 V c).recorded t = Set.univ := rfl

theorem scrMid0_odd (c : Dev nD) (t : Fin cfg0.N) (h : t.val % 2 = 1) : scrMid0 V c t = scrAfter0 V c (prev0 t) := by
  unfold scrAfter0 scrMid0
  rw [if_neg (by omega), if_pos (show (prev0 t).val % 2 = 0 by unfold prev0; dsimp only; omega)]

theorem scrAfter0_even (c : Dev nD) (t : Fin cfg0.N) (h : t.val % 2 = 0) :
    scrAfter0 V c t = step0 (blk0 V c 0 t) (wlo0 V c t) (blk0 V c 5 t) (blk0 V c 6 t) (init0 (blk0 V c 1 t) (blk0 V c 3 t) (blk0 V c 4 t)) := by
  unfold scrAfter0 scrMid0; rw [if_pos h]; rfl

theorem scoresAt0_even (c : Dev nD) (t : Fin cfg0.N) (h : t.val % 2 = 0) :
    scoresAt0 V c t = scoresOf0 (blk0 V c 0 t) (wlo0 V c t) (blk0 V c 5 t) (blk0 V c 6 t) (init0 (blk0 V c 1 t) (blk0 V c 3 t) (blk0 V c 4 t)) := by
  unfold scoresAt0 scrMid0; rw [if_pos h]; rfl

theorem scrAfter0_odd (c : Dev nD) (t : Fin cfg0.N) (h : t.val % 2 = 1) :
    scrAfter0 V c t = step0 (blk0 V c 0 t) (wlo0 V c t) (blk0 V c 5 t) (blk0 V c 6 t) (scrAfter0 V c (prev0 t)) := by
  rw [← scrMid0_odd V c t h]; rfl

theorem scoresAt0_odd (c : Dev nD) (t : Fin cfg0.N) (h : t.val % 2 = 1) :
    scoresAt0 V c t = scoresOf0 (blk0 V c 0 t) (wlo0 V c t) (blk0 V c 5 t) (blk0 V c 6 t) (scrAfter0 V c (prev0 t)) := by
  rw [← scrMid0_odd V c t h]; rfl

end Cert.KernelIdeal.Hand

end
-- ==== Proof.R1.Dat.lean ====
import proofs.«409657_j24300924961385_3_alg».proof.Proof.Gen.KernelIdeal.Skeleton
import proofs.«409657_j24300924961385_3_alg».proof.Proof.Gen.KernelIdeal.Launch
import proofs.«409657_j24300924961385_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Acc1 (F : FTy → Type) : Type :=
  Vec F S1x512 .f32 × Vec F S1x512 .f32 × Vec F S1x512 .f32 × Vec F S1x512 .f32

def zero1 : Acc1 F := (k1_pay4 (F := F), k1_pay5 (F := F), k1_pay6 (F := F), k1_pay7 (F := F))

def step1 (x : Vec F S1x1024 .f32) (w1 w2 w3 w4 : Vec F S1024x512 .f32) (a : Acc1 F) : Acc1 F :=
  (k1_pay9 x a.1 w1, k1_pay10 x a.2.1 w2, k1_pay11 x a.2.2.1 w3, k1_pay1 (k1_pay8 x) a.2.2.2 w4)

def stepAt1 (c : Dev nD) (t : Fin cfg1.N) (a : Acc1 F) : Acc1 F :=
  step1 (blk1 V c 0 t) (blk1 V c 1 t) (blk1 V c 2 t) (blk1 V c 3 t) (blk1 V c 4 t) a

def back1 (t : Fin cfg1.N) (i : ℕ) : Fin cfg1.N := ⟨t.val - i, lt_of_le_of_lt (Nat.sub_le _ _) t.isLt⟩

/-- The accumulators after point `t = (j, k)`: `k + 1` tiles folded from the zero fill, over the points `(j, 0), …, (j, k)`. -/
def accAfter1 (c : Dev nD) (t : Fin cfg1.N) : Acc1 F :=
  match t.val % 4 with
  | 0 => stepAt1 V c t zero1
  | 1 => stepAt1 V c t (stepAt1 V c (back1 t 1) zero1)
  | 2 => stepAt1 V c t (stepAt1 V c (back1 t 1) (stepAt1 V c (back1 t 2) zero1))
  | _ => stepAt1 V c t (stepAt1 V c (back1 t 1) (stepAt1 V c (back1 t 2) (stepAt1 V c (back1 t 3) zero1)))

theorem accAfter1_first (c : Dev nD) (t : Fin cfg1.N) (h : t.val % 4 = 0) :
    accAfter1 V c t = stepAt1 V c t zero1 := by
  unfold accAfter1; rw [h]; rfl

theorem accAfter1_last (c : Dev nD) (t : Fin cfg1.N) (h : t.val % 4 = 3) :
    accAfter1 V c t = stepAt1 V c t (stepAt1 V c (back1 t 1) (stepAt1 V c (back1 t 2) (stepAt1 V c (back1 t 3) zero1))) := by
  unfold accAfter1; rw [h]; rfl

/-- After a point that is not a first tile: one more tile over what the point before left. -/
theorem accAfter1_next (c : Dev nD) (t : Fin cfg1.N) (h : t.val % 4 ≠ 0) :
    accAfter1 V c t = stepAt1 V c t (accAfter1 V c (back1 t 1)) := by
  have h1 : ∀ i, back1 (back1 t 1) i = back1 t (i + 1) := fun i => Fin.ext (by simp only [back1]; omega)
  have hb : (back1 t 1).val = t.val - 1 := rfl
  unfold accAfter1
  obtain hk | hk | hk : t.val % 4 = 1 ∨ t.val % 4 = 2 ∨ t.val % 4 = 3 := by omega
  · simp only [hk, show (back1 t 1).val % 4 = 0 by omega]
  · simp only [hk, show (back1 t 1).val % 4 = 1 by omega, h1]
  · simp only [hk, show (back1 t 1).val % 4 = 2 by omega, h1]

def out10_1 (a : Acc1 F) (b5 b7 b8 cell : Vec F S1x512 .f32) : Vec F S1x512 .f32 :=
  k1_pay2 a.1 b5 a.2.2.1 b7 a.2.2.2 b8 cell

def out11_1 (a : Acc1 F) (b5 b6 b7 b8 cell : Vec F S1x512 .f32) : Vec F S1x512 .f32 :=
  k1_pay3 a.1 b5 a.2.1 b6 a.2.2.1 b7 a.2.2.2 b8 cell

abbrev r1_scM_0 : Memref sig .tc .vmem S1x512 .f32 := Memref.whole cc1_scratch0
abbrev r1_scM_1 : Memref sig .tc .vmem S1x512 .f32 := Memref.whole cc1_scratch1
abbrev r1_scM_2 : Memref sig .tc .vmem S1x512 .f32 := Memref.whole cc1_scratch2
abbrev r1_scM_3 : Memref sig .tc .vmem S1x512 .f32 := Memref.whole cc1_scratch3

def r1_scrAny (c : Dev nD) : sProp 𝕄 :=
  iprop((∃ d, owns (c : Thread nD τ) r1_scM_0 fullShare d) ∗ (∃ d, owns (c : Thread nD τ) r1_scM_1 fullShare d)
    ∗ (∃ d, owns (c : Thread nD τ) r1_scM_2 fullShare d) ∗ (∃ d, owns (c : Thread nD τ) r1_scM_3 fullShare d))

def r1_scrAt (c : Dev nD) (a : Acc1 F) : sProp 𝕄 :=
  iprop(owns (c : Thread nD τ) r1_scM_0 fullShare a.1 ∗ owns (c : Thread nD τ) r1_scM_1 fullShare a.2.1
    ∗ owns (c : Thread nD τ) r1_scM_2 fullShare a.2.2.1 ∗ owns (c : Thread nD τ) r1_scM_3 fullShare a.2.2.2)

def r1_rest (c : Dev nD) : sProp 𝕄 :=
  iprop((∃ r, prngReg c r) ∗ Pipeline.scopedRestBut spec1 c [cc1_scratch0, cc1_scratch1, cc1_scratch2, cc1_scratch3])

def r1_PhiS (c : Dev nD) : (n : ℕ) → n ≤ cfg1.N → sProp 𝕄
  | 0, _ => iprop(r1_rest c ∗ r1_scrAny c)
  | n + 1, hn => iprop(r1_rest c ∗ if (n + 1) % 4 = 0 then r1_scrAny c else r1_scrAt c (accAfter1 V c ⟨n, hn⟩))

theorem r1_PhiS_any (c : Dev nD) (n : ℕ) (h : n ≤ cfg1.N) (hn : n % 4 = 0) :
    r1_PhiS V c n h = iprop(r1_rest c ∗ r1_scrAny c) := by
  cases n with
  | zero => rfl
  | succ n => simp only [r1_PhiS, if_pos hn]

theorem r1_PhiS_at (c : Dev nD) (n : ℕ) (h : n ≤ cfg1.N) (hn : n % 4 ≠ 0) :
    r1_PhiS V c n h = iprop(r1_rest c ∗ r1_scrAt c (accAfter1 V c ⟨n - 1, by omega⟩)) := by
  cases n with
  | zero => exact absurd rfl hn
  | succ n => simp only [r1_PhiS, if_neg hn]; rfl

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => out10_1 (accAfter1 V c t) (blk1 V c 5 t) (blk1 V c 7 t) (blk1 V c 8 t) (blk1 V c 9 t)
    | ⟨11, _⟩ => out11_1 (accAfter1 V c t) (blk1 V c 5 t) (blk1 V c 6 t) (blk1 V c 7 t) (blk1 V c 8 t) (blk1 V c 9 t)
  Φ t := r1_PhiS V c t.val (Nat.le_of_lt_succ t.isLt)
  q _ := fullShare
  owed _ := 0

theorem dat1_A (c : Dev nD) (w : Fin cfg1.W) : (dat1 V c).A w = V c (Pipeline.arrRef spec1 w) := rfl

theorem dat1_owed (c : Dev nD) (t : Fin (cfg1.N + 1)) : (dat1 V c).owed t = 0 := rfl

theorem dat1_q (c : Dev nD) (w : Fin cfg1.W) : (dat1 V c).q w = fullShare := rfl

theorem r1_dat_Phi (c : Dev nD) (t : Fin (cfg1.N + 1)) :
    (dat1 V c).Φ t = r1_PhiS V c t.val (Nat.le_of_lt_succ t.isLt) := rfl

theorem dat1_after_0 (c : Dev nD) (t : Fin cfg1.N) : (dat1 V c).after 0 t = blk1 V c 0 t := rfl
theorem dat1_after_1 (c : Dev nD) (t : Fin cfg1.N) : (dat1 V c).after 1 t = blk1 V c 1 t := rfl
theorem dat1_after_2 (c : Dev nD) (t : Fin cfg1.N) : (dat1 V c).after 2 t = blk1 V c 2 t := rfl
theorem dat1_after_3 (c : Dev nD) (t : Fin cfg1.N) : (dat1 V c).after 3 t = blk1 V c 3 t := rfl
theorem dat1_after_4 (c : Dev nD) (t : Fin cfg1.N) : (dat1 V c).after 4 t = blk1 V c 4 t := rfl
theorem dat1_after_5 (c : Dev nD) (t : Fin cfg1.N) : (dat1 V c).after 5 t = blk1 V c 5 t := rfl
theorem dat1_after_6 (c : Dev nD) (t : Fin cfg1.N) : (dat1 V c).after 6 t = blk1 V c 6 t := rfl
theorem dat1_after_7 (c : Dev nD) (t : Fin cfg1.N) : (dat1 V c).after 7 t = blk1 V c 7 t := rfl
theorem dat1_after_8 (c : Dev nD) (t : Fin cfg1.N) : (dat1 V c).after 8 t = blk1 V c 8 t := rfl
theorem dat1_after_9 (c : Dev nD) (t : Fin cfg1.N) : (dat1 V c).after 9 t = blk1 V c 9 t := rfl
theorem dat1_after_10 (c : Dev nD) (t : Fin cfg1.N) :
    (dat1 V c).after 10 t = out10_1 (accAfter1 V c t) (blk1 V c 5 t) (blk1 V c 7 t) (blk1 V c 8 t) (blk1 V c 9 t) := rfl
theorem dat1_after_11 (c : Dev nD) (t : Fin cfg1.N) :
    (dat1 V c).after 11 t = out11_1 (accAfter1 V c t) (blk1 V c 5 t) (blk1 V c 6 t) (blk1 V c 7 t) (blk1 V c 8 t) (blk1 V c 9 t) := rfl

theorem hin1 (c : Dev nD) :
    iprop((∃ r, prngReg c r) ∗ Pipeline.scopedRest spec1 c) ⊢ ((dat1 V c).Φ 0 : sProp 𝕄) := by
  rw [r1_dat_Phi, r1_PhiS_any V c (0 : Fin (cfg1.N + 1)).val _ (by rfl), scopedRest1_split]
  unfold r1_rest r1_scrAny
  simp only [r1_scM_0, r1_scM_1, r1_scM_2, r1_scM_3, owns_whole]
  iintro ⟨Hg, Hs, Hr⟩
  isplitl [Hg Hr]
  · isplitl [Hg]; · iexact Hg
    iexact Hr
  iexact Hs

theorem hout1 (c : Dev nD) :
    (dat1 V c).Φ (Fin.last cfg1.N) ⊢ (iprop((∃ r, prngReg c r) ∗ Pipeline.scopedRest spec1 c) : sProp 𝕄) := by
  rw [r1_dat_Phi, r1_PhiS_any V c _ _ (by rw [Fin.val_last]; show grid1.N % 4 = 0; rw [N_1]), scopedRest1_split]
  unfold r1_rest r1_scrAny
  simp only [r1_scM_0, r1_scM_1, r1_scM_2, r1_scM_3, owns_whole]
  iintro ⟨⟨Hg, Hr⟩, Hs⟩
  isplitl [Hg]; · iexact Hg
  isplitr [Hr]; · iexact Hs
  iexact Hr

theorem dat1_recorded (c : Dev nD) (t : Fin (cfg1.N + 1)) : (dat1 V c).recorded t = Set.univ := rfl

end Cert.KernelIdeal.Hand

end
-- ==== Proof.R2.Dat.lean ====
import proofs.«409657_j24300924961385_3_alg».proof.Proof.Gen.KernelIdeal.Launch
import proofs.«409657_j24300924961385_3_alg».proof.Proof.Gen.KernelIdeal.Skeleton
import proofs.«409657_j24300924961385_3_alg».proof.Proof.Gen.KernelIdeal.Points
import Idealize.ShloMosaic.Lib.Pipeline.FrameBody
import Idealize.ShloMosaic.Lib.Tactic
import Idealize.ShloMosaic.PureOps.Ideal.Laws

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- The part of window `w`'s block at point `t` that lies inside the array. -/
def iblk2 (c : Dev nD) (w : Fin cfg2.W) (t : Fin cfg2.N) :
    ((cfg2.win w).xblock (cfg2.grid.coords t)).Idx → Elt Ideal (cfg2.win w).elt :=
  ((cfg2.win w).blk t).view.read (Elt Ideal) (V c (Pipeline.arrRef spec2 w))

/-- The weights' and the bias's blocks at point `t`, with zero on the columns past the array's end. -/
def wfill2 (c : Dev nD) (t : Fin cfg2.N) : S4096x1024.Idx → Elt Ideal .f32 :=
  win2_1.fill (grid2.coords t) (fun _ => (0 : EReal)) (iblk2 V c 1 t)
def bfill2 (c : Dev nD) (t : Fin cfg2.N) : S1x1024.Idx → Elt Ideal .f32 :=
  win2_2.fill (grid2.coords t) (fun _ => (0 : EReal)) (iblk2 V c 2 t)

/-- The values after the body at point `t`: the row vector, the two filled-out blocks, and their payload. -/
def dat2 (c : Dev nD) : Dat τ (Elt Ideal) Unit ℕ (UR sig nD τ) ℕ cfg2 c where
  A w := V c (Pipeline.arrRef spec2 w)
  after w t := match w with
    | ⟨0, _⟩ => iblk2 V c 0 t
    | ⟨1, _⟩ => wfill2 V c t
    | ⟨2, _⟩ => bfill2 V c t
    | ⟨3, _⟩ => k2_pay1 (iblk2 V c 0 t) (wfill2 V c t) (bfill2 V c t)
  Φ _ := Pipeline.ΦA spec2 c
  q _ := fullShare
  owed _ := 0

theorem dat2_A (c : Dev nD) (w : Fin cfg2.W) : (dat2 V c).A w = V c (Pipeline.arrRef spec2 w) := rfl
theorem dat2_owed (c : Dev nD) (j : Fin (cfg2.N + 1)) : (dat2 V c).owed j = 0 := rfl
theorem dat2_q (c : Dev nD) (w : Fin cfg2.W) : (dat2 V c).q w = fullShare := rfl
theorem dat2_recorded (c : Dev nD) (t : Fin (cfg2.N + 1)) : (dat2 V c).recorded t = Set.univ := rfl

theorem dat2_after0 (c : Dev nD) (t : Fin cfg2.N) : (dat2 V c).after 0 t = iblk2 V c 0 t := by dsimp only [dat2]
theorem dat2_after1 (c : Dev nD) (t : Fin cfg2.N) : (dat2 V c).after 1 t = wfill2 V c t := by dsimp only [dat2]
theorem dat2_after2 (c : Dev nD) (t : Fin cfg2.N) : (dat2 V c).after 2 t = bfill2 V c t := by dsimp only [dat2]
theorem dat2_after3 (c : Dev nD) (t : Fin cfg2.N) :
    (dat2 V c).after 3 t = k2_pay1 (iblk2 V c 0 t) (wfill2 V c t) (bfill2 V c t) := by dsimp only [dat2]

theorem hin2 (c : Dev nD) :
    iprop((∃ r, prngReg c r) ∗ Pipeline.scopedRest (Ix := Unit) (Name := ℕ) (U := UR sig nD τ) (Lvl := ℕ) (Val := Elt Ideal) spec2 c)
      ⊢ ((dat2 V c).Φ 0 : sProp 𝕄) := sep_symm

theorem hout2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt Ideal) spec2 c) : sProp 𝕄) :=
  sep_symm

end Cert.KernelIdeal.Hand

end
-- ==== Proof.RunI.Outs.lean ====
import proofs.«409657_j24300924961385_3_alg».proof.Proof.Gen.KernelIdeal.Regions
import proofs.«409657_j24300924961385_3_alg».proof.Proof.R0.Dat
import proofs.«409657_j24300924961385_3_alg».proof.Proof.R1.Dat
import proofs.«409657_j24300924961385_3_alg».proof.Proof.R2.Dat
import Idealize.ShloMosaic.Lib.Pipeline.Regions
import Idealize.ShloMosaic.PureOps.Ideal

set_option maxRecDepth 1160

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation BodyObligationLoose cellOf)

local notation "𝕄I" => MT nD τ sig Unit (Elt Ideal) ℕ (UR sig nD τ) ℕ

section Generic

variable {F : FTy → Type} [FloatOps F]
variable (m : (ℓ : Loc nD τ sig) → Buf (Elt F) ℓ) (outs outs' : Outs (F := F))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem V2_v14_0 (c : Dev nD) : V2 m outs c main_v14_0 = outs 2 main_v14_0 c := by
  unfold V2; simp (disch := (apply StableHlo.devRef_ne_of_ne; decide)) only [Function.update_of_ne, Function.update_self]
theorem V2_v14_1 (c : Dev nD) : V2 m outs c main_v14_1 = outs 2 main_v14_1 c := by
  unfold V2; simp (disch := (apply StableHlo.devRef_ne_of_ne; decide)) only [Function.update_of_ne, Function.update_self]
theorem V2_v14_2 (c : Dev nD) : V2 m outs c main_v14_2 = outs 2 main_v14_2 c := by
  unfold V2; simp (disch := (apply StableHlo.devRef_ne_of_ne; decide)) only [Function.update_of_ne, Function.update_self]
theorem V2_v14_3 (c : Dev nD) : V2 m outs c main_v14_3 = outs 2 main_v14_3 c := by
  unfold V2; rw [Function.update_self]

theorem V4_v59_0 (c : Dev nD) : V4 m outs c main_v59_0 = outs 4 main_v59_0 c := by
  unfold V4; simp (disch := (apply StableHlo.devRef_ne_of_ne; decide)) only [Function.update_of_ne, Function.update_self]
theorem V4_v59_1 (c : Dev nD) : V4 m outs c main_v59_1 = outs 4 main_v59_1 c := by
  unfold V4; rw [Function.update_self]

theorem V6_v62 (c : Dev nD) : V6 m outs c main_v62 = outs 6 main_v62 c := by
  unfold V6; rw [Function.update_self]

theorem asmi_V2_congr (h2 : ∀ r c, outs 2 r c = outs' 2 r c) (c : Dev nD) : V2 m outs c = V2 m outs' c := by
  unfold V2; rw [h2, h2, h2, h2]
theorem asmi_V3_congr (h2 : ∀ r c, outs 2 r c = outs' 2 r c) (c : Dev nD) : V3 m outs c = V3 m outs' c :=
  congrArg (StableHlo.after hostOps1) (asmi_V2_congr m outs outs' h2 c)

theorem asmi_V4_congr (h2 : ∀ r c, outs 2 r c = outs' 2 r c) (h4 : ∀ r c, outs 4 r c = outs' 4 r c) (c : Dev nD) :
    V4 m outs c = V4 m outs' c := by
  unfold V4; rw [h4, h4, asmi_V3_congr m outs outs' h2 c]
theorem asmi_V5_congr (h2 : ∀ r c, outs 2 r c = outs' 2 r c) (h4 : ∀ r c, outs 4 r c = outs' 4 r c) (c : Dev nD) :
    V5 m outs c = V5 m outs' c :=
  congrArg (StableHlo.after hostOps2) (asmi_V4_congr m outs outs' h2 h4 c)

end Generic

section Outs

variable (m : (ℓ : Loc nD τ sig) → Buf (Elt Ideal) ℓ)

abbrev entry0 : (c : Dev nD) → (b : Ref sig .tc) → Buf (Elt Ideal) ((c : Thread nD τ).loc b) := fun c b => V1 m c b

/-- A region's proof data are taken at the contents its entry finds, so the contents the regions leave are fixed region by region. -/
def asmi_outsA : Outs (F := Ideal) := fun J r c =>
  if J = 2 then
    Function.update (Function.update (Function.update (Function.update (fun r : Ref sig .tc => entry0 m c r)
      main_v14_0 ((dat0 (entry0 m) c).arrAt 7 cfg0.N)) main_v14_1 ((dat0 (entry0 m) c).arrAt 8 cfg0.N))
      main_v14_2 ((dat0 (entry0 m) c).arrAt 9 cfg0.N)) main_v14_3 ((dat0 (entry0 m) c).arrAt 10 cfg0.N) r
  else V0 m c r

abbrev asmi_entry1A : (c : Dev nD) → (b : Ref sig .tc) → Buf (Elt Ideal) ((c : Thread nD τ).loc b) := fun c b => V3 m (asmi_outsA m) c b

def asmi_outsB : Outs (F := Ideal) := fun J r c =>
  if J = 4 then
    Function.update (Function.update (fun r : Ref sig .tc => asmi_entry1A m c r)
      main_v59_0 ((dat1 (asmi_entry1A m) c).arrAt 10 cfg1.N)) main_v59_1 ((dat1 (asmi_entry1A m) c).arrAt 11 cfg1.N) r
  else asmi_outsA m J r c

abbrev asmi_entry2B : (c : Dev nD) → (b : Ref sig .tc) → Buf (Elt Ideal) ((c : Thread nD τ).loc b) := fun c b => V5 m (asmi_outsB m) c b

def outsI : Outs (F := Ideal) := fun J r c =>
  if J = 6 then Function.update (fun r : Ref sig .tc => asmi_entry2B m c r) main_v62 ((dat2 (asmi_entry2B m) c).arrAt 3 cfg2.N) r
  else asmi_outsB m J r c

abbrev entry1 : (c : Dev nD) → (b : Ref sig .tc) → Buf (Elt Ideal) ((c : Thread nD τ).loc b) := fun c b => V3 m (outsI m) c b

abbrev entry2 : (c : Dev nD) → (b : Ref sig .tc) → Buf (Elt Ideal) ((c : Thread nD τ).loc b) := fun c b => V5 m (outsI m) c b

theorem asmi_outsI_two (r : Ref sig .tc) (c : Dev nD) : outsI m 2 r c = asmi_outsA m 2 r c := rfl
theorem asmi_outsI_four (r : Ref sig .tc) (c : Dev nD) : outsI m 4 r c = asmi_outsB m 4 r c := rfl
theorem asmi_outsB_two (r : Ref sig .tc) (c : Dev nD) : asmi_outsB m 2 r c = asmi_outsA m 2 r c := rfl

theorem asmi_V3_outsI (c : Dev nD) : V3 m (outsI m) c = V3 m (asmi_outsA m) c := asmi_V3_congr m _ _ (asmi_outsI_two m) c
theorem asmi_V5_outsI (c : Dev nD) : V5 m (outsI m) c = V5 m (asmi_outsB m) c :=
  asmi_V5_congr m _ _ (fun r c => (asmi_outsI_two m r c).trans (asmi_outsB_two m r c).symm) (asmi_outsI_four m) c

theorem asmi_entry1_eq : entry1 m = asmi_entry1A m := by
  funext c b; exact congrFun (asmi_V3_outsI m c) _
theorem asmi_entry2_eq : entry2 m = asmi_entry2B m := by
  funext c b; exact congrFun (asmi_V5_outsI m c) _

theorem outsI_v14_0 (c : Dev nD) : outsI m 2 main_v14_0 c = (dat0 (entry0 m) c).arrAt 7 cfg0.N := by
  rw [asmi_outsI_two]; unfold asmi_outsA; rw [if_pos rfl]
  simp (disch := decide) only [Function.update_of_ne, Function.update_self]
theorem outsI_v14_1 (c : Dev nD) : outsI m 2 main_v14_1 c = (dat0 (entry0 m) c).arrAt 8 cfg0.N := by
  rw [asmi_outsI_two]; unfold asmi_outsA; rw [if_pos rfl]
  simp (disch := decide) only [Function.update_of_ne, Function.update_self]
theorem outsI_v14_2 (c : Dev nD) : outsI m 2 main_v14_2 c = (dat0 (entry0 m) c).arrAt 9 cfg0.N := by
  rw [asmi_outsI_two]; unfold asmi_outsA; rw [if_pos rfl]
  simp (disch := decide) only [Function.update_of_ne, Function.update_self]
theorem outsI_v14_3 (c : Dev nD) : outsI m 2 main_v14_3 c = (dat0 (entry0 m) c).arrAt 10 cfg0.N := by
  rw [asmi_outsI_two]; unfold asmi_outsA; rw [if_pos rfl, Function.update_self]
theorem outsI_v59_0 (c : Dev nD) : outsI m 4 main_v59_0 c = (dat1 (entry1 m) c).arrAt 10 cfg1.N := by
  rw [asmi_outsI_four, asmi_entry1_eq]; unfold asmi_outsB; rw [if_pos rfl]
  simp (disch := decide) only [Function.update_of_ne, Function.update_self]
theorem outsI_v59_1 (c : Dev nD) : outsI m 4 main_v59_1 c = (dat1 (entry1 m) c).arrAt 11 cfg1.N := by
  rw [asmi_outsI_four, asmi_entry1_eq]; unfold asmi_outsB; rw [if_pos rfl, Function.update_self]
theorem outsI_v62 (c : Dev nD) : outsI m 6 main_v62 c = (dat2 (entry2 m) c).arrAt 3 cfg2.N := by
  rw [asmi_entry2_eq]; unfold outsI; rw [if_pos rfl, Function.update_self]

end Outs

end Cert.KernelIdeal.Hand

end
-- ==== Proof.R0.Body.lean ====
import proofs.«409657_j24300924961385_3_alg».proof.Proof.R0.Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem r0_hz2 : (![0, 0] : Fin 2 → Nat) = fun _ => 0 := funext fun a => by fin_cases a <;> rfl
theorem r0_hz3 : (![0, 0, 0] : Fin 3 → Nat) = fun _ => 0 := funext fun a => by fin_cases a <;> rfl

theorem r0_read_last_whole {sig : RefSig} {κ : Kind} {sp : Space} {Val : EltTy → Type} [∀ e, Nonempty (Val e)] {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

variable (c : Dev nD) (E : Set ℕ) (i : grid0.Coords) (arg2 : Memref sig .tc .vmem S512x2048 .f32) (harg2 : arg2.IsWhole) (arg3 : Memref sig .tc .vmem S1x1024 .f32) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x2048 .f32) (harg15 : arg15.IsWhole) (arg16 : Memref sig .tc .vmem S1x1024 .f32) (harg16 : arg16.IsWhole)

set_option maxHeartbeats 4000000 in
/-- One run of the body: the scratch state reset first on a row's first block, the partial results stored on its last only. -/
theorem r0_kernel (enc : Vec F S512x2048 .f32) (hid : Vec F S1x1024 .f32) (wlo : Vec F S2048x1024 .f32) (whi : Vec F S1024x1024 .f32)
    (battn : Vec F S1x1024 .f32) (wout : Vec F S1024x1 .f32) (bout : Vec F S1x1 .f32) (y8 y9 o8 o9 : Vec F S1x1x1 .f32)
    (y10 o10 : Vec F S1x1x2048 .f32) (s z : Scr0 F) (hz : z = if cond0_init i then init0 hid whi battn else s)
    (ho8 : o8 = if k0_cond2 i = 1#1 then k0_pay4 (step0 enc wlo wout bout z).m else y8) (ho9 : o9 = if k0_cond2 i = 1#1 then k0_pay5 (step0 enc wlo wout bout z).l else y9)
    (ho10 : o10 = if k0_cond2 i = 1#1 then k0_pay6 (step0 enc wlo wout bout z).acc else y10) (K : PUnit → sProp 𝕄) :
    iprop(owns c arg2 fullShare enc ∗ owns c arg3 fullShare hid ∗ owns c arg4 fullShare wlo ∗ owns c arg5 fullShare whi ∗ owns c arg6 fullShare battn ∗ owns c arg7 fullShare wout ∗ owns c arg8 fullShare bout ∗ (∃ d, owns c arg9 fullShare d) ∗ owns c arg10 fullShare y8 ∗ owns c arg11 fullShare y9 ∗ owns c arg12 fullShare y10
        ∗ owns c arg13 fullShare s.m ∗ owns c arg14 fullShare s.l ∗ owns c arg15 fullShare s.acc ∗ owns c arg16 fullShare s.ht
        ∗ (iprop(owns c arg2 fullShare enc ∗ owns c arg3 fullShare hid ∗ owns c arg4 fullShare wlo ∗ owns c arg5 fullShare whi ∗ owns c arg6 fullShare battn ∗ owns c arg7 fullShare wout ∗ owns c arg8 fullShare bout ∗ owns c arg9 fullShare (scoresOf0 enc wlo wout bout z) ∗ owns c arg10 fullShare o8 ∗ owns c arg11 fullShare o9 ∗ owns c arg12 fullShare o10
          ∗ owns c arg13 fullShare (step0 enc wlo wout bout z).m ∗ owns c arg14 fullShare (step0 enc wlo wout bout z).l ∗ owns c arg15 fullShare (step0 enc wlo wout bout z).acc ∗ owns c arg16 fullShare (step0 enc wlo wout bout z).ht) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hz ho8 ho9 ho10
  obtain ⟨sm, sl, sacc, sht⟩ := s
  by_cases hc0 : cond0_init i <;> by_cases hc1 : k0_cond2 i = 1#1 <;>
  · first | simp only [if_neg hc0] | simp only [if_pos hc0]
    first | simp only [if_neg hc1] | simp only [if_pos hc1]
    simp only [cc0__attn_kernel_eq_skeleton]; unfold cc0__attn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    subst hf2 hf3 hf4 hf5 hf6 hf7 hf8 hf10 hf11 hf12 hf13 hf14 hf15 hf16
    sl_exec (disch := first | exact hc0 | exact hc1)
    sl_step
    iapply Hk
    isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap; isplitl [H14]; swap; isplitl [H15]; swap
    all_goals
      iexists _; isplitr; swap; · iassumption
      ipureintro
      first
      | (try dsimp only)
        sl_unfold_run_names
        first
        | rw [r0_read_last_whole (S := S1x1) _ _ r0_hz2] | rw [r0_read_last_whole (S := S1x2048) _ _ r0_hz2]
        | rw [r0_read_last_whole (S := S1x1024) _ _ r0_hz2] | rw [r0_read_last_whole (S := S512x1) _ _ r0_hz2]
        | rw [r0_read_last_whole (S := S1x1x1) _ _ r0_hz3] | rw [r0_read_last_whole (S := S1x1x2048) _ _ r0_hz3]
        (try dsimp only)
        simp only [step0, init0, scoresOf0, View.readAt_eq_ld, View.ld_unit_zero (S := S512x2048) r0_hz2, View.ld_unit_zero (S := S1x1024) r0_hz2,
          View.ld_unit_zero (S := S2048x1024) r0_hz2, View.ld_unit_zero (S := S1024x1024) r0_hz2, View.ld_unit_zero (S := S1024x1) r0_hz2,
          View.ld_unit_zero (S := S1x1) r0_hz2, View.ld_unit_zero (S := S1x2048) r0_hz2, View.readCov_cons_toLoadRect,
          View.readCov_unit_zero (S := S1x1) _ r0_hz2, View.readCov_unit_zero (S := S1x2048) _ r0_hz2, View.readCov_unit_zero (S := S1x1024) _ r0_hz2]
      | rfl

variable (V : (c : Dev nD) → (b : Ref sig .tc) → Buf (Elt F) ((c : Thread nD τ).loc b))

theorem r0_clip_2 : ∀ (t : Fin cfg0.N) (a : Fin (cfg0.win 2).shape.rank), (cfg0.win 2).clip (cfg0.grid.coords t) a = none := by
  decide +kernel

theorem r0_before_2 (c : Dev nD) (t : Fin cfg0.N) (d) : (dat0 V c).before 2 t d = wlo0 V c t :=
  ((dat0 V c).before_in_eq_fetched 2 rfl (fun _ => rfl)
    (fun t t' _ => funext fun a => (r0_clip_2 t a).trans (r0_clip_2 t' a).symm)
    (fun t => by rw [dat0_after_2]; unfold wlo0 Dat.blockOf blk0; rw [dat0_A]; exact (cfg0.win 2).cut_fill _ _ _) t d).trans
    (by unfold Dat.fetched Dat.blockOf wlo0 blk0; rw [dat0_A]; exact Pipeline.fill_of_clip_none (cfg := cfg0) 2 _ (r0_clip_2 t) _ _ _)

/-- For an input window what the body finds is what it leaves, whatever was there. -/
theorem r0_before (c : Dev nD) (t : Fin cfg0.N) (w : Fin cfg0.W) (hw : w.val < 7) (d) :
    (dat0 V c).before w t d = (dat0 V c).after w t := by
  obtain ⟨w, h⟩ := w
  dsimp only at hw
  rcases (by omega : w = 0 ∨ w = 1 ∨ w = 2 ∨ w = 3 ∨ w = 4 ∨ w = 5 ∨ w = 6) with rfl | rfl | rfl | rfl | rfl | rfl | rfl <;>
  first
  | exact r0_before_2 V c t d
  | exact (dat0 V c).before_in_eq_fetched _ rfl (fun _ => rfl) (fun _ _ _ => rfl) (fun _ => rfl) t d

theorem r0_idle_even : ∀ t : Fin cfg0.N, t.val % 2 = 0 →
    idle0 8 (grid0.coords t) = true ∧ idle0 9 (grid0.coords t) = true ∧ idle0 10 (grid0.coords t) = true
    ∧ (cfg0.win 8).flush t = false ∧ (cfg0.win 9).flush t = false ∧ (cfg0.win 10).flush t = false := by decide +kernel

theorem r0_live_odd : ∀ t : Fin cfg0.N, t.val % 2 = 1 →
    idle0 8 (grid0.coords t) = false ∧ idle0 9 (grid0.coords t) = false ∧ idle0 10 (grid0.coords t) = false := by decide +kernel

theorem r0_Phi_even (c : Dev nD) (t : Fin cfg0.N) (h : t.val % 2 = 0) : Phi0 V c t.val = PhiAny0 c := by
  unfold Phi0; rw [if_neg (by omega), if_neg (by omega)]

theorem r0_Phi_succ_odd (c : Dev nD) (t : Fin cfg0.N) (h : t.val % 2 = 1) : Phi0 V c (t.val + 1) = PhiAny0 c := by
  unfold Phi0; rw [if_neg (by omega), if_neg (by omega)]

theorem r0_Phi_succ_even (c : Dev nD) (t : Fin cfg0.N) (h : t.val % 2 = 0) :
    Phi0 V c (t.val + 1) = PhiNamed0 c (scrAfter0 V c t) := by
  rcases fin_N0 t with rfl | rfl | rfl | rfl <;> first | rfl | exact absurd h (by decide)

theorem r0_Phi_odd (c : Dev nD) (t : Fin cfg0.N) (h : t.val % 2 = 1) :
    Phi0 V c t.val = PhiNamed0 c (scrAfter0 V c (prev0 t)) := by
  rcases fin_N0 t with rfl | rfl | rfl | rfl <;> first | rfl | exact absurd h (by decide)

theorem r0_PhiAny_eq (c : Dev nD) :
    (PhiAny0 c : sProp 𝕄)
      = iprop((∃ r, prngReg c r)
          ∗ ((∃ d, owns (c : Thread nD τ) scM0_0 fullShare d) ∗ (∃ d, owns (c : Thread nD τ) scM0_1 fullShare d)
              ∗ (∃ d, owns (c : Thread nD τ) scM0_2 fullShare d) ∗ (∃ d, owns (c : Thread nD τ) scM0_3 fullShare d))
          ∗ Pipeline.scopedRestBut (Ix := Unit) (Name := ℕ) (U := UR sig nD τ) (Lvl := ℕ) (Val := Elt F) spec0 c [cc0_scratch0, cc0_scratch1, cc0_scratch2, cc0_scratch3]) := by
  unfold PhiAny0; rw [scopedRest0_split]; simp only [scM0_0, scM0_1, scM0_2, scM0_3, owns_whole]; try rfl

set_option maxHeartbeats 4000000 in
/-- The point's parity selects the case of the body; the invariant hands the scratch state over and takes it back. -/
theorem body_obligation0 (c : Dev nD) : BodyObligation (dat0 (F := F) V c) (defs₀ (F := F)) Variants.none () Set.univ := fun t => by
  rw [bigSep_W0, bigSep_W0]
  show (_ : sProp 𝕄) ⊢ wp frame _ Set.univ (bodyAt0 t) _
  simp (disch := decide) only [r0_before V c t, dat0_after_0, dat0_after_1, dat0_after_2, dat0_after_3, dat0_after_4,
    dat0_after_5, dat0_after_6, dat0_after_7]
  rw [show (dat0 V c).owesAt () t.succ = (dat0 V c).owesAt () t.castSucc from rfl, dat0_Φ, dat0_Φ, Fin.coe_castSucc, Fin.val_succ]
  unfold bodyAt0
  by_cases h : t.val % 2 = 0
  · have hc0 : cond0_init (grid0.coords t) := (hcond0_init t).mpr h
    have hc1 : ¬k0_cond2 (grid0.coords t) = 1#1 := fun h' => by have := (hcond0_last t).mp h'; omega
    obtain ⟨hi8, hi9, hi10, hf8, hf9, hf10⟩ := r0_idle_even t h
    simp only [hi8, hi9, hi10, hf8, hf9, hf10]
    rw [r0_Phi_even V c t h, r0_Phi_succ_even V c t h, r0_PhiAny_eq, scoresAt0_even V c t h]
    unfold PhiNamed0 scrOwn0
    rw [scrAfter0_even V c t h]
    iintro ⟨⟨Hg, ⟨⟨%e0, HS0⟩, ⟨%e1, HS1⟩, ⟨%e2, HS2⟩, ⟨%e3, HS3⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (r0_kernel c Set.univ (grid0.coords t) _ _ _ _ _ _ _ _ _ _ _ _ _ _ _ _ _ _ _ _ _ _ _ _ _ _ _ _ _ _ (blk0 V c 0 t) (blk0 V c 1 t) (wlo0 V c t) (blk0 V c 3 t) (blk0 V c 4 t) (blk0 V c 5 t) (blk0 V c 6 t) _ _ _ _ _ _ ⟨e0, e1, e2, e3⟩ _
      (if_pos hc0).symm (if_neg hc1).symm (if_neg hc1).symm (if_neg hc1).symm _)
    iframe H0 H1 H2 H3 H4 H5 H6 H8 H9 H10 HS0 HS1 HS2 HS3
    isplitl [H7]; · iexists _; iexact H7
    iintro ⟨H0, H1, H2, H3, H4, H5, H6, H7, H8, H9, H10, HS0, HS1, HS2, HS3⟩
    iframe Hg HR Ho H0 H1 H2 H3 H4 H5 H6 H7 HS0 HS1 HS2 HS3
    isplitl [H8]; · iexists _; iexact H8
    isplitl [H9]; · iexists _; iexact H9
    iexists _; iexact H10
  · have h1 : t.val % 2 = 1 := by omega
    have hc0 : ¬cond0_init (grid0.coords t) := fun h' => h ((hcond0_init t).mp h')
    have hc1 : k0_cond2 (grid0.coords t) = 1#1 := (hcond0_last t).mpr h1
    obtain ⟨hl8, hl9, hl10⟩ := r0_live_odd t h1
    simp only [hl8, hl9, hl10, dat0_after_8, dat0_after_9, dat0_after_10]
    rw [r0_Phi_odd V c t h1, r0_Phi_succ_odd V c t h1, r0_PhiAny_eq, scoresAt0_odd V c t h1, scrAfter0_odd V c t h1]
    unfold PhiNamed0 scrOwn0
    iintro ⟨⟨Hg, ⟨HS0, HS1, HS2, HS3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (r0_kernel c Set.univ (grid0.coords t) _ _ _ _ _ _ _ _ _ _ _ _ _ _ _ _ _ _ _ _ _ _ _ _ _ _ _ _ _ _ (blk0 V c 0 t) (blk0 V c 1 t) (wlo0 V c t) (blk0 V c 3 t) (blk0 V c 4 t) (blk0 V c 5 t) (blk0 V c 6 t) _ _ _ _ _ _ (scrAfter0 V c (prev0 t)) _
      (if_neg hc0).symm (if_pos hc1).symm (if_pos hc1).symm (if_pos hc1).symm _)
    iframe H0 H1 H2 H3 H4 H5 H6 H8 H9 H10 HS0 HS1 HS2 HS3
    isplitl [H7]; · iexists _; iexact H7
    iintro ⟨H0, H1, H2, H3, H4, H5, H6, H7, H8, H9, H10, HS0, HS1, HS2, HS3⟩
    iframe Hg HR Ho H0 H1 H2 H3 H4 H5 H6 H7 H8 H9 H10
    isplitl [HS0]; · iexists _; iexact HS0
    isplitl [HS1]; · iexists _; iexact HS1
    isplitl [HS2]; · iexists _; iexact HS2
    iexists _; iexact HS3

end Cert.KernelIdeal.Hand

end
-- ==== Proof.R1.Run.lean ====
import proofs.«409657_j24300924961385_3_alg».proof.Proof.R1.Dat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_cond0 (i : grid1.Coords) : Prop := (Scalar.cmpi .ne (Scalar.extui (Scalar.cmpi .eq (BitVec.ofNat 32 (i 1).val) 0#32)) 0#32) = 1#1
theorem r1_hcond0 : ∀ t : Fin cfg1.N, r1_cond0 (grid1.coords t) ↔ t.val % 4 = 0 :=
  (by decide +kernel : ∀ t : Fin grid1.N, r1_cond0 (grid1.coords t) ↔ t.val % 4 = 0)
abbrev r1_cond1 (i : grid1.Coords) : Prop := k1_cond2 i = 1#1
theorem r1_hcond1 : ∀ t : Fin cfg1.N, r1_cond1 (grid1.coords t) ↔ t.val % 4 = 3 :=
  (by decide +kernel : ∀ t : Fin grid1.N, r1_cond1 (grid1.coords t) ↔ t.val % 4 = 3)

theorem r1_zz2 : (![0, 0] : Fin 2 → ℕ) = fun _ => 0 := by funext a; fin_cases a <;> rfl

section Whole
variable {sg : RefSig} {κ : Kind} {sp : Space} {S : Shape} {e : EltTy} {Val : EltTy → Type}

theorem r1_wr_whole [∀ e, Nonempty (Val e)] (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons_self .., View.mem_set_unit_zero h inb y⟩),
    View.canon_cons_unit_zero h inb]

end Whole

variable (c : Dev nD) (E : Set ℕ) (i : grid1.Coords) (arg2 : Memref sig .tc .vmem S1x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole)

set_option maxHeartbeats 4000000 in
/-- One run of the body: zero fill first on the first K tile, the two outputs stored on the last only. -/
theorem r1_kernelRun (x : Vec F S1x1024 .f32) (w1 w2 w3 w4 : Vec F S1024x512 .f32) (b5 b6 b7 b8 b9 y0 y1 : Vec F S1x512 .f32)
    (a z : Acc1 F) (o0 o1 : Vec F S1x512 .f32) (hz : z = if r1_cond0 i then zero1 else a)
    (ho0 : o0 = if r1_cond1 i then out10_1 (step1 x w1 w2 w3 w4 z) b5 b7 b8 b9 else y0)
    (ho1 : o1 = if r1_cond1 i then out11_1 (step1 x w1 w2 w3 w4 z) b5 b6 b7 b8 b9 else y1) (K : PUnit → sProp 𝕄) :
    iprop(owns c arg2 fullShare x ∗ owns c arg3 fullShare w1 ∗ owns c arg4 fullShare w2 ∗ owns c arg5 fullShare w3 ∗ owns c arg6 fullShare w4 ∗ owns c arg7 fullShare b5 ∗ owns c arg8 fullShare b6 ∗ owns c arg9 fullShare b7 ∗ owns c arg10 fullShare b8 ∗ owns c arg11 fullShare b9 ∗ owns c arg12 fullShare y0 ∗ owns c arg13 fullShare y1 ∗ owns c arg14 fullShare a.1 ∗ owns c arg15 fullShare a.2.1 ∗ owns c arg16 fullShare a.2.2.1 ∗ owns c arg17 fullShare a.2.2.2
        ∗ (iprop(owns c arg2 fullShare x ∗ owns c arg3 fullShare w1 ∗ owns c arg4 fullShare w2 ∗ owns c arg5 fullShare w3 ∗ owns c arg6 fullShare w4 ∗ owns c arg7 fullShare b5 ∗ owns c arg8 fullShare b6 ∗ owns c arg9 fullShare b7 ∗ owns c arg10 fullShare b8 ∗ owns c arg11 fullShare b9 ∗ owns c arg12 fullShare o0 ∗ owns c arg13 fullShare o1 ∗ owns c arg14 fullShare (step1 x w1 w2 w3 w4 z).1 ∗ owns c arg15 fullShare (step1 x w1 w2 w3 w4 z).2.1 ∗ owns c arg16 fullShare (step1 x w1 w2 w3 w4 z).2.2.1 ∗ owns c arg17 fullShare (step1 x w1 w2 w3 w4 z).2.2.2) -∗ K ⟨⟩))
      ⊢ wp frame (wpE (defs₀ (F := F)) Variants.none c none) E (cc1__lstm_gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hz ho0 ho1
  obtain ⟨a0, a1, a2, a3⟩ := a
  by_cases hc0 : r1_cond0 i <;> by_cases hc1 : r1_cond1 i <;>
  · first | simp only [if_neg hc0] | simp only [if_pos hc0]
    first | simp only [if_neg hc1] | simp only [if_pos hc1]
    simp only [step1, zero1, out10_1, out11_1]
    simp only [cc1__lstm_gates_kernel_eq_skeleton]; unfold cc1__lstm_gates_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    subst hf2 hf3 hf4 hf5 hf6 hf7 hf8 hf9 hf10 hf11 hf12 hf13 hf14 hf15 hf16 hf17
    sl_exec (disch := first | exact hc0 | exact hc1)
    sl_step
    iapply Hk
    isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap; isplitl [H14]; swap; isplitl [H15]; swap; isplitl [H16]; swap
    all_goals
      iexists _; isplitr; swap; · iassumption
      ipureintro
      first
      | sl_unfold_run_names
        rw [r1_wr_whole (S := S1x512) _ _ r1_zz2]
        simp only [View.readCov_cons_toLoadRect, View.readAt_eq_ld, View.ld_unit_zero (S := S1x512) r1_zz2,
          View.ld_unit_zero (S := S1x1024) r1_zz2, View.ld_unit_zero (S := S1024x512) r1_zz2]
      | rfl

end Cert.KernelIdeal.Hand

end
-- ==== Proof.R1.Body.lean ====
import proofs.«409657_j24300924961385_3_alg».proof.Proof.R1.Dat
import proofs.«409657_j24300924961385_3_alg».proof.Proof.R1.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r1_out_idle : ∀ t : Fin cfg1.N, ¬r1_cond1 (grid1.coords t) →
    idle1 10 (grid1.coords t) = true ∧ (win1 10).flush t = false ∧ idle1 11 (grid1.coords t) = true ∧ (win1 11).flush t = false := by
  decide +kernel

theorem r1_out_live : ∀ t : Fin cfg1.N, r1_cond1 (grid1.coords t) →
    idle1 10 (grid1.coords t) = false ∧ idle1 11 (grid1.coords t) = false := by decide +kernel

/-- For an input window what the body finds is what it leaves, whatever was there. -/
theorem r1_before (c : Dev nD) (t : Fin cfg1.N) (w : Fin cfg1.W) (hw : w.val < 10) (d) :
    (dat1 V c).before w t d = (dat1 V c).after w t := by
  obtain ⟨w, h⟩ := w
  dsimp only at hw
  rcases (by omega : w = 0 ∨ w = 1 ∨ w = 2 ∨ w = 3 ∨ w = 4 ∨ w = 5 ∨ w = 6 ∨ w = 7 ∨ w = 8 ∨ w = 9) with
    rfl | rfl | rfl | rfl | rfl | rfl | rfl | rfl | rfl | rfl <;>
  exact (dat1 V c).before_in_eq_fetched _ rfl (fun _ => rfl) (fun _ _ _ => rfl) (fun _ => rfl) t d

theorem r1_Phi_any (c : Dev nD) (n : Fin (cfg1.N + 1)) (h : n.val % 4 = 0) :
    (dat1 V c).Φ n = iprop(r1_rest c ∗ r1_scrAny c) :=
  r1_PhiS_any V c _ _ h

theorem r1_Phi_at (c : Dev nD) (n : Fin (cfg1.N + 1)) (m : Fin cfg1.N) (hm : m.val + 1 = n.val) (h : n.val % 4 ≠ 0) :
    (dat1 V c).Φ n = iprop(r1_rest c ∗ r1_scrAt c (accAfter1 V c m)) := by
  obtain ⟨n, hn⟩ := n
  dsimp only at hm h
  subst hm
  simp only [r1_dat_Phi, r1_PhiS, if_neg h]

set_option maxHeartbeats 4000000 in
/-- The K-tile index of the point selects the case of the body; the invariant hands the accumulators over and takes them back. -/
theorem body_obligation1 (c : Dev nD) : BodyObligation (dat1 (F := F) V c) (defs₀ (F := F)) Variants.none () Set.univ := fun t => by
  rw [bigSep_W1, bigSep_W1]
  show (_ : sProp 𝕄) ⊢ wp frame _ Set.univ (bodyAt1 t) _
  simp (disch := decide) only [r1_before V c t, dat1_after_0, dat1_after_1, dat1_after_2, dat1_after_3, dat1_after_4,
    dat1_after_5, dat1_after_6, dat1_after_7, dat1_after_8, dat1_after_9]
  rw [show (dat1 V c).owesAt () t.succ = (dat1 V c).owesAt () t.castSucc from rfl]
  unfold bodyAt1
  by_cases h0 : t.val % 4 = 0
  · have hc0 : r1_cond0 (grid1.coords t) := (r1_hcond0 t).mpr h0
    have hc1 : ¬r1_cond1 (grid1.coords t) := fun h => by have := (r1_hcond1 t).mp h; omega
    obtain ⟨hi10, hf10, hi11, hf11⟩ := r1_out_idle t hc1
    simp only [hi10, hf10, hi11, hf11]
    rw [r1_Phi_any V c t.castSucc h0, r1_Phi_at V c t.succ t rfl (by rw [Fin.val_succ]; omega), accAfter1_first V c t h0]
    unfold r1_scrAny r1_scrAt stepAt1
    iintro ⟨⟨Hr, ⟨%e0, HS0⟩, ⟨%e1, HS1⟩, ⟨%e2, HS2⟩, ⟨%e3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (r1_kernelRun c Set.univ (grid1.coords t) _ _ _ _ _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _ _ (e0, e1, e2, e3) _ _ _
      (if_pos hc0).symm (if_neg hc1).symm (if_neg hc1).symm _)
    iframe H0 H1 H2 H3 H4 H5 H6 H7 H8 H9 H10 H11 HS0 HS1 HS2 HS3
    iintro ⟨H0, H1, H2, H3, H4, H5, H6, H7, H8, H9, H10, H11, HS0, HS1, HS2, HS3⟩
    iframe Hr Ho H0 H1 H2 H3 H4 H5 H6 H7 H8 H9 HS0 HS1 HS2 HS3
    isplitl [H10]; · iexists _; iexact H10
    iexists _; iexact H11
  · have hc0 : ¬r1_cond0 (grid1.coords t) := fun h => h0 ((r1_hcond0 t).mp h)
    by_cases h1 : t.val % 4 = 3
    · have hc1 : r1_cond1 (grid1.coords t) := (r1_hcond1 t).mpr h1
      obtain ⟨hl10, hl11⟩ := r1_out_live t hc1
      simp only [hl10, hl11, dat1_after_10, dat1_after_11]
      rw [r1_Phi_at V c t.castSucc (back1 t 1) (by show t.val - 1 + 1 = t.val; omega) h0, r1_Phi_any V c t.succ (by rw [Fin.val_succ]; omega), accAfter1_next V c t h0]
      unfold r1_scrAny r1_scrAt stepAt1
      iintro ⟨⟨Hr, HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (r1_kernelRun c Set.univ (grid1.coords t) _ _ _ _ _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _ _ (accAfter1 V c (back1 t 1)) _ _ _
      (if_neg hc0).symm (if_pos hc1).symm (if_pos hc1).symm _)
      iframe H0 H1 H2 H3 H4 H5 H6 H7 H8 H9 H10 H11 HS0 HS1 HS2 HS3
      iintro ⟨H0, H1, H2, H3, H4, H5, H6, H7, H8, H9, H10, H11, HS0, HS1, HS2, HS3⟩
      iframe Hr Ho H0 H1 H2 H3 H4 H5 H6 H7 H8 H9 H10 H11
      isplitl [HS0]; · iexists _; iexact HS0
      isplitl [HS1]; · iexists _; iexact HS1
      isplitl [HS2]; · iexists _; iexact HS2
      iexists _; iexact HS3
    · have hc1 : ¬r1_cond1 (grid1.coords t) := fun h => h1 ((r1_hcond1 t).mp h)
      obtain ⟨hi10, hf10, hi11, hf11⟩ := r1_out_idle t hc1
      simp only [hi10, hf10, hi11, hf11]
      rw [r1_Phi_at V c t.castSucc (back1 t 1) (by show t.val - 1 + 1 = t.val; omega) h0, r1_Phi_at V c t.succ t rfl (by rw [Fin.val_succ]; omega), accAfter1_next V c t h0]
      unfold r1_scrAt stepAt1
      iintro ⟨⟨Hr, HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (r1_kernelRun c Set.univ (grid1.coords t) _ _ _ _ _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _ _ (accAfter1 V c (back1 t 1)) _ _ _
      (if_neg hc0).symm (if_neg hc1).symm (if_neg hc1).symm _)
      iframe H0 H1 H2 H3 H4 H5 H6 H7 H8 H9 H10 H11 HS0 HS1 HS2 HS3
      iintro ⟨H0, H1, H2, H3, H4, H5, H6, H7, H8, H9, H10, H11, HS0, HS1, HS2, HS3⟩
      iframe Hr Ho H0 H1 H2 H3 H4 H5 H6 H7 H8 H9 HS0 HS1 HS2 HS3
      isplitl [H10]; · iexists _; iexact H10
      iexists _; iexact H11

end Cert.KernelIdeal.Hand

end
-- ==== Proof.R2.Pay.lean ====
import proofs.«409657_j24300924961385_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-- A rank-two index is named by the values of its two coordinates. -/
theorem ix2_of_val {n0 n1 : Nat} (I : (⟨2, ![n0, n1]⟩ : Shape).Idx) {p : Fin n0} {q : Fin n1}
    (h0 : (I 0).val = p.val) (h1 : (I 1).val = q.val) : I = ix2 p q :=
  (eq_ix2 I).trans (congrArg₂ ix2 (Fin.ext h0) (Fin.ext h1))

/-- Below the cut sizes on every axis, `fill` returns the block's entry. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill; rw [dif_pos ((w.moved_iff i j).mpr h)]

/-- Column `j 1` of the payload reads column `j 1` of the weights and of the bias only. -/
theorem k2_pay1_at (x : Vec Ideal S1x4096 .f32) (w : Vec Ideal S4096x1024 .f32) (b : Vec Ideal S1x1024 .f32) (j : S1x1024.Idx) :
    k2_pay1 (F := Ideal) x w b j = (∑ k : Fin 4096, x (ix2 (j 0) k) * w (ix2 k (j 1))) + b j := by
  unfold k2_pay1
  simp only [shapeCast_self]
  rw [addf_apply]
  simp only [matmul]
  rw [Ideal.matmul_constant_zero_apply, ← Equiv.sum_comp (contrEquiv1 _ 4096 rfl rfl).symm]
  refine congrArg₂ (· + ·) (Finset.sum_congr rfl fun k _ => ?_) rfl
  have hk := contrEquiv1_symm_val dot_S1x4096_S4096x1024_S1x1024_1_0_0_1_n_n 4096 rfl rfl k
  exact congrArg₂ (fun a b => x a * w b) (ix2_of_val _ rfl ((DotDims.lhsIdx_val_of_single _ rfl j _).trans hk))
    (ix2_of_val _ ((DotDims.rhsIdx_val_of_single _ rfl j _).trans hk) rfl)

end Cert.KernelIdeal.Hand

end
-- ==== Proof.R2.Kern.lean ====
import proofs.«409657_j24300924961385_3_alg».proof.Proof.Gen.KernelIdeal.Launch
import proofs.«409657_j24300924961385_3_alg».proof.Proof.Gen.KernelIdeal.Points
import Idealize.ShloMosaic.Lib.Pipeline.FrameBody
import Idealize.ShloMosaic.Lib.Tactic
import proofs.«409657_j24300924961385_3_alg».proof.Proof.R2.Pay

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Column `q` of the payload reads column `q` of the weights and of the bias only, so inside the cut it does not depend on the values outside it. -/
theorem r2_cut_pay_congr (i : grid2.Coords) (x : Vec Ideal S1x4096 .f32)
    (d1 d1' : S4096x1024.Idx → EReal) (g1 : (win2_1.xblock i).Idx → EReal)
    (d2 d2' : S1x1024.Idx → EReal) (g2 : (win2_2.xblock i).Idx → EReal) :
    win2_3.cut i (k2_pay1 x (win2_1.fill i d1 g1) (win2_2.fill i d2 g2))
      = win2_3.cut i (k2_pay1 x (win2_1.fill i d1' g1) (win2_2.fill i d2' g2)) := by
  funext y
  have h1 : ∀ (k : Fin 4096) a, ((ix2 k (win2_3.xinj i y 1) : S4096x1024.Idx) a).val < win2_1.xsize i a := fun k a => match a with
    | ⟨0, _⟩ => k.isLt
    | ⟨1, _⟩ => (y 1).isLt
  have h2 : ∀ a, (win2_3.xinj i y a).val < win2_2.xsize i a := fun a => match a with
    | ⟨0, _⟩ => (y 0).isLt
    | ⟨1, _⟩ => (y 1).isLt
  show k2_pay1 x _ _ (win2_3.xinj i y) = k2_pay1 x _ _ (win2_3.xinj i y)
  rw [k2_pay1_at, k2_pay1_at]
  exact congrArg₂ (· + ·) (Finset.sum_congr rfl fun k _ => congrArg (_ * ·)
      ((fill_apply_of_lt win2_1 i d1 g1 _ (h1 k)).trans (fill_apply_of_lt win2_1 i d1' g1 _ (h1 k)).symm))
    ((fill_apply_of_lt win2_2 i d2 g2 _ h2).trans (fill_apply_of_lt win2_2 i d2' g2 _ h2).symm)

set_option maxHeartbeats 1000000 in
/-- The kernel body computes `k2_pay1` of its three inputs. -/
theorem r2_sound_kernel (c : Dev nD) (E : Set ℕ) (i : grid2.Coords)
    (arg1 : Memref sig .tc .vmem S1x4096 .f32) (harg1 : arg1.IsWhole)
    (arg2 : Memref sig .tc .vmem S4096x1024 .f32) (harg2 : arg2.IsWhole)
    (arg3 : Memref sig .tc .vmem S1x1024 .f32) (harg3 : arg3.IsWhole)
    (arg4 : Memref sig .tc .vmem S1x1024 .f32) (harg4 : arg4.IsWhole)
    (x0 : Vec Ideal S1x4096 .f32) (x1 : Vec Ideal S4096x1024 .f32) (x2 : Vec Ideal S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k2_pay1 x0 x1 x2)) -∗ K ⟨⟩))
      ⊢ wp frame (wpE (defs₀ (F := Ideal)) Variants.none c none) E (cc2__linear_act_kernel i arg1 harg1 arg2 harg2 arg3 harg3 arg4 harg4) K := by
  have hz : (![0, 0] : Fin 2 → Nat) = fun _ => 0 := funext fun a => by fin_cases a <;> rfl
  simp only [cc2__linear_act_kernel_eq_skeleton]; unfold cc2__linear_act_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz inb_S1x1024_S1x1024_0_0 y⟩),
    View.canon_unit_zero hz, View.readAt_eq_ld, View.readAt_eq_ld, View.readAt_eq_ld,
    View.ld_unit_zero hz, View.ld_unit_zero hz, View.ld_unit_zero hz]

end Cert.KernelIdeal.Hand

end
-- ==== Proof.R2.Body.lean ====
import proofs.«409657_j24300924961385_3_alg».proof.Proof.R2.Dat
import proofs.«409657_j24300924961385_3_alg».proof.Proof.R2.Kern

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- Inside the cuts, the payload of the blocks filled out with any values is `dat2`'s `after`. -/
theorem body_obligation2 (c : Dev nD) : BodyObligationLoose (dat2 V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [show (dat2 V c).before 0 t d0 = iblk2 V c 0 t from
      (dat2 V c).before_in_eq_fetched 0 rfl (fun _ => rfl) (fun _ _ _ => rfl) (fun _ => rfl) t d0,
    show (dat2 V c).before 1 t d1 = win2_1.fill (grid2.coords t) d1 (iblk2 V c 1 t) from (dat2 V c).before_fetched 1 t (fetch2_1 t) d1,
    show (dat2 V c).before 2 t d2 = win2_2.fill (grid2.coords t) d2 (iblk2 V c 2 t) from (dat2 V c).before_fetched 2 t (fetch2_2 t) d2,
    (dat2 V c).before_out_reset 3 rfl t ((em (t.val = 0)).imp id fun h => ⟨h, flush2_3 _⟩) d3]
  iapply (r2_sound_kernel c Set.univ (grid2.coords t)
    (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (win2_3.stage (cfg2.slots t 3)) (hstage2_3 ((cfg2.slots t 3).cast nbuf2_3))
    (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [dat2_after0]; iexact H0
  isplitl [H1]
  · iexists d1
    change _ ⊢ owns (c : Thread nD τ) (st2_1 t) fullShare (win2_1.fill (grid2.coords t) d1 (win2_1.cut (grid2.coords t) ((dat2 V c).after 1 t)))
    rw [dat2_after1, wfill2, win2_1.cut_fill]; try iexact H1
  isplitl [H2]
  · iexists d2
    change _ ⊢ owns (c : Thread nD τ) (st2_2 t) fullShare (win2_2.fill (grid2.coords t) d2 (win2_2.cut (grid2.coords t) ((dat2 V c).after 2 t)))
    rw [dat2_after2, bfill2, win2_2.cut_fill]; try iexact H2
  · iexists k2_pay1 (iblk2 V c 0 t) (win2_1.fill (grid2.coords t) d1 (iblk2 V c 1 t)) (win2_2.fill (grid2.coords t) d2 (iblk2 V c 2 t))
    change _ ⊢ owns (c : Thread nD τ) (st2_3 t) fullShare (win2_3.fill (grid2.coords t) _ (win2_3.cut (grid2.coords t) ((dat2 V c).after 3 t)))
    rw [dat2_after3, wfill2, bfill2, win2_3.fill_congr_cut _ (r2_cut_pay_congr _ _ _ _ _ _ _ _)]; try iexact H3

end Cert.KernelIdeal.Hand

end
-- ==== Proof.RunI.lean ====
import proofs.«409657_j24300924961385_3_alg».proof.Proof.RunI.Outs
import proofs.«409657_j24300924961385_3_alg».proof.Proof.R0.Body
import proofs.«409657_j24300924961385_3_alg».proof.Proof.R1.Body
import proofs.«409657_j24300924961385_3_alg».proof.Proof.R2.Body
import proofs.«409657_j24300924961385_3_alg».proof.Proof.RunI.Cond
import Idealize.ShloMosaic.Lib.Pipeline.FrameBody
import Idealize.ShloMosaic.Lib.Pipeline.Regions
import Idealize.ShloMosaic.Lib.Pipeline.RegionsLoop
import Idealize.ShloMosaic.Lib.Tactic
import Idealize.ShloMosaic.PureOps.Ideal

set_option maxRecDepth 1160

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation BodyObligationLoose cellOf)

local notation "𝕄I" => MT nD τ sig Unit (Elt Ideal) ℕ (UR sig nD τ) ℕ

section Owes

variable {cfg : Cfg sig Λ₀} {c : Dev nD} (dat : Dat τ (Elt Ideal) Unit ℕ (UR sig nD τ) ℕ cfg c) (t : Fin (cfg.N + 1))

theorem asmi_owesAt_intro (ho : dat.owed t = 0) (hr : dat.recorded t = Set.univ) :
    (iprop(∃ W, owes (c : Thread nD τ) (0 : CellTallies nD τ sig Unit) W) : sProp 𝕄I) ⊢ dat.owesAt () t := by
  unfold Pipeline.Dat.owesAt Pipeline.owesWithin
  iintro ⟨%W, HO⟩
  iexists W
  isplitr
  · ipureintro; exact fun x _ => Or.inl (by rw [hr]; trivial)
  rw [ho]; iexact HO

theorem asmi_owesAt_elim (ho : dat.owed t = 0) :
    dat.owesAt () t ⊢ (iprop(∃ W, owes (c : Thread nD τ) (0 : CellTallies nD τ sig Unit) W) : sProp 𝕄I) := by
  unfold Pipeline.Dat.owesAt Pipeline.owesWithin
  iintro ⟨%W, -, HO⟩
  iexists W
  rw [ho]; iexact HO

end Owes

section Run

variable (m : (ℓ : Loc nD τ sig) → Buf (Elt Ideal) ℓ)

abbrev asmi_Lr : GSem nD τ sig → Finset Unit := fun _ => ∅
abbrev asmi_lvr : GSem nD τ sig → Unit → ℕ := fun _ _ => 0

abbrev asmi_Rr (c : Dev nD) : sProp 𝕄I := iprop((∃ r, prngReg c r) ∗ ∃ W, owes (c : Thread nD τ) (0 : CellTallies nD τ sig Unit) W)

def asmi_pdatsI : (p : Fin 3) → (c : Dev nD) → Dat τ (Elt Ideal) Unit ℕ (UR sig nD τ) ℕ (cfgs p) c
  | ⟨0, _⟩ => fun c => dat0 (entry0 m) c
  | ⟨1, _⟩ => fun c => dat1 (entry1 m) c
  | ⟨2, _⟩ => fun c => dat2 (entry2 m) c

set_option backward.isDefEq.respectTransparency.types false in
/-- What the three regions share; `hsplit` and `hjoin` are what differs between them. -/
def asmi_reg (p : Fin 3) (win : Pipeline.WinFacts₀ (pcfgs (F := Ideal) p).spec)
    (bp : ∀ w : Fin (cfgs p).W, 0 < ((cfgs p).spec w).block.numel)
    (sw : ∀ (w : Fin (cfgs p).W) (s : Fin ((cfgs p).spec w).nbuf), (((cfgs p).spec w).stage s).IsWhole)
    (hK : (pcfgs (F := Ideal) p).pre.K = 0)
    (Win Wout : Dev nD → Valuation τ sig (Elt Ideal))
    (hbody : ∀ c : Dev nD, BodyObligationLoose (asmi_pdatsI m p c) (defs₀ (F := Ideal)) Variants.none () Set.univ)
    (howed : ∀ (c : Dev nD) t, (asmi_pdatsI m p c).owed t = 0) (hrec : ∀ c : Dev nD, (asmi_pdatsI m p c).recorded 0 = Set.univ)
    (hΦin : ∀ c : Dev nD, (iprop((∃ r, prngReg c r) ∗ Pipeline.scopedRest (cfgs p).spec c) : sProp 𝕄I)
      ⊢ (asmi_pdatsI m p c).Φ 0)
    (hΦout : ∀ c : Dev nD, (asmi_pdatsI m p c).Φ (Fin.last (cfgs p).N)
      ⊢ (iprop((∃ r, prngReg c r) ∗ Pipeline.scopedRest (cfgs p).spec c) : sProp 𝕄I))
    (hsplit : ∀ c : Dev nD, StableHlo.held (c : Thread nD τ) (Pipeline.ucRefs τ sig) (Win c)
      ⊢ (iprop((asmi_pdatsI m p c).arrays ((asmi_pdatsI m p c).arrAt · 0) ∗ Pipeline.unscopedRest (cfgs p).spec c (fun b => Win c b)) : sProp 𝕄I))
    (hjoin : ∀ c : Dev nD, (iprop((asmi_pdatsI m p c).arrays ((asmi_pdatsI m p c).arrAt · (cfgs p).N) ∗ Pipeline.unscopedRest (cfgs p).spec c (fun b => Win c b)) : sProp 𝕄I)
      ⊢ StableHlo.held (c : Thread nD τ) (Pipeline.ucRefs τ sig) (Wout c)) :
    Pipeline.RegionSeg (pcfgs (F := Ideal)) adm (asmi_pdatsI m) () defs₀ Variants.none asmi_Lr asmi_lvr p where
  win := win
  block_pos := bp
  stage_whole := sw
  K := PEmpty
  osem k := k.elim
  ho := Pipeline.OwnSemFacts.none _
  hbody := hbody
  hwaits := Pipeline.hwaits_of_owed_zero _ _ _ _ asmi_Lr asmi_lvr p howed
  pre c := iprop(StableHlo.held (c : Thread nD τ) (Pipeline.ucRefs τ sig) (Win c) ∗ asmi_Rr c)
  post c := iprop(StableHlo.held (c : Thread nD τ) (Pipeline.ucRefs τ sig) (Wout c) ∗ asmi_Rr c)
  X c := iprop(∃ r, prngReg c r)
  Y c := iprop(∃ r, prngReg c r)
  Z c := Pipeline.unscopedRest (cfgs p).spec c (fun b => Win c b)
  hentry c := by
    rw [Pipeline.ownSems0_none]
    haveI : IsEmpty (Fin (pcfgs (F := Ideal) p).pre.K) := by rw [hK]; infer_instance
    have hs := hsplit c
    iintro ⟨⟨Hub, Hp, HO⟩, -, -⟩
    ihave H := hs $$ Hub
    icases H with ⟨Ha, Hrest⟩
    imodintro
    isplitl [Ha]; · iexact Ha
    isplitr; · unfold Pipeline.prefHeld; rw [Finset.univ_eq_empty, BI.bigSep_empty]; iempintro
    isplitl [HO]
    · iapply (asmi_owesAt_intro (asmi_pdatsI m p c) 0 (howed c 0) (hrec c)); iexact HO
    isplitl [Hp]; · iexact Hp
    iexact Hrest
  hin c := by
    refine BIBase.Entails.trans ?_ (hΦin c)
    iintro ⟨Hp, -, Hr⟩
    isplitl [Hp]; · iexact Hp
    iexact Hr
  hout c := by
    rw [Pipeline.ownSems0_none]
    refine (hΦout c).trans ?_
    iintro ⟨Hp, Hr⟩
    isplitl [Hp]; · iexact Hp
    isplitr; · iempintro
    iexact Hr
  hexit c := by
    have hj := hjoin c
    iintro ⟨Ha, HO, HY, Hrest⟩
    imodintro
    isplitl [Ha Hrest]
    · iapply hj; isplitl [Ha] <;> iassumption
    isplitl [HY]; · iexact HY
    iapply (asmi_owesAt_elim (asmi_pdatsI m p c) _ (howed c _)); iexact HO

section Arrays0

variable (V₀ : (c : Dev nD) → (b : Ref sig .tc) → Buf (Elt Ideal) ((c : Thread nD τ).loc b)) (c : Dev nD)

theorem asmi_share0 (w : Fin 11) :
    (dat0 V₀ c).share w = if w = 2 then fullShare.left else if w = 3 then fullShare.right else fullShare := by
  unfold Pipeline.Dat.share
  rw [dat0_q]
  fin_cases w <;> rfl

variable (V : (b : Ref sig .tc) → Buf (Elt Ideal) ((c : Thread nD τ).loc b))

/-- A buffer of the core at a share, holding what `V` names. -/
abbrev asmi_at (q : PosShare TreeShare) (b : Ref sig .tc) : sProp 𝕄I := ((c : Thread nD τ).loc b) ↦{q} V b

theorem asmi_arrBufs0_eq :
    (Pipeline.arrBufs (Ix := Unit) (Name := ℕ) (U := UR sig nD τ) (Lvl := ℕ) spec0 c V : sProp 𝕄I)
      = iprop(asmi_at c V fullShare main_v11
          ∗ asmi_at c V fullShare main_arg1
          ∗ asmi_at c V fullShare main_arg6
          ∗ asmi_at c V fullShare main_v12
          ∗ asmi_at c V fullShare main_arg8
          ∗ asmi_at c V fullShare main_v13
          ∗ asmi_at c V fullShare main_v14_0
          ∗ asmi_at c V fullShare main_v14_1
          ∗ asmi_at c V fullShare main_v14_2
          ∗ asmi_at c V fullShare main_v14_3) := by
  unfold Pipeline.arrBufs
  exact bigSep_eq_bigSepL_of_eq [main_v11, main_arg1, main_arg6, main_v12, main_arg8, main_v13, main_v14_0, main_v14_1, main_v14_2, main_v14_3] (by decide) (by decide) _

theorem asmi_arrays0_eq :
    ((dat0 V₀ c).arrays (fun w => V (Pipeline.arrRef spec0 w)) : sProp 𝕄I)
      = iprop(asmi_at c V fullShare main_v11
          ∗ asmi_at c V fullShare main_arg1
          ∗ asmi_at c V fullShare.left main_arg6
          ∗ asmi_at c V fullShare.right main_arg6
          ∗ asmi_at c V fullShare main_v12
          ∗ asmi_at c V fullShare main_arg8
          ∗ asmi_at c V fullShare main_v13
          ∗ asmi_at c V fullShare main_v14_0
          ∗ asmi_at c V fullShare main_v14_1
          ∗ asmi_at c V fullShare main_v14_2
          ∗ asmi_at c V fullShare main_v14_3) := by
  have h1 : ((dat0 V₀ c).arrays (fun w => V (Pipeline.arrRef spec0 w)) : sProp 𝕄I) = bigSep Finset.univ fun w : Fin 11 =>
      (((c : Thread nD τ).loc (Pipeline.arrRef spec0 w))
        ↦{if w = 2 then fullShare.left else if w = 3 then fullShare.right else fullShare} V (Pipeline.arrRef spec0 w) : sProp 𝕄I) := by
    unfold Pipeline.Dat.arrays
    exact bigSep_congr fun w _ => by rw [(arr_whole0 w).set_eq_univ, asmi_share0 V₀ c w]
  exact h1.trans (bigSep_W0 _)

/-- A buffer held whole is held half and half. -/
theorem asmi_split_arg6 :
    asmi_at c V fullShare main_arg6 ⊣⊢ iprop(asmi_at c V fullShare.left main_arg6 ∗ asmi_at c V fullShare.right main_arg6) :=
  pointsTo_share (PosShare.mem_left_op_right fullShare)

variable (F : (w : Fin cfg0.W) → Buf (Elt Ideal) ((cfg0.win w).arr.view.loc (c : Thread nD τ)))

theorem asmi_arrays0_of_bufs (hF : ∀ w, F w = V (Pipeline.arrRef spec0 w)) :
    (Pipeline.arrBufs (Ix := Unit) (Name := ℕ) (U := UR sig nD τ) (Lvl := ℕ) spec0 c V : sProp 𝕄I) ⊢ (dat0 V₀ c).arrays F := by
  obtain rfl : F = fun w => V (Pipeline.arrRef spec0 w) := funext hF
  rw [asmi_arrBufs0_eq, asmi_arrays0_eq]
  exact sep_mono_r (sep_mono_r ((sep_mono_l (asmi_split_arg6 c _).1).trans BI.sep_assoc))

theorem asmi_bufs_of_arrays0 (hF : ∀ w, F w = V (Pipeline.arrRef spec0 w)) :
    ((dat0 V₀ c).arrays F : sProp 𝕄I) ⊢ Pipeline.arrBufs (Ix := Unit) (Name := ℕ) (U := UR sig nD τ) (Lvl := ℕ) spec0 c V := by
  obtain rfl : F = fun w => V (Pipeline.arrRef spec0 w) := funext hF
  rw [asmi_arrBufs0_eq, asmi_arrays0_eq]
  exact sep_mono_r (sep_mono_r (BI.sep_assoc'.trans (sep_mono_l (asmi_split_arg6 c _).2)))

end Arrays0

theorem asmi_in_not_out0 : ∀ w : Fin 11, (cfg0.win w).isOut = false → Pipeline.arrRef spec0 w ∉ ([main_v14_0, main_v14_1, main_v14_2, main_v14_3] : List (Ref sig .tc)) := by decide
theorem asmi_out_cases0 : ∀ w : Fin 11, ¬ (cfg0.win w).isOut = false → w = 7 ∨ w = 8 ∨ w = 9 ∨ w = 10 := by decide

theorem asmi_hF0 (c : Dev nD) (w : Fin cfg0.W) : (dat0 (entry0 m) c).arrAt w cfg0.N = V2 m (outsI m) c (Pipeline.arrRef spec0 w) := by
  by_cases hw : (cfg0.win w).isOut = false
  · exact (Pipeline.Dat.arrAt_in _ w hw _).trans ((dat0_A (entry0 m) c w).trans (V2_of m (outsI m) c _ (asmi_in_not_out0 w hw)).symm)
  · rcases asmi_out_cases0 w hw with rfl | rfl | rfl | rfl
    · exact ((V2_v14_0 m (outsI m) c).trans (outsI_v14_0 m c)).symm
    · exact ((V2_v14_1 m (outsI m) c).trans (outsI_v14_1 m c)).symm
    · exact ((V2_v14_2 m (outsI m) c).trans (outsI_v14_2 m c)).symm
    · exact ((V2_v14_3 m (outsI m) c).trans (outsI_v14_3 m c)).symm

theorem asmi_hrest0 (c : Dev nD) : ∀ b, b ∉ Finset.univ.image (Pipeline.arrRef spec0) → V2 m (outsI m) c b = entry0 m c b :=
  fun b hb => V2_of m (outsI m) c b fun h => hb
    ((by decide : ∀ b ∈ ([main_v14_0, main_v14_1, main_v14_2, main_v14_3] : List (Ref sig .tc)), b ∈ Finset.univ.image (Pipeline.arrRef spec0)) b h)

theorem asmi_held0 (c : Dev nD) (W : Valuation τ sig (Elt Ideal)) :
    StableHlo.held (c : Thread nD τ) (Pipeline.ucRefs τ sig) W
      = (iprop(Pipeline.arrBufs spec0 c (fun b => W b) ∗ Pipeline.unscopedRest spec0 c (fun b => W b)) : sProp 𝕄I) := by
  rw [← Pipeline.unscopedBufs_held]
  exact Pipeline.unscopedBufs_split₀ cfgs (0 : Fin 3) winFacts₀0.arr_unscoped c _

set_option backward.isDefEq.respectTransparency.types false in
def asmi_reg0 : Pipeline.RegionSeg (pcfgs (F := Ideal)) adm (asmi_pdatsI m) () defs₀ Variants.none asmi_Lr asmi_lvr 0 :=
  asmi_reg m 0 winFacts₀0 block_pos0 stage_whole0 rfl (V1 m) (V2 m (outsI m)) (fun c => (body_obligation0 (entry0 m) c).loose)
    (dat0_owed (entry0 m)) (fun c => dat0_recorded (entry0 m) c 0) (hin0 (entry0 m)) (hout0 (entry0 m))
    (fun c => by
      rw [asmi_held0]
      exact sep_mono (asmi_arrays0_of_bufs (entry0 m) c (entry0 m c) _ fun w => dat0_A (entry0 m) c w) .rfl)
    (fun c => by
      rw [asmi_held0, show (Pipeline.unscopedRest spec0 c (fun b => V2 m (outsI m) c b) : sProp 𝕄I)
          = Pipeline.unscopedRest spec0 c (entry0 m c) from by
        unfold Pipeline.unscopedRest
        exact bigSep_congr fun b hb => by beta_reduce; rw [asmi_hrest0 m c b (Finset.mem_sdiff.mp hb).2]]
      exact sep_mono (asmi_bufs_of_arrays0 (entry0 m) c (fun b => V2 m (outsI m) c b) _ fun w => asmi_hF0 m c w) .rfl)

theorem asmi_in_not_out1 : ∀ w : Fin 12, (cfg1.win w).isOut = false → Pipeline.arrRef spec1 w ∉ ([main_v59_0, main_v59_1] : List (Ref sig .tc)) := by decide
theorem asmi_out_cases1 : ∀ w : Fin 12, ¬ (cfg1.win w).isOut = false → w = 10 ∨ w = 11 := by decide

theorem asmi_hF1 (c : Dev nD) (w : Fin cfg1.W) : (dat1 (entry1 m) c).arrAt w cfg1.N = V4 m (outsI m) c (Pipeline.arrRef spec1 w) := by
  by_cases hw : (cfg1.win w).isOut = false
  · exact (Pipeline.Dat.arrAt_in _ w hw _).trans ((dat1_A (entry1 m) c w).trans (V4_of m (outsI m) c _ (asmi_in_not_out1 w hw)).symm)
  · rcases asmi_out_cases1 w hw with rfl | rfl
    · exact ((V4_v59_0 m (outsI m) c).trans (outsI_v59_0 m c)).symm
    · exact ((V4_v59_1 m (outsI m) c).trans (outsI_v59_1 m c)).symm

theorem asmi_hrest1 (c : Dev nD) : ∀ b, b ∉ Finset.univ.image (Pipeline.arrRef spec1) → V4 m (outsI m) c b = entry1 m c b :=
  fun b hb => V4_of m (outsI m) c b fun h => hb
    ((by decide : ∀ b ∈ ([main_v59_0, main_v59_1] : List (Ref sig .tc)), b ∈ Finset.univ.image (Pipeline.arrRef spec1)) b h)

set_option backward.isDefEq.respectTransparency.types false in
def asmi_reg1 : Pipeline.RegionSeg (pcfgs (F := Ideal)) adm (asmi_pdatsI m) () defs₀ Variants.none asmi_Lr asmi_lvr 1 :=
  asmi_reg m 1 launch1.win.to₀ launch1.block_pos launch1.stage_whole rfl (V3 m (outsI m)) (V4 m (outsI m)) (fun c => (body_obligation1 (entry1 m) c).loose)
    (dat1_owed (entry1 m)) (fun c => dat1_recorded (entry1 m) c 0) (hin1 (entry1 m)) (hout1 (entry1 m))
    (fun c => by
      have h := Pipeline.arrays_of_unscopedBufs (p := 1) (pcfgs (F := Ideal)) adm (asmi_pdatsI m) launch1.win launch1.arr_whole c
        ((asmi_pdatsI m 1 c).share_full fun w => dat1_q (entry1 m) c w) (entry1 m c) fun w => dat1_A (entry1 m) c w
      rw [Pipeline.unscopedBufs_held] at h
      exact h)
    (fun c => by
      have h := Pipeline.unscopedBufs_of_arrays (p := 1) (pcfgs (F := Ideal)) adm (Ix := Unit) (Name := ℕ) (U := UR sig nD τ) (Lvl := ℕ)
        launch1.win launch1.arr_whole c (asmi_pdatsI m) ((asmi_pdatsI m 1 c).share_full fun w => dat1_q (entry1 m) c w)
        (entry1 m c) (fun b => V4 m (outsI m) c b) ((asmi_pdatsI m 1 c).arrAt · cfg1.N) (asmi_hF1 m c) (asmi_hrest1 m c)
      rw [Pipeline.unscopedBufs_held] at h
      exact h)

theorem asmi_in_not_out2 : ∀ w : Fin 4, (cfg2.win w).isOut = false → Pipeline.arrRef spec2 w ∉ ([main_v62] : List (Ref sig .tc)) := by decide
theorem asmi_out_cases2 : ∀ w : Fin 4, ¬ (cfg2.win w).isOut = false → w = 3 := by decide

theorem asmi_hF2 (c : Dev nD) (w : Fin cfg2.W) : (dat2 (entry2 m) c).arrAt w cfg2.N = V6 m (outsI m) c (Pipeline.arrRef spec2 w) := by
  by_cases hw : (cfg2.win w).isOut = false
  · exact (Pipeline.Dat.arrAt_in _ w hw _).trans ((dat2_A (entry2 m) c w).trans (V6_of m (outsI m) c _ (asmi_in_not_out2 w hw)).symm)
  · obtain rfl := asmi_out_cases2 w hw
    exact ((V6_v62 m (outsI m) c).trans (outsI_v62 m c)).symm

theorem asmi_hrest2 (c : Dev nD) : ∀ b, b ∉ Finset.univ.image (Pipeline.arrRef spec2) → V6 m (outsI m) c b = entry2 m c b :=
  fun b hb => V6_of m (outsI m) c b fun h => hb
    ((by decide : ∀ b ∈ ([main_v62] : List (Ref sig .tc)), b ∈ Finset.univ.image (Pipeline.arrRef spec2)) b h)

set_option backward.isDefEq.respectTransparency.types false in
def asmi_reg2 : Pipeline.RegionSeg (pcfgs (F := Ideal)) adm (asmi_pdatsI m) () defs₀ Variants.none asmi_Lr asmi_lvr 2 :=
  asmi_reg m 2 launch2.win.to₀ launch2.block_pos launch2.stage_whole rfl (V5 m (outsI m)) (V6 m (outsI m)) (body_obligation2 (entry2 m))
    (dat2_owed (entry2 m)) (fun c => dat2_recorded (entry2 m) c 0) (hin2 (entry2 m)) (hout2 (entry2 m))
    (fun c => by
      have h := Pipeline.arrays_of_unscopedBufs (p := 2) (pcfgs (F := Ideal)) adm (asmi_pdatsI m) launch2.win launch2.arr_whole c
        ((asmi_pdatsI m 2 c).share_full fun w => dat2_q (entry2 m) c w) (entry2 m c) fun w => dat2_A (entry2 m) c w
      rw [Pipeline.unscopedBufs_held] at h
      exact h)
    (fun c => by
      have h := Pipeline.unscopedBufs_of_arrays (p := 2) (pcfgs (F := Ideal)) adm (Ix := Unit) (Name := ℕ) (U := UR sig nD τ) (Lvl := ℕ)
        launch2.win launch2.arr_whole c (asmi_pdatsI m) ((asmi_pdatsI m 2 c).share_full fun w => dat2_q (entry2 m) c w)
        (entry2 m c) (fun b => V6 m (outsI m) c b) ((asmi_pdatsI m 2 c).arrAt · cfg2.N) (asmi_hF2 m c) (asmi_hrest2 m c)
      rw [Pipeline.unscopedBufs_held] at h
      exact h)

theorem asmi_hu₀ (u : UR sig nD τ) : (ownU u : sProp 𝕄I)
    ⊢ |={Set.univ}=> iprop(BI.own (emb₁ u) ∗ bigSep Finset.univ fun _ : Dev nD => (iprop(emp) : sProp 𝕄I)) := by
  iintro Hu; imodintro
  isplitl [Hu]
  · iapply (show (ownU u : sProp 𝕄I) ⊢ BI.own (emb₁ u) from .rfl); iexact Hu
  iapply (show (BI.emp : sProp 𝕄I) ⊢ bigSep Finset.univ (fun _ : Dev nD => (BI.emp : sProp 𝕄I)) from by rw [BI.bigSep_emp_const])
  iempintro

set_option backward.isDefEq.respectTransparency.types false in
theorem run_values (ρ : Dev nD → PrngReg) :
    θ_run (defs (F := Ideal)) (onTc (τ := τ) (main (F := Ideal))) ⟨m, fun _ => 0, ρ⟩
      (fun r => ∀ c : Dev nD, ∀ b ∈ Pipeline.ucRefs τ sig, r.2.mem ((c : Thread nD τ).1, b) = V7 m (outsI m) c b) :=
  run_values_cond m emb₁ () Variants.none asmi_Lr asmi_lvr (fun _ _ => rfl) ρ (outsI m) (asmi_pdatsI m)
    (O₀ := 0) (G := fun _ => iprop(emp))
    (u₀ := initOf (Pipeline.cells cfgs cellOf_inj) (Pipeline.launchToks cfgs cellOf_inj))
    (hu₀ := asmi_hu₀ _)
    (E := fun _ c => asmi_Rr c)
    (hE0 := Pipeline.initEach asmi_Lr asmi_lvr fun c => by
      iintro ⟨⟨-, HO, -, Hp, -⟩, -⟩
      imodintro
      isplitl [Hp]; · iexists _; iexact Hp
      iexists ∅; iexact HO)
    (hE3 := fun c => by iintro ⟨-, HO⟩; iexact HO)
    (asmi_reg0 m) (fun _ => .rfl) (fun _ => .rfl) (asmi_reg1 m) (fun _ => .rfl) (fun _ => .rfl) (asmi_reg2 m) (fun _ => .rfl) (fun _ => .rfl)

set_option backward.isDefEq.respectTransparency.types false in
theorem frame_I (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_cond m emb₁ () Variants.none asmi_Lr asmi_lvr (fun _ _ => rfl) ρ (outsI m) (asmi_pdatsI m)
    (O₀ := 0) (G := fun _ => iprop(emp))
    (u₀ := initOf (Pipeline.cells cfgs cellOf_inj) (Pipeline.launchToks cfgs cellOf_inj))
    (hu₀ := asmi_hu₀ _)
    (E := fun _ c => asmi_Rr c)
    (hE0 := Pipeline.initEach asmi_Lr asmi_lvr fun c => by
      iintro ⟨⟨-, HO, -, Hp, -⟩, -⟩
      imodintro
      isplitl [Hp]; · iexists _; iexact Hp
      iexists ∅; iexact HO)
    (hE3 := fun c => by iintro ⟨-, HO⟩; iexact HO)
    (asmi_reg0 m) (fun _ => .rfl) (fun _ => .rfl) (asmi_reg1 m) (fun _ => .rfl) (fun _ => .rfl) (asmi_reg2 m) (fun _ => .rfl) (fun _ => .rfl)

end Run

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

structure Args where
  tok : Fin 50257
  hid : Arr2 1 1024
  enc : Arr3 2048 1 2048
  cell : Arr2 1 1024
  Wemb : Arr2 50257 1024
  bemb : Arr1 1024
  Wattn : Arr2 3072 1024
  battn : Arr1 1024
  Wao : Arr2 1024 1
  bao : Arr1 1
  Wi : Arr2 4096 1024
  bi : Arr1 1024
  Wo : Arr2 4096 1024
  bo : Arr1 1024
  Wf : Arr2 4096 1024
  bf : Arr1 1024
  Wc : Arr2 4096 1024
  bc : Arr1 1024
  Wout : Arr2 4096 50257
  bout : Arr1 50257

variable (a : Args)

def emb (h : Fin 1024) : EReal := a.Wemb (ix2 a.tok h) + a.bemb (ix1 h)

def attnIn (l : Fin 2048) (k : Fin 3072) : EReal :=
  if hk : k.val < 2048 then a.enc (ix3 l 0 ⟨k.val, hk⟩) else a.hid (ix2 0 ⟨k.val - 2048, by omega⟩)

def preact (l : Fin 2048) (j : Fin 1024) : EReal :=
  (∑ k : Fin 3072, attnIn a l k * a.Wattn (ix2 k j)) + a.battn (ix1 j)

def score (l : Fin 2048) : EReal :=
  (∑ j : Fin 1024, Ideal.tanh (preact a l j) * a.Wao (ix2 j 0)) + a.bao (ix1 0)

def smax : EReal := Finset.univ.sup' Finset.univ_nonempty (score a)

def sexp (l : Fin 2048) : EReal := Ideal.exp (score a l - smax a)
def ssum : EReal := ∑ l : Fin 2048, sexp a l
def attnW (l : Fin 2048) : EReal := Ideal.div (sexp a l) (ssum a)

def context (d : Fin 2048) : EReal := ∑ l : Fin 2048, attnW a l * a.enc (ix3 l 0 d)

def comb (k : Fin 4096) : EReal :=
  if h1 : k.val < 1024 then emb a ⟨k.val, h1⟩
  else if h2 : k.val < 3072 then context a ⟨k.val - 1024, by omega⟩
  else a.hid (ix2 0 ⟨k.val - 3072, by omega⟩)

def gate (W : Arr2 4096 1024) (b : Arr1 1024) (j : Fin 1024) : EReal :=
  (∑ k : Fin 4096, comb a k * W (ix2 k j)) + b (ix1 j)

def newCell (j : Fin 1024) : EReal :=
  Ideal.logistic (gate a a.Wf a.bf j) * a.cell (ix2 0 j) + Ideal.logistic (gate a a.Wi a.bi j) * Ideal.tanh (gate a a.Wc a.bc j)
def nextHidden (j : Fin 1024) : EReal := Ideal.logistic (gate a a.Wo a.bo j) * Ideal.tanh (newCell a j)

def outCat (k : Fin 4096) : EReal :=
  if h1 : k.val < 1024 then emb a ⟨k.val, h1⟩
  else if h2 : k.val < 2048 then a.hid (ix2 0 ⟨k.val - 1024, by omega⟩)
  else context a ⟨k.val - 2048, by omega⟩

def logit (v : Fin 50257) : EReal := (∑ k : Fin 4096, outCat a k * a.Wout (ix2 k v)) + a.bout (ix1 v)
def lmax : EReal := Finset.univ.sup' Finset.univ_nonempty (logit a)
def lsum : EReal := ∑ v : Fin 50257, Ideal.exp (logit a v - lmax a)
def logSoftmax (v : Fin 50257) : EReal := (logit a v - lmax a) - Ideal.log (lsum a)

def embArr : Arr2 1 1024 := fun i => emb a ⟨(i 1).val, idx2_lt1 i⟩
def scoreArr : Arr2 2048 1 := fun i => score a ⟨(i 0).val, idx2_lt0 i⟩
def attnWArr : Arr2 2048 1 := fun i => attnW a ⟨(i 0).val, idx2_lt0 i⟩
def contextArr : Arr2 1 2048 := fun i => context a ⟨(i 1).val, idx2_lt1 i⟩
def newCellArr : Arr2 1 1024 := fun i => newCell a ⟨(i 1).val, idx2_lt1 i⟩
def nextHiddenArr : Arr2 1 1024 := fun i => nextHidden a ⟨(i 1).val, idx2_lt1 i⟩
def logitArr : Arr2 1 50257 := fun i => logit a ⟨(i 1).val, idx2_lt1 i⟩
def logSoftmaxArr : Arr2 1 50257 := fun i => logSoftmax a ⟨(i 1).val, idx2_lt1 i⟩

theorem scoreArr_apply (l : Fin 2048) (q : Fin 1) : scoreArr a (ix2 l q) = score a l := rfl
theorem contextArr_apply (p : Fin 1) (d : Fin 2048) : contextArr a (ix2 p d) = context a d := rfl
theorem logitArr_apply (p : Fin 1) (v : Fin 50257) : logitArr a (ix2 p v) = logit a v := rfl
theorem logSoftmaxArr_apply (p : Fin 1) (v : Fin 50257) : logSoftmaxArr a (ix2 p v) = logSoftmax a v := rfl

end Cert.Spec

end
-- ==== Proof.Half.lean ====
import proofs.«409657_j24300924961385_3_alg».proof.Proof.Spec

noncomputable section

namespace Cert.Spec

open Idealize.ShloMosaic Idealize.ShloMosaic.ValueIdx

variable (a : Args)

def hrow (j : Fin 2) (r : Fin 1024) : Fin 2048 := ⟨j.val * 1024 + r.val, by omega⟩

theorem hrow_val (j : Fin 2) (r : Fin 1024) : (hrow j r).val = j.val * 1024 + r.val := rfl

def hmax (j : Fin 2) : EReal := Finset.univ.sup' Finset.univ_nonempty (fun r : Fin 1024 => score a (hrow j r))

def hsum (j : Fin 2) : EReal := ∑ r : Fin 1024, Ideal.exp (score a (hrow j r) - hmax a j)

def hacc (j : Fin 2) (d : Fin 2048) : EReal :=
  ∑ r : Fin 1024, Ideal.exp (score a (hrow j r) - hmax a j) * a.enc (ix3 (hrow j r) 0 d)

end Cert.Spec

end
-- ==== Proof.Math.Sums.lean ====
import Idealize.ShloMosaic.PureOps.Ideal
import Mathlib.Algebra.BigOperators.Fin
import Mathlib.Order.Fin.Basic

noncomputable section

namespace Cert.Math

open scoped BigOperators

section Sums
variable {M : Type*} [AddCommMonoid M]

theorem sum_split2 {N : ℕ} (m n : ℕ) (h : m + n = N) (f : Fin N → M) :
    ∑ k : Fin N, f k
      = (∑ i : Fin m, f ⟨i.val, by have := i.isLt; omega⟩) + ∑ j : Fin n, f ⟨m + j.val, by have := j.isLt; omega⟩ := by
  subst h
  exact Fin.sum_univ_add f

theorem sum_3072 (f : Fin 3072 → M) :
    ∑ k : Fin 3072, f k
      = (∑ i : Fin 2048, f ⟨i.val, by have := i.isLt; omega⟩) + ∑ j : Fin 1024, f ⟨2048 + j.val, by have := j.isLt; omega⟩ :=
  sum_split2 2048 1024 rfl f

end Sums

theorem onehot_sum {ι : Type*} [Fintype ι] [DecidableEq ι] (t : ι) (W : ι → EReal) :
    ∑ v : ι, (if v = t then (1 : EReal) else 0) * W v = W t := by
  rw [Finset.sum_eq_single t]
  · rw [if_pos rfl, one_mul]
  · intro v _ hv; rw [if_neg hv, zero_mul]
  · intro h; exact absurd (Finset.mem_univ t) h

theorem max_bot_left (x : EReal) : max ⊥ x = x := bot_sup_eq x

theorem fold_max_eq {ι : Type*} (s : Finset ι) (b : EReal) (f : ι → EReal) :
    s.fold max b f = max b (s.sup f) := by
  classical
  induction s using Finset.induction_on with
  | empty => simp
  | insert i s hi ih =>
    rw [Finset.fold_insert hi, ih, Finset.sup_insert]
    exact max_left_comm _ _ _

theorem fold_max_bot {ι : Type*} (s : Finset ι) (f : ι → EReal) : s.fold max ⊥ f = s.sup f := by
  rw [fold_max_eq, max_bot_left]

theorem fold_max_bot_sup' {ι : Type*} (s : Finset ι) (hs : s.Nonempty) (f : ι → EReal) :
    s.fold max ⊥ f = s.sup' hs f := by
  rw [fold_max_bot, Finset.sup'_eq_sup]

theorem sup_split2 {N : ℕ} (m n : ℕ) (h : m + n = N) (f : Fin N → EReal) :
    Finset.univ.sup f
      = max (Finset.univ.sup fun i : Fin m => f ⟨i.val, by have := i.isLt; omega⟩)
            (Finset.univ.sup fun j : Fin n => f ⟨m + j.val, by have := j.isLt; omega⟩) := by
  apply le_antisymm
  · refine Finset.sup_le fun k _ => ?_
    by_cases hk : k.val < m
    · exact le_max_of_le_left (Finset.le_sup (f := fun i : Fin m => f ⟨i.val, by have := i.isLt; omega⟩) (Finset.mem_univ (⟨k.val, hk⟩ : Fin m)))
    · have hk' : k.val - m < n := by have := k.isLt; omega
      have e : k = ⟨m + (⟨k.val - m, hk'⟩ : Fin n).val, by have := k.isLt; omega⟩ := Fin.ext (by simp only; omega)
      rw [e]
      exact le_max_of_le_right (Finset.le_sup (f := fun j : Fin n => f ⟨m + j.val, by have := j.isLt; omega⟩) (Finset.mem_univ (⟨k.val - m, hk'⟩ : Fin n)))
  · refine max_le (Finset.sup_le fun i _ => ?_) (Finset.sup_le fun j _ => ?_)
    · exact Finset.le_sup (f := f) (Finset.mem_univ _)
    · exact Finset.le_sup (f := f) (Finset.mem_univ _)

end Cert.Math

end
-- ==== Proof.Math.Coe.lean ====
import Idealize.ShloMosaic.PureOps.Ideal
import Mathlib.Data.EReal.Operations
import Mathlib.Analysis.SpecialFunctions.Exp

noncomputable section

namespace Cert.Math

open scoped BigOperators
open Idealize.ShloMosaic

theorem bot_sub_coe (r : ℝ) : (⊥ : EReal) - (r : EReal) = ⊥ := EReal.bot_sub _

theorem exp_bot_sub_coe (r : ℝ) : Ideal.exp ((⊥ : EReal) - (r : EReal)) = 0 := by
  rw [bot_sub_coe]; rfl

theorem exp_coe_sub_coe (x y : ℝ) : Ideal.exp ((x : EReal) - (y : EReal)) = ((Real.exp (x - y) : ℝ) : EReal) := by
  rw [← EReal.coe_sub]; rfl

theorem div_coe_coe (x y : ℝ) (hy : y ≠ 0) : Ideal.div (x : EReal) (y : EReal) = ((x / y : ℝ) : EReal) := by
  rw [Ideal.div_coe hy, ← EReal.coe_mul, mul_one_div]

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem sum_coe_mul_coe {ι : Type*} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

theorem coe_max (x y : ℝ) : ((max x y : ℝ) : EReal) = max (x : EReal) (y : EReal) :=
  Monotone.map_max EReal.coe_strictMono.monotone

theorem sup'_coe {ι : Type*} (s : Finset ι) (hs : s.Nonempty) (f : ι → ℝ) :
    s.sup' hs (fun i => (f i : EReal)) = ((s.sup' hs f : ℝ) : EReal) :=
  (Finset.comp_sup'_eq_sup'_comp hs (fun r : ℝ => (r : EReal)) coe_max).symm

theorem tanh_real (x : EReal) : ∃ r : ℝ, Ideal.tanh x = (r : EReal) ∧ -1 ≤ r ∧ r ≤ 1 := by
  induction x using EReal.rec with
  | bot => exact ⟨-1, by rw [Ideal.tanh_bot]; simp, le_refl _, by norm_num⟩
  | coe r => exact ⟨Real.tanh r, rfl, (Real.neg_one_lt_tanh r).le, (Real.tanh_lt_one r).le⟩
  | top => exact ⟨1, by rw [Ideal.tanh_top]; simp, by norm_num, le_refl _⟩

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩
theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩
theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert i s hi ih =>
    rw [Finset.sum_insert hi]
    exact real_add (hf i (Finset.mem_insert_self i s)) (ih fun j hj => hf j (Finset.mem_insert_of_mem hj))

theorem real_tanh_dot {n : ℕ} (t : Fin n → EReal) (w : Fin n → EReal) (b : EReal)
    (hw : ∀ j, ∃ r : ℝ, w j = (r : EReal)) (hb : ∃ r : ℝ, b = (r : EReal)) :
    ∃ r : ℝ, (∑ j : Fin n, Ideal.tanh (t j) * w j) + b = (r : EReal) :=
  real_add (real_sum _ _ fun j _ => real_mul (let ⟨r, h, _⟩ := tanh_real (t j); ⟨r, h⟩) (hw j)) hb

end Cert.Math

end
-- ==== Proof.Math.SpecSplit.lean ====
import proofs.«409657_j24300924961385_3_alg».proof.Proof.Spec
import proofs.«409657_j24300924961385_3_alg».proof.Proof.Math.Sums
import proofs.«409657_j24300924961385_3_alg».proof.Proof.Math.Coe

noncomputable section

namespace Cert.Math

open scoped BigOperators
open Idealize.ShloMosaic Idealize.ShloMosaic.ValueIdx Cert.Spec

variable (a : Args)

theorem attnIn_lo (l : Fin 2048) (k : Fin 2048) :
    attnIn a l ⟨k.val, by have := k.isLt; omega⟩ = a.enc (ix3 l 0 k) := by
  unfold attnIn; exact dif_pos k.isLt

theorem attnIn_hi (l : Fin 2048) (k : Fin 1024) :
    attnIn a l ⟨2048 + k.val, by have := k.isLt; omega⟩ = a.hid (ix2 0 k) := by
  unfold attnIn
  have h : ¬ ((⟨2048 + k.val, by have := k.isLt; omega⟩ : Fin 3072).val < 2048) := by
    show ¬ (2048 + k.val < 2048); omega
  rw [dif_neg h]
  exact congrArg (fun q : Fin 1024 => a.hid (ix2 0 q)) (Fin.ext (by show 2048 + k.val - 2048 = k.val; omega))

theorem preact_split (l : Fin 2048) (j : Fin 1024) :
    ∑ k : Fin 3072, attnIn a l k * a.Wattn (ix2 k j)
      = (∑ k : Fin 2048, a.enc (ix3 l 0 k) * a.Wattn (ix2 (⟨k.val, by have := k.isLt; omega⟩ : Fin 3072) j))
        + ∑ k : Fin 1024, a.hid (ix2 0 k) * a.Wattn (ix2 (⟨2048 + k.val, by have := k.isLt; omega⟩ : Fin 3072) j) := by
  rw [sum_3072]
  exact congrArg₂ (· + ·) (Finset.sum_congr rfl fun k _ => by rw [attnIn_lo])
    (Finset.sum_congr rfl fun k _ => by rw [attnIn_hi])

theorem preact_eq (l : Fin 2048) (j : Fin 1024) :
    preact a l j
      = (∑ k : Fin 2048, a.enc (ix3 l 0 k) * a.Wattn (ix2 (⟨k.val, by have := k.isLt; omega⟩ : Fin 3072) j))
        + ((∑ k : Fin 1024, a.hid (ix2 0 k) * a.Wattn (ix2 (⟨2048 + k.val, by have := k.isLt; omega⟩ : Fin 3072) j))
            + a.battn (ix1 j)) := by
  unfold preact; rw [preact_split, add_assoc]

theorem score_real (hWao : ∀ i, ∃ r : ℝ, a.Wao i = (r : EReal)) (hbao : ∀ i, ∃ r : ℝ, a.bao i = (r : EReal)) (l : Fin 2048) :
    ∃ r : ℝ, score a l = (r : EReal) :=
  real_tanh_dot _ _ _ (fun j => hWao _) (hbao _)

end Cert.Math

end
-- ==== Proof.HostA.lean ====
import proofs.«409657_j24300924961385_3_alg».proof.Proof.Gen.KernelIdeal.Regions
import proofs.«409657_j24300924961385_3_alg».proof.Proof.Spec
import Idealize.ShloMosaic.Lib.ValueLayout
import Idealize.ShloMosaic.Lib.Pipeline.Value
import Idealize.ShloMosaic.Lib.IdealHost
import Idealize.ShloMosaic.PureOps.Ideal.Laws

set_option Elab.async false

noncomputable section

namespace Cert.KernelIdeal.Hand

open Idealize.ShloMosaic Idealize.ShloMosaic.TcCoe Idealize.ShloMosaic.ValueIdx
open Cert.KernelIdeal Cert.KernelIdeal.Facts₀ Cert.KernelIdeal.Facts

/-- A line of operations run as its first `n` operations and then the rest. -/
theorem hH_after_take_drop {Val : EltTy → Type} (n : ℕ) (l : List (HloOp τ sig Val)) (V : Valuation τ sig Val) :
    StableHlo.after l V = StableHlo.after (l.drop n) (StableHlo.after (l.take n) V) := by
  rw [← StableHlo.after_append, List.take_append_drop]

theorem hH_neg_inf_bits : Ideal.ofBits .f32 0xFF800000#32 = (⊥ : EReal) := by simp [Ideal.ofBits, Ideal.ieee]

/-- From −∞ a maximum-reduce over one axis is the supremum over that axis. -/
theorem hH_hostMax_single {s t : Shape} {ax : Fin s.rank} (x : FVec Ideal s .f32) (h' : s.ReducesTo [ax] t)
    (h : s.Reduces [ax] t) (j : t.Idx) :
    Host.reduce FloatOps.maximumf x (constant (F := Ideal) S_ .f32 0xFF800000#32) h' h_S_ j
      = Finset.univ.sup fun k => x (h.lift j k) := by
  rw [Host.reduce_eq_fold_single FloatOps.maximumf x _ h' h h_S_, constant_apply, hH_neg_inf_bits]
  rfl

/-- From 0 an add-reduce over one axis is the sum over that axis. -/
theorem hH_hostSum_single {s t : Shape} {ax : Fin s.rank} (x : FVec Ideal s .f32) (h' : s.ReducesTo [ax] t)
    (h : s.Reduces [ax] t) (j : t.Idx) :
    Host.reduceAdd x (constant (F := Ideal) S_ .f32 0x00000000#32) h' h_S_ j = ∑ k, x (h.lift j k) := by
  rw [hostReduceAdd_apply, Ideal.hostReduceAdd_single h' h, constant_apply, Ideal.ofBits_zero_f32, zero_add]

/-- A one-entry vector made a one-by-one array reads its one entry. -/
theorem hH_bcastUnit_apply {dims : Fin 1 → Fin 2} (h : S1.BroadcastsInDim S1x1 dims) (x : S1.Idx → EReal) (p q : Fin 1) :
    broadcastInDim S1x1 dims h x (ix2 p q) = x (ix1 0) :=
  broadcastInDim_apply _ h x _ (ix1 0) fun a => by
    match a with
    | ⟨0, _⟩ => rfl

/-- A one-by-one array spread over a matrix of any size reads its one entry. -/
theorem hH_bcast11_apply {r n : ℕ} (h : S1x1.BroadcastsInDim ⟨2, ![r, n]⟩ ![0, 1]) (x : S1x1.Idx → EReal) (p : Fin r) (d : Fin n) :
    broadcastInDim ⟨2, ![r, n]⟩ ![0, 1] h x (ix2 p d) = x (ix2 0 0) :=
  broadcastInDim_apply _ h x _ (ix2 0 0) fun a => by
    match a with
    | ⟨0, _⟩ => rfl
    | ⟨1, _⟩ => rfl

/-- Dropping a middle unit axis keeps the row-major position, so entry (i, j) is the operand's entry (i, 0, j). -/
theorem hA_shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The three rows the first stretch only reshapes keep their entries. -/
theorem host0_v11 (W : Valuation τ sig (Elt Ideal)) (a : Cert.Spec.Args)
    (h2 : (W main_arg2 : S2048x1x2048.Idx → EReal) = a.enc) (l k : Fin 2048) :
    (StableHlo.after (Gen.hostOps0 (F := Ideal)) W main_v11 : S2048x2048.Idx → EReal) (ix2 l k) = a.enc (ix3 l 0 k) := by
  show StableHlo.after (Gen.hostOps0 (F := Ideal)) W (Proc.devRef .tc main_v11) (ix2 l k) = _
  after_results
  exact (hA_shapeCast_a1b_ab_apply _ _ l k).trans (congrFun h2 _)

theorem host0_v12 (W : Valuation τ sig (Elt Ideal)) (a : Cert.Spec.Args)
    (h7 : (W main_arg7 : S1024.Idx → EReal) = a.battn) (j : Fin 1024) :
    (StableHlo.after (Gen.hostOps0 (F := Ideal)) W main_v12 : S1x1024.Idx → EReal) (ix2 0 j) = a.battn (ix1 j) := by
  show StableHlo.after (Gen.hostOps0 (F := Ideal)) W (Proc.devRef .tc main_v12) (ix2 0 j) = _
  after_results
  exact (shapeCast_a_1a_apply _ _ 0 j).trans (congrFun h7 _)

theorem host0_v13 (W : Valuation τ sig (Elt Ideal)) (a : Cert.Spec.Args)
    (h9 : (W main_arg9 : S1.Idx → EReal) = a.bao) :
    (StableHlo.after (Gen.hostOps0 (F := Ideal)) W main_v13 : S1x1.Idx → EReal) (ix2 0 0) = a.bao (ix1 0) := by
  show StableHlo.after (Gen.hostOps0 (F := Ideal)) W (Proc.devRef .tc main_v13) (ix2 0 0) = _
  after_results
  exact (shapeCast_a_1a_apply _ _ 0 0).trans (congrFun h9 _)

end Cert.KernelIdeal.Hand

end
-- ==== Proof.HostA1.lean ====
import proofs.«409657_j24300924961385_3_alg».proof.Proof.Gen.KernelIdeal.Regions
import proofs.«409657_j24300924961385_3_alg».proof.Proof.Spec
import proofs.«409657_j24300924961385_3_alg».proof.Proof.HostA
import Idealize.ShloMosaic.Lib.ValueLayout
import Idealize.ShloMosaic.Lib.Pipeline.Value
import Idealize.ShloMosaic.Lib.StableHlo.Predicate
import Idealize.ShloMosaic.Lib.Affine
import Idealize.ShloMosaic.Lib.DynamicIndex

set_option Elab.async false

noncomputable section

namespace Cert.KernelIdeal.Hand

open Idealize.ShloMosaic Idealize.ShloMosaic.TcCoe Idealize.ShloMosaic.ValueIdx
open Cert.KernelIdeal Cert.KernelIdeal.Facts₀ Cert.KernelIdeal.Facts

/-- A one-row slice whose start row lies inside the table is that row: the clamp of the start does nothing. -/
theorem hA_dynSlice_row {α : Type} {N M : ℕ} (x : (⟨2, ![N, M]⟩ : Shape).Idx → α) (st : Fin 2 → Int)
    (fits : (⟨2, ![N, M]⟩ : Shape).Slices (fun _ => 0) ⟨2, ![1, M]⟩) (t : ℕ) (ht : t < N)
    (h0 : st 0 = (t : Int)) (h1 : st 1 = 0) (q : Fin M) :
    Host.dynamicSlice (⟨2, ![1, M]⟩ : Shape) x st fits (ix2 0 q) = x (ix2 ⟨t, ht⟩ q) := by
  simp only [Host.dynamicSlice, extractStridedSlice]
  refine congrArg x (funext fun a => Fin.ext ?_)
  fin_cases a
  · show (min (max (st 0) 0) (((N - 1 : ℕ)) : Int)).toNat + 0 = t
    rw [h0, max_eq_left (Int.natCast_nonneg t), min_eq_left (by omega), Int.toNat_natCast, Nat.add_zero]
  · show (min (max (st 1) 0) (((M - M : ℕ)) : Int)).toNat + q.val = q.val
    rw [h1, Nat.sub_self]
    simp

/-- A token below the vocabulary size is not negative as a signed word, so the wrap-around select keeps it. -/
theorem hA_pre_v3 (W : Valuation τ sig (Elt Ideal)) (t : ℕ) (ht : t < 50257)
    (h0 : (W main_arg0 : S1.Idx → BitVec 32) (ix1 0) = BitVec.ofNat 32 t) :
    (StableHlo.after ((Gen.hostOps0 (F := Ideal)).take 14) W main_v3 : S_.Idx → BitVec 32) ix0 = BitVec.ofNat 32 t := by
  have hs : shapeCast S_ (W main_arg0 : S1.Idx → BitVec 32) shapeCasts_S1_S_ ix0 = BitVec.ofNat 32 t := by
    rw [← h0]
    refine shapeCast_apply (s := S1) (t := S_) _ _ ix0 (ix1 0) ?_
    have h1 := (S1.rowMajor (ix1 0)).isLt
    have h2 := (S_.rowMajor ix0).isLt
    have e1 : S1.numel = 1 := by decide
    have e2 : S_.numel = 1 := by decide
    omega
  have hn : 0 ≤ (shapeCast S_ (W main_arg0 : S1.Idx → BitVec 32) shapeCasts_S1_S_ ix0).toInt := by
    rw [hs, StableHlo.Predicate.toInt_ofNat_small t (by omega)]; omega
  show StableHlo.after ((Gen.hostOps0 (F := Ideal)).take 14) W (Proc.devRef .tc main_v3) ix0 = _
  simp only [Gen.hostOps0, List.take_succ_cons, List.take_zero]
  after_results
  exact (select_slt_zero_of_nonneg _ _ _ ix0 hn).trans hs

theorem hA_pre_v6 (W : Valuation τ sig (Elt Ideal)) :
    (StableHlo.after ((Gen.hostOps0 (F := Ideal)).take 14) W main_v6 : S_.Idx → BitVec 32) ix0 = 0#32 := by
  show StableHlo.after ((Gen.hostOps0 (F := Ideal)).take 14) W (Proc.devRef .tc main_v6) ix0 = _
  simp only [Gen.hostOps0, List.take_succ_cons, List.take_zero]
  after_results
  rfl

theorem hA_pre_arg (W : Valuation τ sig (Elt Ideal)) :
    StableHlo.after ((Gen.hostOps0 (F := Ideal)).take 14) W (Proc.devRef .tc main_arg4) = W main_arg4
    ∧ StableHlo.after ((Gen.hostOps0 (F := Ideal)).take 14) W (Proc.devRef .tc main_arg5) = W main_arg5 := by
  constructor <;> (simp only [Gen.hostOps0, List.take_succ_cons, List.take_zero]; after_results)

theorem hA_emb_row (T : S50257x1024.Idx → EReal) (B : S1024.Idx → EReal) (st : Fin 2 → Int) (t : Fin 50257)
    (h0 : st 0 = (t.val : Int)) (h1 : st 1 = 0) (q : Fin 1024) :
    shapeCast S1x1024 (addf (shapeCast S1024 (Host.dynamicSlice S1x1024 T st sliceFits_S50257x1024_S1x1024)
      shapeCasts_S1x1024_S1024 : FVec Ideal S1024 .f32) (B : FVec Ideal S1024 .f32)) shapeCasts_S1024_S1x1024 (ix2 0 q)
      = T (ix2 t q) + B (ix1 q) := by
  rw [shapeCast_a_1a_apply, addf_apply, shapeCast_1a_a_apply]
  exact congrArg (· + B (ix1 q)) (hA_dynSlice_row T st sliceFits_S50257x1024_S1x1024 t.val t.isLt h0 h1 q)

/-- The embedding row is the table's row at the token plus the bias. -/
theorem host0_v10 (W : Valuation τ sig (Elt Ideal)) (a : Cert.Spec.Args)
    (h0 : (W main_arg0 : S1.Idx → BitVec 32) (ix1 0) = BitVec.ofNat 32 a.tok.val)
    (h4 : (W main_arg4 : S50257x1024.Idx → EReal) = a.Wemb)
    (h5 : (W main_arg5 : S1024.Idx → EReal) = a.bemb) :
    (StableHlo.after (Gen.hostOps0 (F := Ideal)) W main_v10 : S1x1024.Idx → EReal) = Cert.Spec.embArr a := by
  have h3 := hA_pre_v3 W a.tok.val a.tok.isLt h0
  have h6 := hA_pre_v6 W
  obtain ⟨p4, p5⟩ := hA_pre_arg W
  have q4 := p4.trans h4
  have q5 := p5.trans h5
  rw [hH_after_take_drop 14 (Gen.hostOps0 (F := Ideal)) W]
  generalize StableHlo.after ((Gen.hostOps0 (F := Ideal)).take 14) W = V at h3 h6 q4 q5 ⊢
  show StableHlo.after ((Gen.hostOps0 (F := Ideal)).drop 14) V (Proc.devRef .tc main_v10) = _
  simp only [Gen.hostOps0, List.drop_succ_cons, List.drop_zero]
  after_results
  funext i
  obtain ⟨p, q, rfl⟩ : ∃ (p : Fin 1) (q : Fin 1024), i = ix2 p q := ⟨i 0, i 1, eq_ix2 i⟩
  obtain rfl : p = 0 := Subsingleton.elim _ _
  refine (hA_emb_row (V main_arg4 : S50257x1024.Idx → EReal) (V main_arg5 : S1024.Idx → EReal) _ a.tok ?_ ?_ q).trans ?_
  · show ((V main_v3 : S_.Idx → BitVec 32) (Shape.Idx.first h_S_)).toInt = _
    rw [eq_ix0 (Shape.Idx.first h_S_), h3]
    exact StableHlo.Predicate.toInt_ofNat_small _ (by have := a.tok.isLt; omega)
  · show ((V main_v6 : S_.Idx → BitVec 32) (Shape.Idx.first h_S_)).toInt = _
    rw [eq_ix0 (Shape.Idx.first h_S_), h6]
    rfl
  · rw [q4, q5]
    rfl

end Cert.KernelIdeal.Hand

end
-- ==== Proof.HostA2.lean ====
import proofs.«409657_j24300924961385_3_alg».proof.Proof.Gen.KernelIdeal.Regions
import proofs.«409657_j24300924961385_3_alg».proof.Proof.Spec
import Idealize.ShloMosaic.Lib.ValueLayout
import Idealize.ShloMosaic.Lib.Pipeline.Value

set_option Elab.async false

noncomputable section

namespace Cert.KernelIdeal.Hand

open Idealize.ShloMosaic Idealize.ShloMosaic.TcCoe Idealize.ShloMosaic.ValueIdx
open Cert.KernelIdeal Cert.KernelIdeal.Facts₀ Cert.KernelIdeal.Facts

/-- Three rows laid side by side: a column lies in exactly one of them, which fixes the piece and the offset. -/
theorem host2_v60 (W : Valuation τ sig (Elt Ideal)) (a : Cert.Spec.Args)
    (h10 : (W main_v10 : S1x1024.Idx → EReal) = Cert.Spec.embArr a)
    (h1 : (W main_arg1 : S1x1024.Idx → EReal) = a.hid)
    (h41 : (W main_v41 : S1x2048.Idx → EReal) = Cert.Spec.contextArr a) (k : Fin 4096) :
    (StableHlo.after (Gen.hostOps2 (F := Ideal)) W main_v60 : S1x4096.Idx → EReal) (ix2 0 k) = Cert.Spec.outCat a k := by
  have P := concatenate_apply_piece (t := S1x4096) 1 [⟨S1x1024, (W main_v10 : S1x1024.Idx → EReal)⟩,
    ⟨S1x1024, (W main_arg1 : S1x1024.Idx → EReal)⟩, ⟨S1x2048, (W main_v41 : S1x2048.Idx → EReal)⟩]
    concatenates_S1x1024_S1x1024_S1x2048_S1x4096_d1 (ix2 0 k)
  have hb : ∀ {n : ℕ} (q : Fin n) (b : Fin 2), b ≠ 1 → ((ix2 (0 : Fin 1) q : (⟨2, ![1, n]⟩ : Shape).Idx) b).val = ((ix2 (0 : Fin 1) k : S1x4096.Idx) b).val :=
    fun q b hb => by fin_cases b; exacts [rfl, absurd rfl hb]
  show StableHlo.after (Gen.hostOps2 (F := Ideal)) W (Proc.devRef .tc main_v60) (ix2 0 k) = _
  after_results
  unfold Cert.Spec.outCat
  by_cases c1 : k.val < 1024
  · rw [dif_pos c1]
    exact (P 0 (by show (0 : ℕ) < 3; omega) _ _ rfl rfl 0 rfl (ix2 0 ⟨k.val, c1⟩) (hb _) (Nat.zero_add _)).trans (congrFun h10 _)
  · rw [dif_neg c1]
    by_cases c2 : k.val < 2048
    · rw [dif_pos c2]
      exact (P 1 (by show (1 : ℕ) < 3; omega) _ _ rfl rfl 1024 rfl (ix2 0 ⟨k.val - 1024, by omega⟩) (hb _)
        (by show 1024 + (k.val - 1024) = k.val; omega)).trans (congrFun h1 _)
    · rw [dif_neg c2]
      exact (P 2 (by show (2 : ℕ) < 3; omega) _ _ rfl rfl 2048 rfl (ix2 0 ⟨k.val - 2048, by omega⟩) (hb _)
        (by show 2048 + (k.val - 2048) = k.val; omega)).trans (congrFun h41 _)

theorem host2_v61 (W : Valuation τ sig (Elt Ideal)) (a : Cert.Spec.Args)
    (h19 : (W main_arg19 : S50257.Idx → EReal) = a.bout) (v : Fin 50257) :
    (StableHlo.after (Gen.hostOps2 (F := Ideal)) W main_v61 : S1x50257.Idx → EReal) (ix2 0 v) = a.bout (ix1 v) := by
  show StableHlo.after (Gen.hostOps2 (F := Ideal)) W (Proc.devRef .tc main_v61) (ix2 0 v) = _
  after_results
  exact (shapeCast_a_1a_apply _ _ 0 v).trans (congrFun h19 _)

end Cert.KernelIdeal.Hand

end
-- ==== Proof.HostA3.lean ====
import proofs.«409657_j24300924961385_3_alg».proof.Proof.Gen.KernelIdeal.Regions
import proofs.«409657_j24300924961385_3_alg».proof.Proof.Spec
import proofs.«409657_j24300924961385_3_alg».proof.Proof.HostA
import Idealize.ShloMosaic.Lib.ValueLayout
import Idealize.ShloMosaic.Lib.Pipeline.Value
import Idealize.ShloMosaic.Lib.IdealHost
import Idealize.ShloMosaic.PureOps.Ideal.Laws

set_option Elab.async false

noncomputable section

namespace Cert.KernelIdeal.Hand

open Idealize.ShloMosaic Idealize.ShloMosaic.TcCoe Idealize.ShloMosaic.ValueIdx
open Cert.KernelIdeal Cert.KernelIdeal.Facts₀ Cert.KernelIdeal.Facts

/-- Putting column k back into a reduced index of a one-row array gives (p, k). -/
theorem hA3_lift_row {n : ℕ} (h : (⟨2, ![1, n]⟩ : Shape).Reduces [1] (⟨1, ![1]⟩ : Shape)) (p : Fin 1)
    (k : Fin ((⟨2, ![1, n]⟩ : Shape).size 1)) : h.lift (ix1 p) k = ix2 p (⟨k.val, k.isLt⟩ : Fin n) := by
  funext c; apply Fin.ext
  fin_cases c <;> rfl

section LogSoftmax

variable {n : ℕ} (x : FVec Ideal ⟨2, ![1, n]⟩ .f32)
  (hb0 : (⟨0, ![]⟩ : Shape).BroadcastsInDim (⟨1, ![1]⟩ : Shape) (![] : Fin 0 → Fin 1))
  (hb1 : (⟨1, ![1]⟩ : Shape).BroadcastsInDim (⟨2, ![1, 1]⟩ : Shape) ![0])
  (hb2 : (⟨2, ![1, 1]⟩ : Shape).BroadcastsInDim (⟨2, ![1, n]⟩ : Shape) ![0, 1])
  (h' : (⟨2, ![1, n]⟩ : Shape).ReducesTo [1] (⟨1, ![1]⟩ : Shape))
  (hu : 0 < (⟨0, ![]⟩ : Shape).numel) (h : (⟨2, ![1, n]⟩ : Shape).Reduces [1] (⟨1, ![1]⟩ : Shape))

def hA3_rowMaxV : FVec Ideal ⟨1, ![1]⟩ .f32 :=
  maximumf (broadcastInDim ⟨1, ![1]⟩ ![] hb0 (constant (F := Ideal) ⟨0, ![]⟩ .f32 0xFF800000#32))
    (Host.reduce FloatOps.maximumf x (constant (F := Ideal) ⟨0, ![]⟩ .f32 0xFF800000#32) h' hu)

def hA3_shiftV : FVec Ideal ⟨2, ![1, n]⟩ .f32 :=
  subf x (broadcastInDim ⟨2, ![1, n]⟩ ![0, 1] hb2 (broadcastInDim ⟨2, ![1, 1]⟩ ![0] hb1 (hA3_rowMaxV x hb0 h' hu)))

def hA3_sumV : FVec Ideal ⟨1, ![1]⟩ .f32 :=
  Host.reduceAdd (Host.exp (hA3_shiftV x hb0 hb1 hb2 h' hu)) (constant (F := Ideal) ⟨0, ![]⟩ .f32 0x00000000#32) h' hu

def hA3_lsmV : FVec Ideal ⟨2, ![1, n]⟩ .f32 :=
  subf (hA3_shiftV x hb0 hb1 hb2 h' hu)
    (broadcastInDim ⟨2, ![1, n]⟩ ![0, 1] hb2 (Host.log (broadcastInDim ⟨2, ![1, 1]⟩ ![0] hb1 (hA3_sumV x hb0 hb1 hb2 h' hu))))

include h

theorem hA3_rowMax (hne : (Finset.univ : Finset (Fin n)).Nonempty) :
    Host.reduce FloatOps.maximumf x (constant (F := Ideal) (⟨0, ![]⟩ : Shape) .f32 0xFF800000#32) h' hu (ix1 0)
      = Finset.univ.sup' hne (fun v : Fin n => x (ix2 0 v)) :=
  (hH_hostMax_single x h' h _).trans
    ((Finset.sup_congr rfl fun k _ => congrArg x (hA3_lift_row h 0 k)).trans (Finset.sup'_eq_sup _ _).symm)

theorem hA3_rowSum :
    Host.reduceAdd x (constant (F := Ideal) (⟨0, ![]⟩ : Shape) .f32 0x00000000#32) h' hu (ix1 0) = ∑ v : Fin n, x (ix2 0 v) :=
  (hH_hostSum_single x h' h _).trans (Finset.sum_congr rfl fun k _ => congrArg x (hA3_lift_row h 0 k))

/-- Read at a column, the term is the log-softmax with the row's maximum subtracted first. -/
theorem hA3_lsmV_apply (hne : (Finset.univ : Finset (Fin n)).Nonempty) (v : Fin n) :
    hA3_lsmV x hb0 hb1 hb2 h' hu (ix2 0 v)
      = (x (ix2 0 v) - Finset.univ.sup' hne (fun w => x (ix2 0 w)))
        - Ideal.log (∑ w : Fin n, Ideal.exp (x (ix2 0 w) - Finset.univ.sup' hne (fun w => x (ix2 0 w)))) := by
  have hmx : hA3_rowMaxV x hb0 h' hu (ix1 0) = Finset.univ.sup' hne (fun w => x (ix2 0 w)) := by
    show max (Ideal.ofBits .f32 0xFF800000#32)
      (Host.reduce FloatOps.maximumf x (constant (F := Ideal) ⟨0, ![]⟩ .f32 0xFF800000#32) h' hu (ix1 0)) = _
    rw [hA3_rowMax x h' hu h hne, hH_neg_inf_bits, max_eq_right bot_le]
  have hsh : ∀ w : Fin n, hA3_shiftV x hb0 hb1 hb2 h' hu (ix2 0 w)
      = x (ix2 0 w) - Finset.univ.sup' hne (fun w => x (ix2 0 w)) := fun w => by
    show x (ix2 0 w) - broadcastInDim ⟨2, ![1, n]⟩ ![0, 1] hb2
      (broadcastInDim ⟨2, ![1, 1]⟩ ![0] hb1 (hA3_rowMaxV x hb0 h' hu)) (ix2 0 w) = _
    rw [hH_bcast11_apply, hH_bcastUnit_apply, hmx]
  have hsm : hA3_sumV x hb0 hb1 hb2 h' hu (ix1 0)
      = ∑ w : Fin n, Ideal.exp (x (ix2 0 w) - Finset.univ.sup' hne (fun w => x (ix2 0 w))) := by
    unfold hA3_sumV
    rw [hA3_rowSum _ h' hu h]
    exact Finset.sum_congr rfl fun w _ => by
      show Ideal.exp (hA3_shiftV x hb0 hb1 hb2 h' hu (ix2 0 w)) = _
      rw [hsh]
  show hA3_shiftV x hb0 hb1 hb2 h' hu (ix2 0 v)
    - broadcastInDim ⟨2, ![1, n]⟩ ![0, 1] hb2
        (Host.log (broadcastInDim ⟨2, ![1, 1]⟩ ![0] hb1 (hA3_sumV x hb0 hb1 hb2 h' hu))) (ix2 0 v) = _
  rw [hH_bcast11_apply]
  show hA3_shiftV x hb0 hb1 hb2 h' hu (ix2 0 v)
    - Ideal.log (broadcastInDim ⟨2, ![1, 1]⟩ ![0] hb1 (hA3_sumV x hb0 hb1 hb2 h' hu) (ix2 0 0)) = _
  rw [hH_bcastUnit_apply, hsm, hsh]

end LogSoftmax

theorem hA3_ofBuf_toBuf {T : BufTy} (x : StableHlo.TRef sig T) (v : T.Contents (Elt Ideal)) :
    x.ofBuf (x.toBuf v) = v := by
  obtain ⟨r, h, h1, h2⟩ := x
  subst h
  rfl

theorem hA3_ofBuf62 (u : (Proc.devRef (τ := τ) .tc main_v62).ty.Contents (Elt Ideal)) :
    (StableHlo.TRef.of main_v62 : StableHlo.TRef sig ⟨S1x50257, .f32⟩).ofBuf u = u := rfl
theorem hA3_toBuf63 (v : (⟨S1x50257, .f32⟩ : BufTy).Contents (Elt Ideal)) :
    (StableHlo.TRef.of main_v63 : StableHlo.TRef sig ⟨S1x50257, .f32⟩).toBuf v = v := rfl

theorem hA3_after_v63 (W : Valuation τ sig (Elt Ideal)) :
    (StableHlo.after (Gen.hostOps3 (F := Ideal)) W main_v63 : S1x50257.Idx → EReal)
      = hA3_lsmV (W main_v62 : S1x50257.Idx → EReal) bcast_S_S1 bcast_S1_S1x1_0 bcast_S1x1_S1x50257_0_1
          reducesTo_S1x50257_S1_d1 h_S_ := by
  show StableHlo.after (Gen.hostOps3 (F := Ideal)) W (Proc.devRef .tc main_v63) = _
  after_results
  simp only [hA3_ofBuf_toBuf]
  rw [hA3_toBuf63]
  simp only [hA3_ofBuf62]
  generalize W (Proc.devRef .tc main_v62) = X
  unfold hA3_lsmV hA3_sumV hA3_shiftV hA3_rowMaxV
  with_reducible rfl

theorem hA3_reduces_row : S1x50257.Reduces [1] S1 := by decide

theorem host3_v63 (W : Valuation τ sig (Elt Ideal)) (a : Cert.Spec.Args)
    (h62 : (W main_v62 : S1x50257.Idx → EReal) = Cert.Spec.logitArr a) :
    (StableHlo.after (Gen.hostOps3 (F := Ideal)) W main_v63 : S1x50257.Idx → EReal) = Cert.Spec.logSoftmaxArr a := by
  rw [hA3_after_v63 W, h62]
  funext i
  obtain ⟨p, v, rfl⟩ : ∃ (p : Fin 1) (v : Fin 50257), i = ix2 p v := ⟨i 0, i 1, eq_ix2 i⟩
  obtain rfl : p = 0 := Subsingleton.elim _ _
  refine Eq.trans ?_ (Cert.Spec.logSoftmaxArr_apply a 0 v).symm
  rw [hA3_lsmV_apply (Cert.Spec.logitArr a) bcast_S_S1 bcast_S1_S1x1_0 bcast_S1x1_S1x50257_0_1 reducesTo_S1x50257_S1_d1 h_S_
    hA3_reduces_row Finset.univ_nonempty v]
  simp only [Cert.Spec.logitArr_apply, Cert.Spec.logSoftmax, Cert.Spec.lmax, Cert.Spec.lsum]

end Cert.KernelIdeal.Hand

end
-- ==== Proof.Math.Online.lean ====
import Mathlib.Analysis.SpecialFunctions.Exp
import Mathlib.Algebra.BigOperators.Field

noncomputable section

namespace Cert.Math

open scoped BigOperators

theorem rescale_sum {ι : Type*} (I : Finset ι) (f : ι → ℝ) (m m' : ℝ) :
    Real.exp (m - m') * ∑ i ∈ I, Real.exp (f i - m) = ∑ i ∈ I, Real.exp (f i - m') := by
  rw [Finset.mul_sum]
  refine Finset.sum_congr rfl fun i _ => ?_
  rw [← Real.exp_add]; congr 1; ring

theorem rescale_wsum {ι : Type*} (I : Finset ι) (f g : ι → ℝ) (m m' : ℝ) :
    Real.exp (m - m') * ∑ i ∈ I, Real.exp (f i - m) * g i = ∑ i ∈ I, Real.exp (f i - m') * g i := by
  rw [Finset.mul_sum]
  refine Finset.sum_congr rfl fun i _ => ?_
  rw [← mul_assoc, ← Real.exp_add]; congr 2; ring

end Cert.Math

end
-- ==== Proof.Math.OnlineE.lean ====
import Idealize.ShloMosaic.PureOps.Ideal
import Mathlib.Algebra.BigOperators.Fin
import proofs.«409657_j24300924961385_3_alg».proof.Proof.Math.Coe
import proofs.«409657_j24300924961385_3_alg».proof.Proof.Math.Sums
import proofs.«409657_j24300924961385_3_alg».proof.Proof.Math.Online

noncomputable section

namespace Cert.Math

open scoped BigOperators
open Idealize.ShloMosaic

theorem e_sum {κ : Type*} [Fintype κ] (f : κ → ℝ) (M : ℝ) :
    ∑ i : κ, Ideal.exp ((f i : EReal) - (M : EReal)) = ((∑ i : κ, Real.exp (f i - M) : ℝ) : EReal) := by
  rw [coe_sum]; exact Finset.sum_congr rfl fun i _ => exp_coe_sub_coe _ _

theorem e_wsum {κ : Type*} [Fintype κ] (f g : κ → ℝ) (M : ℝ) :
    ∑ i : κ, Ideal.exp ((f i : EReal) - (M : EReal)) * (g i : EReal) = ((∑ i : κ, Real.exp (f i - M) * g i : ℝ) : EReal) := by
  rw [← sum_coe_mul_coe]; exact Finset.sum_congr rfl fun i _ => by rw [exp_coe_sub_coe]

theorem e_first_l {κ : Type*} [Fintype κ] (f : κ → ℝ) (M : ℝ) :
    Ideal.exp (⊥ - (M : EReal)) * 0 + ∑ i : κ, Ideal.exp ((f i : EReal) - (M : EReal))
      = ((∑ i : κ, Real.exp (f i - M) : ℝ) : EReal) := by
  rw [exp_bot_sub_coe, zero_mul, zero_add, e_sum]

theorem e_first_acc {κ : Type*} [Fintype κ] (f g : κ → ℝ) (M : ℝ) :
    Ideal.exp (⊥ - (M : EReal)) * 0 + ∑ i : κ, Ideal.exp ((f i : EReal) - (M : EReal)) * (g i : EReal)
      = ((∑ i : κ, Real.exp (f i - M) * g i : ℝ) : EReal) := by
  rw [exp_bot_sub_coe, zero_mul, zero_add, e_wsum]

theorem e_step_l {κ : Type*} [Fintype κ] (m lr M : ℝ) (f : κ → ℝ) :
    Ideal.exp ((m : EReal) - (M : EReal)) * (lr : EReal) + ∑ i : κ, Ideal.exp ((f i : EReal) - (M : EReal))
      = ((Real.exp (m - M) * lr + ∑ i : κ, Real.exp (f i - M) : ℝ) : EReal) := by
  rw [e_sum, exp_coe_sub_coe, EReal.coe_add, EReal.coe_mul]

theorem e_step_acc {κ : Type*} [Fintype κ] (m ar M : ℝ) (f g : κ → ℝ) :
    Ideal.exp ((m : EReal) - (M : EReal)) * (ar : EReal) + ∑ i : κ, Ideal.exp ((f i : EReal) - (M : EReal)) * (g i : EReal)
      = ((Real.exp (m - M) * ar + ∑ i : κ, Real.exp (f i - M) * g i : ℝ) : EReal) := by
  rw [e_wsum, exp_coe_sub_coe, EReal.coe_add, EReal.coe_mul]

theorem e_merge (mA mB M a b : ℝ) :
    Ideal.exp ((mA : EReal) - (M : EReal)) * (a : EReal) + Ideal.exp ((mB : EReal) - (M : EReal)) * (b : EReal)
      = ((Real.exp (mA - M) * a + Real.exp (mB - M) * b : ℝ) : EReal) := by
  rw [exp_coe_sub_coe, exp_coe_sub_coe, EReal.coe_add, EReal.coe_mul, EReal.coe_mul]

theorem real_funs {ι δ : Type*} {s : ι → EReal} {x : ι → δ → EReal}
    (hs : ∀ i, ∃ r : ℝ, s i = (r : EReal)) (hx : ∀ i d, ∃ r : ℝ, x i d = (r : EReal)) :
    ∃ (sr : ι → ℝ) (xr : ι → δ → ℝ), s = (fun i => (sr i : EReal)) ∧ x = fun i d => (xr i d : EReal) := by
  choose sr hsr using hs
  choose xr hxr using hx
  exact ⟨sr, xr, funext hsr, funext fun i => funext (hxr i)⟩

theorem two_tile_closed {δ : Type*} {N T : ℕ} (hT : 0 < T) (hN : T + T = N)
    (hne : (Finset.univ : Finset (Fin N)).Nonempty)
    (s : Fin N → EReal) (x : Fin N → δ → EReal)
    (hs : ∀ i, ∃ r : ℝ, s i = (r : EReal)) (hx : ∀ i d, ∃ r : ℝ, x i d = (r : EReal))
    (s0 s1 : Fin T → EReal) (x0 x1 : Fin T → δ → EReal)
    (hs0 : ∀ r : Fin T, s0 r = s ⟨r.val, by have := r.isLt; omega⟩)
    (hs1 : ∀ r : Fin T, s1 r = s ⟨T + r.val, by have := r.isLt; omega⟩)
    (hx0 : ∀ (r : Fin T) d, x0 r d = x ⟨r.val, by have := r.isLt; omega⟩ d)
    (hx1 : ∀ (r : Fin T) d, x1 r d = x ⟨T + r.val, by have := r.isLt; omega⟩ d)
    (m0 l0 m1 l1 : EReal) (acc0 acc1 : δ → EReal)
    (hm0 : m0 = max ⊥ (Finset.univ.fold max ⊥ s0))
    (hl0 : l0 = Ideal.exp (⊥ - m0) * 0 + ∑ r : Fin T, Ideal.exp (s0 r - m0))
    (hacc0 : ∀ d, acc0 d = Ideal.exp (⊥ - m0) * 0 + ∑ r : Fin T, Ideal.exp (s0 r - m0) * x0 r d)
    (hm1 : m1 = max m0 (Finset.univ.fold max ⊥ s1))
    (hl1 : l1 = Ideal.exp (m0 - m1) * l0 + ∑ r : Fin T, Ideal.exp (s1 r - m1))
    (hacc1 : ∀ d, acc1 d = Ideal.exp (m0 - m1) * acc0 d + ∑ r : Fin T, Ideal.exp (s1 r - m1) * x1 r d) :
    m1 = Finset.univ.sup' hne s
      ∧ l1 = ∑ i : Fin N, Ideal.exp (s i - Finset.univ.sup' hne s)
      ∧ ∀ d, acc1 d = ∑ i : Fin N, Ideal.exp (s i - Finset.univ.sup' hne s) * x i d := by
  obtain ⟨sr, xr, rfl, rfl⟩ := real_funs hs hx
  obtain rfl : s0 = _ := funext hs0
  obtain rfl : s1 = _ := funext hs1
  obtain rfl : x0 = _ := funext fun r => funext (hx0 r)
  obtain rfl : x1 = _ := funext fun r => funext (hx1 r)
  have hneT : (Finset.univ : Finset (Fin T)).Nonempty := ⟨⟨0, hT⟩, Finset.mem_univ _⟩

  obtain ⟨M0, hf0⟩ : ∃ M0 : ℝ, Finset.univ.fold max ⊥ (fun r : Fin T => ((sr ⟨r.val, by have := r.isLt; omega⟩ : ℝ) : EReal)) = (M0 : EReal) :=
    ⟨_, by rw [fold_max_bot_sup' _ hneT, sup'_coe]⟩
  obtain ⟨M1t, hf1⟩ : ∃ M1t : ℝ, Finset.univ.fold max ⊥ (fun r : Fin T => ((sr ⟨T + r.val, by have := r.isLt; omega⟩ : ℝ) : EReal)) = (M1t : EReal) :=
    ⟨_, by rw [fold_max_bot_sup' _ hneT, sup'_coe]⟩
  have hm0' : m0 = (M0 : EReal) := by rw [hm0, hf0, max_bot_left]
  have hm1' : m1 = ((max M0 M1t : ℝ) : EReal) := by rw [hm1, hm0', hf1, coe_max]
  have hsup : Finset.univ.sup' hne (fun i => (sr i : EReal)) = ((max M0 M1t : ℝ) : EReal) := by
    rw [Finset.sup'_eq_sup, sup_split2 T T hN, coe_max, ← hf0, ← hf1, fold_max_bot, fold_max_bot]
  rw [hsup]
  subst hm0' hm1'
  rw [e_first_l] at hl0
  have hacc0' : ∀ d, acc0 d = ((∑ r : Fin T, Real.exp (sr ⟨r.val, by have := r.isLt; omega⟩ - M0) * xr ⟨r.val, by have := r.isLt; omega⟩ d : ℝ) : EReal) :=
    fun d => by rw [hacc0 d, e_first_acc]
  refine ⟨rfl, ?_, fun d => ?_⟩
  · rw [hl1, hl0, e_step_l, e_sum, rescale_sum, sum_split2 T T hN]
  · rw [hacc1 d, hacc0' d, e_step_acc, e_wsum, rescale_wsum, sum_split2 T T hN]

theorem merge_context_abs {δ : Type*} {N H : ℕ} (hH : 0 < H) (hN : 2 * H = N)
    (hneH : (Finset.univ : Finset (Fin H)).Nonempty) (hneN : (Finset.univ : Finset (Fin N)).Nonempty)
    (row : Fin 2 → Fin H → Fin N) (hrow : ∀ j r, (row j r).val = j.val * H + r.val)
    (s : Fin N → EReal) (x : Fin N → δ → EReal)
    (hs : ∀ i, ∃ r : ℝ, s i = (r : EReal)) (hx : ∀ i d, ∃ r : ℝ, x i d = (r : EReal))
    (hm hl : Fin 2 → EReal) (ha : Fin 2 → δ → EReal)
    (hhm : ∀ j, hm j = Finset.univ.sup' hneH fun r : Fin H => s (row j r))
    (hhl : ∀ j, hl j = ∑ r : Fin H, Ideal.exp (s (row j r) - hm j))
    (hha : ∀ j d, ha j d = ∑ r : Fin H, Ideal.exp (s (row j r) - hm j) * x (row j r) d) (d : δ) :
    Ideal.div (Ideal.exp (hm 0 - max (hm 0) (hm 1)) * ha 0 d + Ideal.exp (hm 1 - max (hm 0) (hm 1)) * ha 1 d)
              (Ideal.exp (hm 0 - max (hm 0) (hm 1)) * hl 0 + Ideal.exp (hm 1 - max (hm 0) (hm 1)) * hl 1)
      = ∑ i : Fin N, Ideal.div (Ideal.exp (s i - Finset.univ.sup' hneN s)) (∑ k : Fin N, Ideal.exp (s k - Finset.univ.sup' hneN s)) * x i d := by
  have hN' : H + H = N := by omega
  obtain ⟨sr, xr, rfl, rfl⟩ := real_funs hs hx
  have hrow0 : ∀ r : Fin H, row 0 r = ⟨r.val, by have := r.isLt; omega⟩ := fun r => Fin.ext (by rw [hrow]; simp)
  have hrow1 : ∀ r : Fin H, row 1 r = ⟨H + r.val, by have := r.isLt; omega⟩ := fun r => Fin.ext (by rw [hrow]; simp)

  obtain ⟨A, hA⟩ : ∃ A : Fin 2 → ℝ, ∀ j, hm j = (A j : EReal) :=
    ⟨fun j => Finset.univ.sup' hneH fun r : Fin H => sr (row j r), fun j => by rw [hhm j, sup'_coe]⟩
  have hmax : max (hm 0) (hm 1) = ((max (A 0) (A 1) : ℝ) : EReal) := by rw [hA 0, hA 1, coe_max]
  have hsup : Finset.univ.sup' hneN (fun i => (sr i : EReal)) = ((max (A 0) (A 1) : ℝ) : EReal) := by
    rw [← hmax, hhm 0, hhm 1, Finset.sup'_eq_sup, Finset.sup'_eq_sup, Finset.sup'_eq_sup, sup_split2 H H hN']
    simp only [hrow0, hrow1]
  have hl' : ∀ j, hl j = ((∑ r : Fin H, Real.exp (sr (row j r) - A j) : ℝ) : EReal) := fun j => by
    rw [hhl j, hA j, e_sum]
  have ha' : ∀ j, ha j d = ((∑ r : Fin H, Real.exp (sr (row j r) - A j) * xr (row j r) d : ℝ) : EReal) := fun j => by
    rw [hha j d, hA j, e_wsum]
  set M : ℝ := max (A 0) (A 1) with hM

  have hnum : Ideal.exp (hm 0 - max (hm 0) (hm 1)) * ha 0 d + Ideal.exp (hm 1 - max (hm 0) (hm 1)) * ha 1 d
      = ((∑ i : Fin N, Real.exp (sr i - M) * xr i d : ℝ) : EReal) := by
    rw [hmax, ha' 0, ha' 1, hA 0, hA 1, e_merge, rescale_wsum, rescale_wsum, sum_split2 H H hN']
    simp only [hrow0, hrow1]
  have hden : Ideal.exp (hm 0 - max (hm 0) (hm 1)) * hl 0 + Ideal.exp (hm 1 - max (hm 0) (hm 1)) * hl 1
      = ((∑ i : Fin N, Real.exp (sr i - M) : ℝ) : EReal) := by
    rw [hmax, hl' 0, hl' 1, hA 0, hA 1, e_merge, rescale_sum, rescale_sum, sum_split2 H H hN']
    simp only [hrow0, hrow1]
  have hZ : (∑ i : Fin N, Real.exp (sr i - M)) ≠ 0 :=
    (Finset.sum_pos (fun i _ => Real.exp_pos _) hneN).ne'
  rw [hnum, hden, hsup, e_sum, div_coe_coe _ _ hZ, Finset.sum_div, coe_sum]
  refine Finset.sum_congr rfl fun i _ => ?_
  rw [exp_coe_sub_coe, div_coe_coe _ _ hZ, ← EReal.coe_mul, div_mul_eq_mul_div]

end Cert.Math

end
-- ==== Proof.Math.Merge.lean ====
import proofs.«409657_j24300924961385_3_alg».proof.Proof.Spec
import proofs.«409657_j24300924961385_3_alg».proof.Proof.Half
import proofs.«409657_j24300924961385_3_alg».proof.Proof.Math.OnlineE

noncomputable section

namespace Cert.Math

open scoped BigOperators
open Idealize.ShloMosaic Idealize.ShloMosaic.ValueIdx Cert.Spec

theorem merge_context (a : Args) (hfin_enc : ∀ i, ∃ r : ℝ, a.enc i = (r : EReal))
    (hfin_score : ∀ l, ∃ r : ℝ, score a l = (r : EReal)) (d : Fin 2048) :
    Ideal.div (Ideal.exp (hmax a 0 - max (hmax a 0) (hmax a 1)) * hacc a 0 d + Ideal.exp (hmax a 1 - max (hmax a 0) (hmax a 1)) * hacc a 1 d)
              (Ideal.exp (hmax a 0 - max (hmax a 0) (hmax a 1)) * hsum a 0 + Ideal.exp (hmax a 1 - max (hmax a 0) (hmax a 1)) * hsum a 1)
      = context a d :=
  merge_context_abs (δ := Fin 2048) (N := 2048) (H := 1024) (by norm_num) rfl Finset.univ_nonempty Finset.univ_nonempty
    hrow hrow_val (score a) (fun l d => a.enc (ix3 l 0 d)) hfin_score (fun l d => hfin_enc _)
    (hmax a) (hsum a) (hacc a) (fun _ => rfl) (fun _ => rfl) (fun _ _ => rfl) d

end Cert.Math

end
-- ==== Proof.HostB.lean ====
import proofs.«409657_j24300924961385_3_alg».proof.Proof.Gen.KernelIdeal.Regions
import proofs.«409657_j24300924961385_3_alg».proof.Proof.Spec
import proofs.«409657_j24300924961385_3_alg».proof.Proof.Half
import proofs.«409657_j24300924961385_3_alg».proof.Proof.Math.Merge
import proofs.«409657_j24300924961385_3_alg».proof.Proof.HostA
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

set_option maxRecDepth 4000

noncomputable section

namespace Cert.KernelIdeal.Hand

open Cert.KernelIdeal Cert.KernelIdeal.Gen
open Idealize.ShloMosaic Idealize.ShloMosaic.TcCoe Idealize.ShloMosaic.ValueIdx Idealize.ShloMosaic.StableHlo

/-- Row `o` of a two-row array, cut out and with its leading unit axis dropped, read at a column. -/
theorem hB_sliceRow_apply {α : Type} {n : ℕ} (X : (⟨3, ![2, 1, n]⟩ : Shape).Idx → α) (off : Fin 3 → ℕ) (o : Fin 2)
    (h0 : off 0 = o.val) (h1 : off 1 = 0) (h2 : off 2 = 0)
    (hs : (⟨3, ![2, 1, n]⟩ : Shape).Slices off ⟨3, ![1, 1, n]⟩)
    (hc : (⟨3, ![1, 1, n]⟩ : Shape).ShapeCasts ⟨2, ![1, n]⟩) (p : Fin 1) (d : Fin n) :
    shapeCast ⟨2, ![1, n]⟩ (extractStridedSlice ⟨3, ![1, 1, n]⟩ off X hs) hc (ix2 p d) = X (ix3 o 0 d) := by
  refine (shapeCast_1ab_ab_apply _ hc p d).trans ?_
  refine extractStridedSlice_apply off X hs _ (ix3 o 0 d) fun a => ?_
  have hp : p.val = 0 := by omega
  match a with
  | ⟨0, _⟩ => show o.val = off 0 + 0; omega
  | ⟨1, _⟩ => show (0 : ℕ) = off 1 + p.val; omega
  | ⟨2, _⟩ => show d.val = off 2 + d.val; omega

theorem hB_lift_col {m : ℕ} (h : (⟨2, ![m, 1]⟩ : Shape).Reduces [0] (⟨1, ![1]⟩ : Shape)) (u : Fin 1)
    (k : Fin ((⟨2, ![m, 1]⟩ : Shape).size 0)) : h.lift (ix1 u) k = ix2 (⟨k.val, k.isLt⟩ : Fin m) u := by
  funext c; apply Fin.ext
  fin_cases c <;> rfl

theorem hB_reduces_col : S2048x1.Reduces [0] S1 := by decide

theorem hB_hostMaxCol_apply (X : FVec Ideal S2048x1 .f32) (u : Fin 1) :
    Host.reduce FloatOps.maximumf X (constant (F := Ideal) S_ .f32 0xFF800000#32) reducesTo_S2048x1_S1_d0 h_S_ (ix1 u)
      = Finset.univ.sup' Finset.univ_nonempty (fun l : Fin 2048 => X (ix2 l u)) :=
  (hH_hostMax_single X _ hB_reduces_col _).trans
    ((Finset.sup_congr rfl fun k _ => congrArg X (hB_lift_col hB_reduces_col u k)).trans (Finset.sup'_eq_sup _ _).symm)

theorem hB_hostSumCol_apply (X : FVec Ideal S2048x1 .f32) (u : Fin 1) :
    Host.reduceAdd X (constant (F := Ideal) S_ .f32 0x00000000#32) reducesTo_S2048x1_S1_d0 h_S_ (ix1 u)
      = ∑ l : Fin 2048, X (ix2 l u) :=
  (hH_hostSum_single X _ hB_reduces_col _).trans (Finset.sum_congr rfl fun k _ => congrArg X (hB_lift_col hB_reduces_col u k))

section Softmax
variable (X : FVec Ideal S2048x1 .f32)

/-- The softmax of a column in three steps: its maximum, the shifted exponentials, their quotient by their sum. -/
def hB_smaxB : FVec Ideal S1 .f32 :=
  maximumf (broadcastInDim S1 ![] bcast_S_S1 (constant (F := Ideal) S_ .f32 0xFF800000#32))
    (Host.reduce FloatOps.maximumf X (constant (F := Ideal) S_ .f32 0xFF800000#32) reducesTo_S2048x1_S1_d0 h_S_)

def hB_sexpB : FVec Ideal S2048x1 .f32 :=
  Host.exp (subf X (broadcastInDim S2048x1 ![0, 1] bcast_S1x1_S2048x1_0_1 (broadcastInDim S1x1 ![1] bcast_S1_S1x1_1 (hB_smaxB X))))

def hB_softB : FVec Ideal S2048x1 .f32 :=
  Host.divf (hB_sexpB X)
    (broadcastInDim S2048x1 ![0, 1] bcast_S1x1_S2048x1_0_1 (broadcastInDim S1x1 ![1] bcast_S1_S1x1_1
      (Host.reduceAdd (hB_sexpB X) (constant (F := Ideal) S_ .f32 0x00000000#32) reducesTo_S2048x1_S1_d0 h_S_)))

def hB_mx : EReal := Finset.univ.sup' Finset.univ_nonempty (fun l' : Fin 2048 => X (ix2 l' 0))

theorem hB_smaxB_apply : hB_smaxB X (ix1 0) = hB_mx X := by
  show max (Ideal.ofBits .f32 0xFF800000#32)
      (Host.reduce FloatOps.maximumf X (constant (F := Ideal) S_ .f32 0xFF800000#32) reducesTo_S2048x1_S1_d0 h_S_ (ix1 0)) = _
  rw [hH_neg_inf_bits, hB_hostMaxCol_apply]
  exact max_eq_right bot_le

theorem hB_sexpB_apply (l : Fin 2048) (q : Fin 1) :
    hB_sexpB X (ix2 l q) = Ideal.exp (X (ix2 l q) - hB_mx X) := by
  show Ideal.exp (X (ix2 l q)
      - broadcastInDim S2048x1 ![0, 1] bcast_S1x1_S2048x1_0_1 (broadcastInDim S1x1 ![1] bcast_S1_S1x1_1 (hB_smaxB X)) (ix2 l q)) = _
  rw [hH_bcast11_apply, hH_bcastUnit_apply, hB_smaxB_apply]

theorem hB_softB_apply (l : Fin 2048) (q : Fin 1) :
    hB_softB X (ix2 l q)
      = Ideal.div (Ideal.exp (X (ix2 l q) - hB_mx X)) (∑ l'' : Fin 2048, Ideal.exp (X (ix2 l'' 0) - hB_mx X)) := by
  show Ideal.div (hB_sexpB X (ix2 l q))
      (broadcastInDim S2048x1 ![0, 1] bcast_S1x1_S2048x1_0_1 (broadcastInDim S1x1 ![1] bcast_S1_S1x1_1
        (Host.reduceAdd (hB_sexpB X) (constant (F := Ideal) S_ .f32 0x00000000#32) reducesTo_S2048x1_S1_d0 h_S_)) (ix2 l q)) = _
  rw [hH_bcast11_apply, hH_bcastUnit_apply, hB_hostSumCol_apply, hB_sexpB_apply]
  exact congrArg _ (Finset.sum_congr rfl fun l'' _ => hB_sexpB_apply X l'' 0)

end Softmax

section Merge
variable (Mx Lx : FVec Ideal S2x1x1 .f32) (Ax : FVec Ideal S2x1x2048 .f32)

def hB_m0B : FVec Ideal S1x1 .f32 := fun i =>
  shapeCast S1x1 (extractStridedSlice S1x1x1 ![0, 0, 0] Mx slices_S2x1x1_S1x1x1_0_0_0) shapeCasts_S1x1x1_S1x1 i
def hB_m1B : FVec Ideal S1x1 .f32 := fun i =>
  shapeCast S1x1 (extractStridedSlice S1x1x1 ![1, 0, 0] Mx slices_S2x1x1_S1x1x1_1_0_0) shapeCasts_S1x1x1_S1x1 i
def hB_acc0B : FVec Ideal S1x2048 .f32 := fun i =>
  shapeCast S1x2048 (extractStridedSlice S1x1x2048 ![0, 0, 0] Ax slices_S2x1x2048_S1x1x2048_0_0_0) shapeCasts_S1x1x2048_S1x2048 i
def hB_acc1B : FVec Ideal S1x2048 .f32 := fun i =>
  shapeCast S1x2048 (extractStridedSlice S1x1x2048 ![1, 0, 0] Ax slices_S2x1x2048_S1x1x2048_1_0_0) shapeCasts_S1x1x2048_S1x2048 i

def hB_a0B : FVec Ideal S1x1 .f32 := Host.exp (subf (hB_m0B Mx) (maximumf (hB_m0B Mx) (hB_m1B Mx)))
def hB_a1B : FVec Ideal S1x1 .f32 := Host.exp (subf (hB_m1B Mx) (maximumf (hB_m0B Mx) (hB_m1B Mx)))

/-- The two halves' weighted sums, rescaled to the common maximum, over the two halves' rescaled sums of weights. -/
def hB_ctxB : FVec Ideal S1x2048 .f32 :=
  Host.divf
    (addf (mulf (broadcastInDim S1x2048 ![0, 1] bcast_S1x1_S1x2048_0_1 (hB_a0B Mx)) (hB_acc0B Ax))
      (mulf (broadcastInDim S1x2048 ![0, 1] bcast_S1x1_S1x2048_0_1 (hB_a1B Mx)) (hB_acc1B Ax)))
    (broadcastInDim S1x2048 ![0, 1] bcast_S1x1_S1x2048_0_1
      (addf (mulf (hB_a0B Mx) (hB_m0B Lx)) (mulf (hB_a1B Mx) (hB_m1B Lx))))

theorem hB_m0B_apply (p q : Fin 1) : hB_m0B Mx (ix2 p q) = Mx (ix3 0 0 0) :=
  (hB_sliceRow_apply Mx ![0, 0, 0] 0 rfl rfl rfl slices_S2x1x1_S1x1x1_0_0_0 shapeCasts_S1x1x1_S1x1 p q).trans
    (congrArg Mx (by rw [Subsingleton.elim q 0]))
theorem hB_m1B_apply (p q : Fin 1) : hB_m1B Mx (ix2 p q) = Mx (ix3 1 0 0) :=
  (hB_sliceRow_apply Mx ![1, 0, 0] 1 rfl rfl rfl slices_S2x1x1_S1x1x1_1_0_0 shapeCasts_S1x1x1_S1x1 p q).trans
    (congrArg Mx (by rw [Subsingleton.elim q 0]))
theorem hB_acc0B_apply (p : Fin 1) (d : Fin 2048) : hB_acc0B Ax (ix2 p d) = Ax (ix3 0 0 d) :=
  hB_sliceRow_apply Ax ![0, 0, 0] 0 rfl rfl rfl slices_S2x1x2048_S1x1x2048_0_0_0 shapeCasts_S1x1x2048_S1x2048 p d
theorem hB_acc1B_apply (p : Fin 1) (d : Fin 2048) : hB_acc1B Ax (ix2 p d) = Ax (ix3 1 0 d) :=
  hB_sliceRow_apply Ax ![1, 0, 0] 1 rfl rfl rfl slices_S2x1x2048_S1x1x2048_1_0_0 shapeCasts_S1x1x2048_S1x2048 p d

def hB_w (j : Fin 2) : EReal := Ideal.exp (Mx (ix3 j 0 0) - max (Mx (ix3 0 0 0)) (Mx (ix3 1 0 0)))

theorem hB_a0B_apply (p q : Fin 1) : hB_a0B Mx (ix2 p q) = hB_w Mx 0 := by
  show Ideal.exp (hB_m0B Mx (ix2 p q) - max (hB_m0B Mx (ix2 p q)) (hB_m1B Mx (ix2 p q))) = _
  rw [hB_m0B_apply, hB_m1B_apply]
  rfl
theorem hB_a1B_apply (p q : Fin 1) : hB_a1B Mx (ix2 p q) = hB_w Mx 1 := by
  show Ideal.exp (hB_m1B Mx (ix2 p q) - max (hB_m0B Mx (ix2 p q)) (hB_m1B Mx (ix2 p q))) = _
  rw [hB_m0B_apply, hB_m1B_apply]
  rfl

theorem hB_ctxB_apply (p : Fin 1) (d : Fin 2048) :
    hB_ctxB Mx Lx Ax (ix2 p d)
      = Ideal.div (hB_w Mx 0 * Ax (ix3 0 0 d) + hB_w Mx 1 * Ax (ix3 1 0 d))
          (hB_w Mx 0 * Lx (ix3 0 0 0) + hB_w Mx 1 * Lx (ix3 1 0 0)) := by
  show Ideal.div
      (broadcastInDim S1x2048 ![0, 1] bcast_S1x1_S1x2048_0_1 (hB_a0B Mx) (ix2 p d) * hB_acc0B Ax (ix2 p d)
        + broadcastInDim S1x2048 ![0, 1] bcast_S1x1_S1x2048_0_1 (hB_a1B Mx) (ix2 p d) * hB_acc1B Ax (ix2 p d))
      (broadcastInDim S1x2048 ![0, 1] bcast_S1x1_S1x2048_0_1
        (addf (mulf (hB_a0B Mx) (hB_m0B Lx)) (mulf (hB_a1B Mx) (hB_m1B Lx))) (ix2 p d)) = _
  rw [hH_bcast11_apply, hH_bcast11_apply, hH_bcast11_apply, hB_acc0B_apply, hB_acc1B_apply]
  show Ideal.div _ (hB_a0B Mx (ix2 0 0) * hB_m0B Lx (ix2 0 0) + hB_a1B Mx (ix2 0 0) * hB_m1B Lx (ix2 0 0)) = _
  rw [hB_a0B_apply, hB_a1B_apply, hB_m0B_apply, hB_m1B_apply]

end Merge

section Comb
variable (E : FVec Ideal S1x1024 .f32) (C : FVec Ideal S1x2048 .f32) (Hd : FVec Ideal S1x1024 .f32)

def hB_combB : FVec Ideal S1x4096 .f32 :=
  concatenate S1x4096 1
    [⟨S1x3072, concatenate S1x3072 1 [⟨S1x1024, E⟩, ⟨S1x2048, C⟩] concatenates_S1x1024_S1x2048_S1x3072_d1⟩, ⟨S1x1024, Hd⟩]
    concatenates_S1x3072_S1x1024_S1x4096_d1

theorem hB_combB_apply_emb (k : Fin 4096) (h1 : k.val < 1024) : hB_combB E C Hd (ix2 0 k) = E (ix2 0 ⟨k.val, h1⟩) := by
  unfold hB_combB
  refine (concatenate_pair_apply_left _ _ Hd concatenates_S1x3072_S1x1024_S1x4096_d1 (ix2 0 k) rfl
    (ix2 0 (⟨k.val, by omega⟩ : Fin 3072)) ?_).trans ?_
  · intro b
    match b with
    | ⟨0, _⟩ => rfl
    | ⟨1, _⟩ => rfl
  · refine concatenate_pair_apply_left _ E C concatenates_S1x1024_S1x2048_S1x3072_d1 _ rfl (ix2 0 ⟨k.val, h1⟩) ?_
    intro b
    match b with
    | ⟨0, _⟩ => rfl
    | ⟨1, _⟩ => rfl

theorem hB_combB_apply_ctx (k : Fin 4096) (h1 : 1024 ≤ k.val) (h2 : k.val < 3072) :
    hB_combB E C Hd (ix2 0 k) = C (ix2 0 ⟨k.val - 1024, by omega⟩) := by
  unfold hB_combB
  refine (concatenate_pair_apply_left _ _ Hd concatenates_S1x3072_S1x1024_S1x4096_d1 (ix2 0 k) rfl
    (ix2 0 (⟨k.val, h2⟩ : Fin 3072)) ?_).trans ?_
  · intro b
    match b with
    | ⟨0, _⟩ => rfl
    | ⟨1, _⟩ => rfl
  · refine concatenate_pair_apply_right _ E C concatenates_S1x1024_S1x2048_S1x3072_d1 _ rfl rfl
      (ix2 0 (⟨k.val - 1024, by omega⟩ : Fin 2048)) ?_ ?_
    · intro b hb
      match b, hb with
      | ⟨0, _⟩, _ => rfl
      | ⟨1, _⟩, hb => exact absurd rfl hb
    · show (k.val - 1024) + 1024 = k.val
      omega

theorem hB_combB_apply_hid (k : Fin 4096) (h3 : 3072 ≤ k.val) :
    hB_combB E C Hd (ix2 0 k) = Hd (ix2 0 ⟨k.val - 3072, by have := k.isLt; omega⟩) := by
  unfold hB_combB
  refine concatenate_pair_apply_right _ _ Hd concatenates_S1x3072_S1x1024_S1x4096_d1 (ix2 0 k) rfl rfl
    (ix2 0 (⟨k.val - 3072, by have := k.isLt; omega⟩ : Fin 1024)) ?_ ?_
  · intro b hb
    match b, hb with
    | ⟨0, _⟩, _ => rfl
    | ⟨1, _⟩, hb => exact absurd rfl hb
  · show (k.val - 3072) + 3072 = k.val
    omega

end Comb

variable (W : Valuation τ sig (Elt Ideal)) (a : Cert.Spec.Args)

theorem hB_after_v52 :
    StableHlo.after (hostOps1 (F := Ideal)) W (Proc.devRef .tc main_v52) = hB_softB (W main_v14_0) := by
  after_results_simp <;> rfl

theorem hB_after_v41 :
    StableHlo.after (hostOps1 (F := Ideal)) W (Proc.devRef .tc main_v41) = hB_ctxB (W main_v14_1) (W main_v14_2) (W main_v14_3) := by
  after_results_simp <;> rfl

/-- Run in two parts, so that the context row enters the concatenation under one name. -/
theorem hB_after_v54 :
    StableHlo.after (hostOps1 (F := Ideal)) W (Proc.devRef .tc main_v54)
      = hB_combB (W main_v10) (hB_ctxB (W main_v14_1) (W main_v14_2) (W main_v14_3)) (W main_arg1) := by
  have h : StableHlo.after (List.take 41 (hostOps1 (F := Ideal))) W (Proc.devRef .tc main_v41)
        = hB_ctxB (W main_v14_1) (W main_v14_2) (W main_v14_3)
      ∧ StableHlo.after (List.take 41 (hostOps1 (F := Ideal))) W (Proc.devRef .tc main_v10) = W main_v10
      ∧ StableHlo.after (List.take 41 (hostOps1 (F := Ideal))) W (Proc.devRef .tc main_arg1) = W main_arg1 := by
    refine ⟨?_, ?_, ?_⟩ <;> (simp only [List.take_succ_cons, List.take_zero]; after_results_simp <;> rfl)
  rw [hH_after_take_drop 41]
  generalize StableHlo.after (List.take 41 (hostOps1 (F := Ideal))) W = V at h ⊢
  simp only [List.drop_succ_cons, List.drop_zero]
  after_results
  rw [h.1, h.2.1, h.2.2]
  rfl

theorem hostB_attnW (hs : W main_v14_0 = Cert.Spec.scoreArr a) :
    StableHlo.after (hostOps1 (F := Ideal)) W main_v52 = Cert.Spec.attnWArr a := by
  funext i
  obtain ⟨l, q, rfl⟩ : ∃ (l : Fin 2048) (q : Fin 1), i = ix2 l q := ⟨i 0, i 1, eq_ix2 i⟩
  refine (congrFun (hB_after_v52 W) (ix2 l q)).trans ?_
  rw [hs, hB_softB_apply]
  simp only [Cert.Spec.scoreArr_apply]
  rfl

/-- Merging the two halves' partial results gives the softmax average over all rows. -/
theorem hostB_context
    (hm : ∀ j : Fin 2, W main_v14_1 (ix3 j 0 0) = Cert.Spec.hmax a j)
    (hl : ∀ j : Fin 2, W main_v14_2 (ix3 j 0 0) = Cert.Spec.hsum a j)
    (hacc : ∀ (j : Fin 2) (d : Fin 2048), W main_v14_3 (ix3 j 0 d) = Cert.Spec.hacc a j d)
    (hfin_enc : ∀ i, ∃ r : ℝ, a.enc i = (r : EReal))
    (hfin_score : ∀ l, ∃ r : ℝ, Cert.Spec.score a l = (r : EReal)) :
    StableHlo.after (hostOps1 (F := Ideal)) W main_v41 = Cert.Spec.contextArr a := by
  funext i
  obtain ⟨p, d, rfl⟩ : ∃ (p : Fin 1) (d : Fin 2048), i = ix2 p d := ⟨i 0, i 1, eq_ix2 i⟩
  refine (congrFun (hB_after_v41 W) (ix2 p d)).trans ?_
  rw [hB_ctxB_apply]
  unfold hB_w
  rw [hm 0, hm 1, hl 0, hl 1, hacc 0 d, hacc 1 d, Cert.Spec.contextArr_apply]
  exact Cert.Math.merge_context a hfin_enc hfin_score d

theorem hostB_comb (h41 : StableHlo.after (hostOps1 (F := Ideal)) W main_v41 = Cert.Spec.contextArr a)
    (h10 : W main_v10 = Cert.Spec.embArr a) (h1 : W main_arg1 = a.hid) (k : Fin 4096) :
    StableHlo.after (hostOps1 (F := Ideal)) W main_v54 (ix2 0 k) = Cert.Spec.comb a k := by
  have hC : hB_ctxB (W main_v14_1) (W main_v14_2) (W main_v14_3) = Cert.Spec.contextArr a := (hB_after_v41 W).symm.trans h41
  refine (congrFun (hB_after_v54 W) (ix2 0 k)).trans ?_
  rw [hC, h10, h1]
  unfold Cert.Spec.comb
  by_cases c1 : k.val < 1024
  · rw [dif_pos c1, hB_combB_apply_emb _ _ _ k c1]
    rfl
  · rw [dif_neg c1]
    by_cases c2 : k.val < 3072
    · rw [dif_pos c2, hB_combB_apply_ctx _ _ _ k (by omega) c2]
      rfl
    · rw [dif_neg c2, hB_combB_apply_hid _ _ _ k (by omega)]

/-- Each gate's bias vector, laid out as a row, keeps its entries. -/
theorem hostB_bias (h11 : W main_arg11 = a.bi) (h13 : W main_arg13 = a.bo) (h15 : W main_arg15 = a.bf) (h17 : W main_arg17 = a.bc)
    (j : Fin 1024) :
    StableHlo.after (hostOps1 (F := Ideal)) W (Proc.devRef .tc main_v55) (ix2 0 j) = a.bi (ix1 j)
      ∧ StableHlo.after (hostOps1 (F := Ideal)) W (Proc.devRef .tc main_v56) (ix2 0 j) = a.bo (ix1 j)
      ∧ StableHlo.after (hostOps1 (F := Ideal)) W (Proc.devRef .tc main_v57) (ix2 0 j) = a.bf (ix1 j)
      ∧ StableHlo.after (hostOps1 (F := Ideal)) W (Proc.devRef .tc main_v58) (ix2 0 j) = a.bc (ix1 j) := by
  rw [← h11, ← h13, ← h15, ← h17]
  refine ⟨?_, ?_, ?_, ?_⟩ <;> (after_results_simp; exact shapeCast_a_1a_apply _ _ 0 j)

end Cert.KernelIdeal.Hand

end
-- ==== Proof.R0.ValPay.lean ====
import proofs.«409657_j24300924961385_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

set_option maxRecDepth 16384

noncomputable section

namespace Cert.KernelIdeal.Hand

open Cert.KernelIdeal Cert.KernelIdeal.Gen
open Idealize.ShloMosaic Idealize.ShloMosaic.ValueIdx

/-- The score of row `r` of a block `x`: a tanh layer over the row (`hs` its hidden-state term), then a row of weights. -/
def r0v_sc (x : FVec Ideal S512x2048 .f32) (w : FVec Ideal S2048x1024 .f32) (hs : FVec Ideal S1x1024 .f32)
    (wo : FVec Ideal S1024x1 .f32) (bo : FVec Ideal S1x1 .f32) (r : Fin 512) : EReal :=
  (∑ j : Fin 1024, Ideal.tanh ((∑ k : Fin 2048, x (ix2 r k) * w (ix2 k j)) + hs (ix2 0 j)) * wo (ix2 j 0)) + bo (ix2 0 0)

def r0v_top512 (s : Fin 512 → EReal) : EReal := (Finset.univ : Finset (Fin 512)).fold max ⊥ s

theorem r0v_ofBits_neg_inf_f32 : Ideal.ofBits .f32 0xFF800000#32 = ⊥ := by
  simp [Ideal.ofBits, Ideal.ieee]

/-- A column broadcast along its rows reads, at `(r, d)`, the column at `r`. -/
theorem r0v_bc_a1_ab {α : Type} {a b : ℕ} (v : (⟨2, ![a, 1]⟩ : Shape).Idx → α) (h : (⟨2, ![a, 1]⟩ : Shape).Broadcasts ⟨2, ![a, b]⟩)
    (r : Fin a) (d : Fin b) : broadcastTo ⟨2, ![a, b]⟩ v h (ix2 r d) = v (ix2 r (0 : Fin 1)) := by
  refine broadcastTo_apply v h (ix2 r d) (ix2 r (0 : Fin 1)) fun ax => ?_
  match ax with
  | ⟨0, _⟩ =>
    show r.val = if a = 1 then 0 else r.val
    split
    · have := r.isLt; omega
    · rfl
  | ⟨1, _⟩ => rfl

/-- The index a reduction over the rows of an `[n, b]` block inserts. -/
theorem r0v_lift0 {n b : ℕ} (h : (⟨2, ![n, b]⟩ : Shape).Reduces [0] ⟨1, ![b]⟩) (d : Fin b) (r : Fin n) :
    h.lift (ix1 d) r = ix2 r d :=
  funext fun a => Fin.ext (by
    match a with
    | ⟨0, _⟩ => rfl
    | ⟨1, _⟩ => rfl)

theorem r0v_colmax_apply (s : FVec Ideal S512x1 .f32) (hφ : FKind.Formats .f32)
    (hacc : (0xFF800000#32 : BitVec 32) = 0xFF800000#32) :
    multiReduction .maximumf [0] S1 s 0xFF800000#32 reduces_S512x1_S1 hφ hacc (ix1 0) = r0v_top512 (fun r => s (ix2 r 0)) := by
  refine (Ideal.multiReduction_maximumf_single s _ reduces_S512x1_S1 hφ hacc (ix1 0)).trans ?_
  show (Finset.univ : Finset (Fin 512)).fold max (Ideal.ofBits .f32 0xFF800000#32) (fun r => s (reduces_S512x1_S1.lift (ix1 0) r)) = _
  rw [r0v_ofBits_neg_inf_f32]
  exact congrArg r0v_top512 (funext fun r => congrArg s (r0v_lift0 _ 0 r))

/-- The sum down the rows of an `[n, b]` block, at column `d`. -/
theorem r0v_rowsum_apply {n b : ℕ} (v : FVec Ideal ⟨2, ![n, b]⟩ .f32) (h : (⟨2, ![n, b]⟩ : Shape).Reduces [0] ⟨1, ![b]⟩)
    (hφ : FKind.Formats .f32) (hacc : (0x00000000#32 : BitVec 32) = 0x00000000#32) (d : Fin b) :
    multiReduction .add [0] ⟨1, ![b]⟩ v 0x00000000#32 h hφ hacc (ix1 d) = ∑ r : Fin n, v (ix2 r d) :=
  (Ideal.multiReduction_add_single v _ h hφ hacc (ix1 d)).trans
    (Finset.sum_congr rfl fun r _ => congrArg v (r0v_lift0 h d r))

/-- A plain matrix product into a zero accumulator, at an index: the sum of the products over the contracted index. -/
theorem r0v_mm_apply {M K N : ℕ} {φ₁ φ₂ : FTy} (x : FVec Ideal ⟨2, ![M, K]⟩ φ₁) (w : FVec Ideal ⟨2, ![K, N]⟩ φ₂) (r : Fin M) (j : Fin N) :
    FloatOps.matmul (DotDims.plain M K N) none x w (constant (F := Ideal) ⟨2, ![M, N]⟩ .f32 0x00000000#32) (ix2 r j)
      = ∑ k : Fin K, x (ix2 r k) * w (ix2 k j) :=
  (congrFun (matmul_zero_eq_dotGeneral _ none x w) _).trans (StackMember.dotGeneral_plain_apply none x w r j)

variable (x : FVec Ideal S512x2048 .f32) (w : FVec Ideal S2048x1024 .f32) (hs : FVec Ideal S1x1024 .f32)
  (wo : FVec Ideal S1024x1 .f32) (bo : FVec Ideal S1x1 .f32) (m l : FVec Ideal S1x1 .f32) (acc : FVec Ideal S1x2048 .f32)

theorem r0v_pay11_eq : k0_pay11 (F := Ideal) x = x := shapeCast_self _ _

theorem r0v_pay12_apply (r : Fin 512) (q : Fin 1) : k0_pay12 (F := Ideal) x w hs wo bo (ix2 r q) = r0v_sc x w hs wo bo r := by
  obtain rfl : q = 0 := Subsingleton.elim _ _
  unfold k0_pay12 r0v_sc
  rw [r0v_pay11_eq]
  show FloatOps.matmul (F := Ideal) (DotDims.plain 512 1024 1) none _ _ _ (ix2 r 0)
      + broadcastTo S512x1 (shapeCast S1x1 bo shapeCasts_S1x1_S1x1) broadcasts_S1x1_S512x1 (ix2 r 0) = _
  rw [r0v_mm_apply, broadcastTo_1b_ab_apply, shapeCast_self]
  refine congrArg (· + bo (ix2 0 0)) (Finset.sum_congr rfl fun j _ => ?_)
  show Ideal.tanh (FloatOps.matmul (F := Ideal) (DotDims.plain 512 2048 1024) none _ _ _ (ix2 r j)
      + broadcastTo S512x1024 hs broadcasts_S1x1024_S512x1024 (ix2 r j)) * wo (ix2 j 0) = _
  rw [r0v_mm_apply, broadcastTo_1b_ab_apply]
  rfl

theorem r0v_pay10_apply (hid : FVec Ideal S1x1024 .f32) (whi : FVec Ideal S1024x1024 .f32) (b : FVec Ideal S1x1024 .f32) (j : Fin 1024) :
    k0_pay10 (F := Ideal) hid whi b (ix2 0 j) = (∑ k : Fin 1024, hid (ix2 0 k) * whi (ix2 k j)) + b (ix2 0 j) := by
  unfold k0_pay10
  simp only [shapeCast_self]
  show FloatOps.matmul (F := Ideal) (DotDims.plain 1 1024 1024) none _ _ _ (ix2 0 j) + b (ix2 0 j) = _
  rw [r0v_mm_apply]
  rfl

/-- The running maximum after the block. -/
def r0v_newMax : EReal := max (m (ix2 0 0)) (r0v_top512 (r0v_sc x w hs wo bo))

theorem r0v_pay13_apply : k0_pay13 (F := Ideal) x w hs wo bo m (ix2 0 0) = r0v_newMax x w hs wo bo m := by
  unfold k0_pay13 r0v_newMax
  show max (m (ix2 0 0)) (shapeCast S1x1 (multiReduction .maximumf [0] S1 (k0_pay12 (F := Ideal) x w hs wo bo) 0xFF800000#32
      reduces_S512x1_S1 (.inl rfl) rfl) shapeCasts_S1_S1x1 (ix2 0 0)) = _
  rw [shapeCast_a_1a_apply, r0v_colmax_apply]
  exact congrArg (max (m (ix2 0 0))) (congrArg r0v_top512 (funext fun r => r0v_pay12_apply x w hs wo bo r 0))

theorem r0v_pay14_apply : k0_pay14 (F := Ideal) x w hs wo bo m (ix2 0 0) = Ideal.exp (m (ix2 0 0) - r0v_newMax x w hs wo bo m) :=
  congrArg (fun z => Ideal.exp (m (ix2 0 0) - z)) (r0v_pay13_apply x w hs wo bo m)

theorem r0v_pay15_apply (r : Fin 512) :
    k0_pay15 (F := Ideal) x w hs wo bo m (ix2 r 0) = Ideal.exp (r0v_sc x w hs wo bo r - r0v_newMax x w hs wo bo m) := by
  unfold k0_pay15
  show Ideal.exp (k0_pay12 (F := Ideal) x w hs wo bo (ix2 r 0)
      - broadcastTo S512x1 (k0_pay13 (F := Ideal) x w hs wo bo m) broadcasts_S1x1_S512x1 (ix2 r 0)) = _
  rw [r0v_pay12_apply, broadcastTo_1b_ab_apply, r0v_pay13_apply]

theorem r0v_pay16_apply :
    k0_pay16 (F := Ideal) x w hs wo bo m l (ix2 0 0) = Ideal.exp (m (ix2 0 0) - r0v_newMax x w hs wo bo m) * l (ix2 0 0) :=
  congrArg (· * l (ix2 0 0)) (r0v_pay14_apply x w hs wo bo m)

theorem r0v_pay17_apply :
    k0_pay17 (F := Ideal) x w hs wo bo m (ix1 0) = ∑ r : Fin 512, Ideal.exp (r0v_sc x w hs wo bo r - r0v_newMax x w hs wo bo m) :=
  (r0v_rowsum_apply _ _ (.inl rfl) rfl 0).trans (Finset.sum_congr rfl fun r _ => r0v_pay15_apply x w hs wo bo m r)

theorem r0v_pay1_apply (v32 : FVec Ideal S1x1 .f32) (v33 : FVec Ideal S1 .f32) :
    k0_pay1 (F := Ideal) v32 v33 (ix2 0 0) = v32 (ix2 0 0) + v33 (ix1 0) := by
  unfold k0_pay1
  rw [shapeCast_self]
  show v32 (ix2 0 0) + shapeCast S1x1 v33 shapeCasts_S1_S1x1 (ix2 0 0) = _
  rw [shapeCast_a_1a_apply]

theorem r0v_pay2_apply (v4 : FVec Ideal S512x2048 .f32) (v27 : FVec Ideal S1x1 .f32) (v30 : FVec Ideal S512x1 .f32)
    (v43 : FVec Ideal S1x2048 .f32) (d : Fin 2048) :
    k0_pay2 (F := Ideal) v4 v27 v30 v43 (ix2 0 d) = v27 (ix2 0 0) * v43 (ix2 0 d) + ∑ r : Fin 512, v30 (ix2 r 0) * v4 (ix2 r d) := by
  unfold k0_pay2
  rw [shapeCast_self]
  show broadcastTo S1x2048 v27 broadcasts_S1x1_S1x2048 (ix2 0 d) * v43 (ix2 0 d)
      + shapeCast S1x2048 (multiReduction .add [0] S2048 (mulf (broadcastTo S512x2048 v30 broadcasts_S512x1_S512x2048) v4)
          0x00000000#32 reduces_S512x2048_S2048 (.inl rfl) rfl) shapeCasts_S2048_S1x2048 (ix2 0 d) = _
  rw [r0v_bc_a1_ab, shapeCast_a_1a_apply, r0v_rowsum_apply]
  refine congrArg (v27 (ix2 0 0) * v43 (ix2 0 d) + ·) (Finset.sum_congr rfl fun r _ => ?_)
  show broadcastTo S512x2048 v30 broadcasts_S512x1_S512x2048 (ix2 r d) * v4 (ix2 r d) = _
  rw [r0v_bc_a1_ab]

theorem r0v_pay3_eq (v : FVec Ideal S1x1 .f32) : k0_pay3 (F := Ideal) v = v := shapeCast_self _ _

/-- A leading unit axis added to an array changes no entry. -/
theorem r0v_pay4_apply (v : FVec Ideal S1x1 .f32) : k0_pay4 (F := Ideal) v (ix3 0 0 0) = v (ix2 0 0) :=
  shapeCast_ab_1ab_apply _ _ _ _ _

theorem r0v_pay5_apply (v : FVec Ideal S1x1 .f32) : k0_pay5 (F := Ideal) v (ix3 0 0 0) = v (ix2 0 0) :=
  shapeCast_ab_1ab_apply _ _ _ _ _

theorem r0v_pay6_apply (v : FVec Ideal S1x2048 .f32) (d : Fin 2048) : k0_pay6 (F := Ideal) v (ix3 0 0 d) = v (ix2 0 d) :=
  shapeCast_ab_1ab_apply _ _ _ _ _

theorem r0v_pay7_apply (i : S1x1.Idx) : (k0_pay7 (F := Ideal)) i = ⊥ := r0v_ofBits_neg_inf_f32

theorem r0v_pay8_apply (i : S1x1.Idx) : (k0_pay8 (F := Ideal)) i = 0 := Ideal.ofBits_zero_f32

theorem r0v_pay9_apply (i : S1x2048.Idx) : (k0_pay9 (F := Ideal)) i = 0 := Ideal.ofBits_zero_f32

end Cert.KernelIdeal.Hand

end
-- ==== Proof.R0.ValStep.lean ====
import proofs.«409657_j24300924961385_3_alg».proof.Proof.R0.Dat
import proofs.«409657_j24300924961385_3_alg».proof.Proof.R0.ValPay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))
variable (c : Dev nD) (t : Fin cfg0.N) (s : Scr0 Ideal)

/-- The scores of the block point `t` reads, from a scratch state `s`. -/
def r0v_scAt (r : Fin 512) : EReal :=
  r0v_sc (blk0 V c 0 t) (wlo0 V c t) s.ht (blk0 V c 5 t) (blk0 V c 6 t) r

/-- One step replaces the maximum by the larger of it and the block's largest score, -/
theorem r0v_stepAt0_m :
    (stepAt0 V c t s).m (ix2 0 0) = max (s.m (ix2 0 0)) ((Finset.univ : Finset (Fin 512)).fold max ⊥ (r0v_scAt V c t s)) := by
  show k0_pay3 (F := Ideal) (k0_pay13 (F := Ideal) _ _ _ _ _ _) (ix2 0 0) = _
  rw [r0v_pay3_eq, r0v_pay13_apply]
  rfl

/-- rescales the running sum to the new maximum and adds the block's shifted exponentials, -/
theorem r0v_stepAt0_l :
    (stepAt0 V c t s).l (ix2 0 0)
      = Ideal.exp (s.m (ix2 0 0) - (stepAt0 V c t s).m (ix2 0 0)) * s.l (ix2 0 0)
        + ∑ r : Fin 512, Ideal.exp (r0v_scAt V c t s r - (stepAt0 V c t s).m (ix2 0 0)) := by
  rw [r0v_stepAt0_m]
  show k0_pay1 (F := Ideal) (k0_pay16 (F := Ideal) _ _ _ _ _ _ _) (k0_pay17 (F := Ideal) _ _ _ _ _ _) (ix2 0 0) = _
  rw [r0v_pay1_apply, r0v_pay16_apply, r0v_pay17_apply]
  rfl

/-- and does the same to the running sum of rows, each row weighted by its exponential. -/
theorem r0v_stepAt0_acc (d : Fin 2048) :
    (stepAt0 V c t s).acc (ix2 0 d)
      = Ideal.exp (s.m (ix2 0 0) - (stepAt0 V c t s).m (ix2 0 0)) * s.acc (ix2 0 d)
        + ∑ r : Fin 512, Ideal.exp (r0v_scAt V c t s r - (stepAt0 V c t s).m (ix2 0 0)) * blk0 V c 0 t (ix2 r d) := by
  rw [r0v_stepAt0_m]
  show k0_pay2 (F := Ideal) (k0_pay11 (F := Ideal) _) (k0_pay14 (F := Ideal) _ _ _ _ _ _) (k0_pay15 (F := Ideal) _ _ _ _ _ _) _ (ix2 0 d) = _
  rw [r0v_pay2_apply, r0v_pay14_apply, r0v_pay11_eq]
  exact congrArg (_ + ·) (Finset.sum_congr rfl fun r _ => by rw [r0v_pay15_apply]; rfl)

end Cert.KernelIdeal.Hand

end
-- ==== Proof.R0.ValBlk.lean ====
import proofs.«409657_j24300924961385_3_alg».proof.Proof.R0.Dat
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- Coordinate `a` of where a unit-stride rank-2 block at offsets `(o0, o1)` sends an index `y`. -/
theorem r0v_emb2 (a : Fin 2) {ix sz s s' : Fin 2 → ℕ} {o0 o1 : ℕ} (h : ix 0 * sz 0 = o0 ∧ ix 1 * sz 1 = o1)
    (y : (⟨2, s⟩ : Shape).Idx) (z : (⟨2, s'⟩ : Shape).Idx) (e0 : o0 + (y 0).val = (z 0).val) (e1 : o1 + (y 1).val = (z 1).val) :
    ix a * sz a + 1 * (y a).val = (z a).val := by
  match a with
  | ⟨0, _⟩ => show ix 0 * sz 0 + 1 * (y 0).val = (z 0).val; rw [h.1, Nat.one_mul, e0]
  | ⟨1, _⟩ => show ix 1 * sz 1 + 1 * (y 1).val = (z 1).val; rw [h.2, Nat.one_mul, e1]

theorem r0v_off0_0 : ∀ t : Fin grid0.N, win0_0.index t 0 * win0_0.size 0 = t.val * 512 ∧ win0_0.index t 1 * win0_0.size 1 = 0 := by decide +kernel
theorem r0v_off0_1 : ∀ t : Fin grid0.N, win0_1.index t 0 * win0_1.size 0 = 0 ∧ win0_1.index t 1 * win0_1.size 1 = 0 := by decide +kernel
theorem r0v_off0_2 : ∀ t : Fin grid0.N, win0_2.index t 0 * win0_2.size 0 = 0 ∧ win0_2.index t 1 * win0_2.size 1 = 0 := by decide +kernel
theorem r0v_off0_3 : ∀ t : Fin grid0.N, win0_3.index t 0 * win0_3.size 0 = 2048 ∧ win0_3.index t 1 * win0_3.size 1 = 0 := by decide +kernel
theorem r0v_off0_4 : ∀ t : Fin grid0.N, win0_4.index t 0 * win0_4.size 0 = 0 ∧ win0_4.index t 1 * win0_4.size 1 = 0 := by decide +kernel
theorem r0v_off0_5 : ∀ t : Fin grid0.N, win0_5.index t 0 * win0_5.size 0 = 0 ∧ win0_5.index t 1 * win0_5.size 1 = 0 := by decide +kernel
theorem r0v_off0_6 : ∀ t : Fin grid0.N, win0_6.index t 0 * win0_6.size 0 = 0 ∧ win0_6.index t 1 * win0_6.size 1 = 0 := by decide +kernel
/-- Window 2's blocks lie inside its array. -/
theorem r0v_xsize0_2 : ∀ t : Fin grid0.N, ∀ a, win0_2.xsize (grid0.coords t) a = win0_2.size a := by decide +kernel

/-- A block read at an index is the array read at the block's offsets plus that index. -/
theorem r0v_blk0_0_apply (c : Dev nD) (t : Fin cfg0.N) (r : Fin 512) (k : Fin 2048) :
    blk0 V c 0 t (ix2 r k)
      = V c main_v11 (ix2 (⟨t.val * 512 + r.val, by have := t.isLt; have hN : cfg0.N = 4 := N_0; omega⟩ : Fin 2048) k) :=
  congrArg (V c main_v11) (funext fun a => Fin.ext (r0v_emb2 a (r0v_off0_0 t) (ix2 r k) _ rfl (Nat.zero_add _)))

theorem r0v_blk0_1_apply (c : Dev nD) (t : Fin cfg0.N) (p : Fin 1) (k : Fin 1024) :
    blk0 V c 1 t (ix2 p k) = V c main_arg1 (ix2 p k) :=
  congrArg (V c main_arg1) (funext fun a => Fin.ext (r0v_emb2 a (r0v_off0_1 t) (ix2 p k) (ix2 p k) (Nat.zero_add _) (Nat.zero_add _)))

theorem r0v_blk0_3_apply (c : Dev nD) (t : Fin cfg0.N) (k j : Fin 1024) :
    blk0 V c 3 t (ix2 k j) = V c main_arg6 (ix2 (⟨2048 + k.val, by omega⟩ : Fin 3072) j) :=
  congrArg (V c main_arg6) (funext fun a => Fin.ext (r0v_emb2 a (r0v_off0_3 t) (ix2 k j) _ rfl (Nat.zero_add _)))

theorem r0v_blk0_4_apply (c : Dev nD) (t : Fin cfg0.N) (p : Fin 1) (j : Fin 1024) :
    blk0 V c 4 t (ix2 p j) = V c main_v12 (ix2 p j) :=
  congrArg (V c main_v12) (funext fun a => Fin.ext (r0v_emb2 a (r0v_off0_4 t) (ix2 p j) (ix2 p j) (Nat.zero_add _) (Nat.zero_add _)))

theorem r0v_blk0_5_apply (c : Dev nD) (t : Fin cfg0.N) (j : Fin 1024) (q : Fin 1) :
    blk0 V c 5 t (ix2 j q) = V c main_arg8 (ix2 j q) :=
  congrArg (V c main_arg8) (funext fun a => Fin.ext (r0v_emb2 a (r0v_off0_5 t) (ix2 j q) (ix2 j q) (Nat.zero_add _) (Nat.zero_add _)))

theorem r0v_blk0_6_apply (c : Dev nD) (t : Fin cfg0.N) (p q : Fin 1) :
    blk0 V c 6 t (ix2 p q) = V c main_v13 (ix2 p q) :=
  congrArg (V c main_v13) (funext fun a => Fin.ext (r0v_emb2 a (r0v_off0_6 t) (ix2 p q) (ix2 p q) (Nat.zero_add _) (Nat.zero_add _)))

/-- Window 2's block, whole, is rows `0 … 2047` of the attention weights. -/
theorem r0v_wlo0_apply (c : Dev nD) (t : Fin cfg0.N) (k : Fin 2048) (j : Fin 1024) :
    wlo0 V c t (ix2 k j) = V c main_arg6 (ix2 (⟨k.val, by omega⟩ : Fin 3072) j) := by
  have hmv : win0_2.moved (grid0.coords t) (ix2 k j) = true :=
    (win0_2.moved_iff (grid0.coords t) (ix2 k j)).mpr fun a => by rw [r0v_xsize0_2]; exact (ix2 k j a).isLt
  show win0_2.fill (grid0.coords t) _ (blk0 V c 2 t) (ix2 k j) = _
  unfold Pipeline.Window.fill
  rw [dif_pos hmv]
  exact congrArg (V c main_arg6) (funext fun a => Fin.ext (r0v_emb2 a (r0v_off0_2 t) _ _ (Nat.zero_add _) (Nat.zero_add _)))

end Cert.KernelIdeal.Hand

end
-- ==== Proof.R0.ValArr.lean ====
import proofs.«409657_j24300924961385_3_alg».proof.Proof.R0.Dat
import proofs.«409657_j24300924961385_3_alg».proof.Proof.R0.ValStep
import proofs.«409657_j24300924961385_3_alg».proof.Proof.R0.ValBlk
import proofs.«409657_j24300924961385_3_alg».proof.Proof.Half
import proofs.«409657_j24300924961385_3_alg».proof.Proof.Math.SpecSplit
import proofs.«409657_j24300924961385_3_alg».proof.Proof.Math.OnlineE
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))
variable (a : Cert.Spec.Args) (c : Dev nD)

/-- Row `r` of the block of 512 encoder rows point `t` reads. -/
def r0v_trow (t : Fin cfg0.N) (r : Fin 512) : Fin 2048 :=
  ⟨t.val * 512 + r.val, by have := t.isLt; have hN : cfg0.N = 4 := N_0; omega⟩

/-- The hidden row's term of the tanh layer, bias included. -/
def r0v_hterm (j : Fin 1024) : EReal :=
  (∑ k : Fin 1024, a.hid (ix2 0 k) * a.Wattn (ix2 (⟨2048 + k.val, by have := k.isLt; omega⟩ : Fin 3072) j)) + a.battn (ix1 j)

section Spec
variable (hV11 : ∀ l k, V c main_v11 (ix2 l k) = a.enc (ix3 l 0 k)) (hV1 : V c main_arg1 = a.hid)
  (hV6 : V c main_arg6 = a.Wattn) (hV12 : ∀ j, V c main_v12 (ix2 0 j) = a.battn (ix1 j))
  (hV8 : V c main_arg8 = a.Wao) (hV13 : V c main_v13 (ix2 0 0) = a.bao (ix1 0))

include hV1 hV6 hV12 in
/-- The reset computes the hidden row's term. -/
theorem r0v_initAt0_ht (t : Fin cfg0.N) (j : Fin 1024) : (initAt0 V c t).ht (ix2 0 j) = r0v_hterm a j := by
  refine (r0v_pay10_apply _ _ _ j).trans ?_
  unfold r0v_hterm
  rw [r0v_blk0_4_apply, hV12]
  refine congrArg (· + a.battn (ix1 j)) (Finset.sum_congr rfl fun k _ => ?_)
  rw [r0v_blk0_1_apply, r0v_blk0_3_apply, hV1, hV6]

theorem r0v_initAt0_m (t : Fin cfg0.N) : (initAt0 V c t).m (ix2 0 0) = ⊥ := r0v_pay7_apply (ix2 0 0)
theorem r0v_initAt0_l (t : Fin cfg0.N) : (initAt0 V c t).l (ix2 0 0) = 0 := r0v_pay8_apply (ix2 0 0)
theorem r0v_initAt0_acc (t : Fin cfg0.N) (d : Fin 2048) : (initAt0 V c t).acc (ix2 0 d) = 0 := r0v_pay9_apply (ix2 0 d)

include hV1 hV6 hV12 in
theorem r0v_scrMid0_ht (t : Fin cfg0.N) (j : Fin 1024) : (scrMid0 V c t).ht (ix2 0 j) = r0v_hterm a j := by
  unfold scrMid0
  split
  · exact r0v_initAt0_ht V a c hV1 hV6 hV12 t j
  · exact r0v_initAt0_ht V a c hV1 hV6 hV12 (prev0 t) j

include hV11 hV6 hV8 hV13 in
/-- The block's scores are the specification's scores of its rows. -/
theorem r0v_scAt_eq (t : Fin cfg0.N) (s : Scr0 Ideal) (hs : ∀ j, s.ht (ix2 0 j) = r0v_hterm a j) (r : Fin 512) :
    r0v_scAt V c t s r = Cert.Spec.score a (r0v_trow t r) := by
  unfold r0v_scAt r0v_sc Cert.Spec.score
  rw [r0v_blk0_6_apply, hV13]
  refine congrArg (· + a.bao (ix1 0)) (Finset.sum_congr rfl fun j _ => ?_)
  rw [r0v_blk0_5_apply, hV8, Cert.Math.preact_eq, hs j]
  refine congrArg (fun z => Ideal.tanh (z + r0v_hterm a j) * a.Wao (ix2 j 0)) (Finset.sum_congr rfl fun k _ => ?_)
  rw [r0v_blk0_0_apply, r0v_wlo0_apply, hV11, hV6]
  rfl

include hV11 in
theorem r0v_blk0_0_enc (t : Fin cfg0.N) (r : Fin 512) (d : Fin 2048) :
    blk0 V c 0 t (ix2 r d) = a.enc (ix3 (r0v_trow t r) 0 d) := by
  rw [r0v_blk0_0_apply, hV11]; rfl

theorem r0v_off0_7 : ∀ t : Fin grid0.N, win0_7.index t 0 * win0_7.size 0 = t.val * 512 ∧ win0_7.index t 1 * win0_7.size 1 = 0 := by
  decide +kernel

theorem r0v_emb7 (t : Fin cfg0.N) (r : Fin 512) (q : Fin 1) :
    ((cfg0.win 7).blk t).view.emb (ix2 r q) = ix2 (r0v_trow t r) q :=
  funext fun b => Fin.ext (r0v_emb2 b (r0v_off0_7 t) (ix2 r q) (ix2 (r0v_trow t r) q) rfl (Nat.zero_add _))

include hV11 hV1 hV6 hV12 hV8 hV13 in
/-- What point `t` writes back of the scores is its block of the specification's scores. -/
theorem r0v_flushed7_eq (t : Fin cfg0.N) :
    (dat0 V c).flushed 7 t = ((cfg0.win 7).blk t).view.read (Elt Ideal) (Cert.Spec.scoreArr a) := by
  show (cfg0.win 7).cut (grid0.coords t) ((dat0 V c).after 7 t) = _
  rw [dat0_after_7]
  funext y
  obtain ⟨r, q, rfl⟩ : ∃ (r : Fin 512) (q : Fin 1), y = ix2 r q := ⟨y 0, y 1, eq_ix2 (n0 := 512) (n1 := 1) y⟩
  show scoresAt0 V c t (ix2 r q) = Cert.Spec.scoreArr a (((cfg0.win 7).blk t).view.emb (ix2 r q))
  rw [r0v_emb7]
  exact (r0v_pay12_apply _ _ _ _ _ r q).trans
    (r0v_scAt_eq V a c hV11 hV6 hV8 hV13 t (scrMid0 V c t) (r0v_scrMid0_ht V a c hV1 hV6 hV12 t) r)

include hV11 hV1 hV6 hV12 hV8 hV13 in
/-- The scores' blocks tile their array, so after the region it is the specification's. -/
theorem scores_eq : (dat0 V c).arrAt 7 cfg0.N = Cert.Spec.scoreArr a :=
  (dat0 V c).arrAt_eq_of_cover 7 (Cert.Spec.scoreArr a)
    (fun t _ => r0v_flushed7_eq V a c hV11 hV1 hV6 hV12 hV8 hV13 t) fun i => by
      have hN : cfg0.N = 4 := N_0
      have hi0 : (i 0).val < 2048 := (i 0).isLt
      obtain ⟨t, r, q, rfl⟩ : ∃ (t : Fin cfg0.N) (r : Fin 512) (q : Fin 1), i = ix2 (r0v_trow t r) q :=
        ⟨⟨(i 0).val / 512, by omega⟩, ⟨(i 0).val % 512, Nat.mod_lt _ (by omega)⟩, i 1, funext fun b => Fin.ext (by
          match b with
          | ⟨0, _⟩ => show (i 0).val = (i 0).val / 512 * 512 + (i 0).val % 512; omega
          | ⟨1, _⟩ => rfl)⟩
      exact ⟨t, flush0_7 t, r0v_emb7 t r q ▸ ((cfg0.win 7).blk t).view.emb_mem_set (ix2 r q)⟩

section Parts
variable (hfs : ∀ l, ∃ r : ℝ, Cert.Spec.score a l = (r : EReal)) (hfe : ∀ i, ∃ r : ℝ, a.enc i = (r : EReal))

include hV11 hV1 hV6 hV12 hV8 hV13 hfs hfe in
/-- After the second block of a half, the scratch state holds the half's maximum, shifted exponential sum and weighted row sum. -/
theorem r0v_parts (t : Fin cfg0.N) (ht : t.val % 2 = 1) (j : Fin 2) (hj : j.val = t.val / 2) :
    (scrAfter0 V c t).m (ix2 0 0) = Cert.Spec.hmax a j
      ∧ (scrAfter0 V c t).l (ix2 0 0) = Cert.Spec.hsum a j
      ∧ ∀ d : Fin 2048, (scrAfter0 V c t).acc (ix2 0 d) = Cert.Spec.hacc a j d := by
  have hN : cfg0.N = 4 := N_0
  have hmid : scrMid0 V c t = stepAt0 V c (prev0 t) (initAt0 V c (prev0 t)) := by
    unfold scrMid0; rw [if_neg (by omega)]
  have hp : (prev0 t).val = t.val - 1 := rfl
  have hht0 := r0v_initAt0_ht V a c hV1 hV6 hV12 (prev0 t)
  have hht1 : ∀ q, (stepAt0 V c (prev0 t) (initAt0 V c (prev0 t))).ht (ix2 0 q) = r0v_hterm a q := hht0
  unfold scrAfter0
  rw [hmid]
  exact Cert.Math.two_tile_closed (T := 512) (N := 1024) (by norm_num) rfl Finset.univ_nonempty
    (fun i => Cert.Spec.score a (Cert.Spec.hrow j i)) (fun i d => a.enc (ix3 (Cert.Spec.hrow j i) 0 d))
    (fun i => hfs _) (fun i d => hfe _)
    (r0v_scAt V c (prev0 t) (initAt0 V c (prev0 t)))
    (r0v_scAt V c t (stepAt0 V c (prev0 t) (initAt0 V c (prev0 t))))
    (fun r d => blk0 V c 0 (prev0 t) (ix2 r d)) (fun r d => blk0 V c 0 t (ix2 r d))
    (fun r => (r0v_scAt_eq V a c hV11 hV6 hV8 hV13 (prev0 t) _ hht0 r).trans
      (congrArg (Cert.Spec.score a) (Fin.ext (by show (prev0 t).val * 512 + r.val = j.val * 1024 + r.val; omega))))
    (fun r => (r0v_scAt_eq V a c hV11 hV6 hV8 hV13 t _ hht1 r).trans
      (congrArg (Cert.Spec.score a) (Fin.ext (by show t.val * 512 + r.val = j.val * 1024 + (512 + r.val); omega))))
    (fun r d => (r0v_blk0_0_enc V a c hV11 (prev0 t) r d).trans
      (congrArg (fun l => a.enc (ix3 l 0 d)) (Fin.ext (by show (prev0 t).val * 512 + r.val = j.val * 1024 + r.val; omega))))
    (fun r d => (r0v_blk0_0_enc V a c hV11 t r d).trans
      (congrArg (fun l => a.enc (ix3 l 0 d)) (Fin.ext (by show t.val * 512 + r.val = j.val * 1024 + (512 + r.val); omega))))
    ((stepAt0 V c (prev0 t) (initAt0 V c (prev0 t))).m (ix2 0 0))
    ((stepAt0 V c (prev0 t) (initAt0 V c (prev0 t))).l (ix2 0 0))
    ((stepAt0 V c t (stepAt0 V c (prev0 t) (initAt0 V c (prev0 t)))).m (ix2 0 0))
    ((stepAt0 V c t (stepAt0 V c (prev0 t) (initAt0 V c (prev0 t)))).l (ix2 0 0))
    (fun d => (stepAt0 V c (prev0 t) (initAt0 V c (prev0 t))).acc (ix2 0 d))
    (fun d => (stepAt0 V c t (stepAt0 V c (prev0 t) (initAt0 V c (prev0 t)))).acc (ix2 0 d))
    (by rw [r0v_stepAt0_m, r0v_initAt0_m])
    (by rw [r0v_stepAt0_l, r0v_initAt0_m, r0v_initAt0_l])
    (fun d => by rw [r0v_stepAt0_acc, r0v_initAt0_m, r0v_initAt0_acc])
    (by rw [r0v_stepAt0_m])
    (by rw [r0v_stepAt0_l])
    (fun d => by rw [r0v_stepAt0_acc])

/-- The half of the rows point `t` belongs to. -/
def r0v_half (t : Fin cfg0.N) : Fin 2 := ⟨t.val / 2, by have := t.isLt; have hN : cfg0.N = 4 := N_0; omega⟩

/-- Each half ends at an odd point. -/
theorem r0v_odd_of_half (j : Fin 2) : ∃ t : Fin cfg0.N, t.val % 2 = 1 ∧ r0v_half t = j :=
  ⟨⟨2 * j.val + 1, by have hN : cfg0.N = 4 := N_0; omega⟩, by show (2 * j.val + 1) % 2 = 1; omega,
    Fin.ext (by show (2 * j.val + 1) / 2 = j.val; omega)⟩

/-- A `[1, 1, n]` block at block index `(j, 0, 0)` of a `[2, 1, n]` array sends `(0, 0, d)` to `(j, 0, d)`. -/
theorem r0v_half_emb {n : ℕ} (ix : Fin 3 → ℕ) (j : Fin 2) (d : Fin n) (h : ix 0 = j.val ∧ ix 1 = 0 ∧ ix 2 = 0) (b : Fin 3) :
    ix b * (⟨3, ![1, 1, n]⟩ : Shape).size b + 1 * (ix3 (0 : Fin 1) (0 : Fin 1) d b).val = (ix3 j (0 : Fin 1) d b).val := by
  match b with
  | ⟨0, _⟩ => show ix 0 * 1 + 1 * 0 = j.val; rw [h.1]; omega
  | ⟨1, _⟩ => show ix 1 * 1 + 1 * 0 = 0; rw [h.2.1]
  | ⟨2, _⟩ => show ix 2 * n + 1 * d.val = d.val; rw [h.2.2]; omega

/-- Two arrays over a `[1, 1, n]` block agree when they agree at every `(0, 0, d)`. -/
theorem r0v_ext_11n {α : Type} {n : ℕ} {f g : (⟨3, ![1, 1, n]⟩ : Shape).Idx → α} (h : ∀ d, f (ix3 0 0 d) = g (ix3 0 0 d)) : f = g :=
  funext fun y => by
    obtain ⟨u, v, d, rfl⟩ : ∃ (u v : Fin 1) (d : Fin n), y = ix3 u v d := ⟨y 0, y 1, y 2, eq_ix3 y⟩
    obtain rfl : u = 0 := Subsingleton.elim _ _
    obtain rfl : v = 0 := Subsingleton.elim _ _
    exact h d

theorem r0v_idx0_8 : ∀ t : Fin grid0.N, win0_8.index t 0 = t.val / 2 ∧ win0_8.index t 1 = 0 ∧ win0_8.index t 2 = 0 := by
  decide +kernel

theorem r0v_emb8 (t : Fin cfg0.N) (d : Fin 1) :
    ((cfg0.win 8).blk t).view.emb (ix3 0 0 d) = ix3 (r0v_half t) 0 d :=
  funext fun b => Fin.ext (r0v_half_emb (win0_8.index t) (r0v_half t) d (r0v_idx0_8 t) b)

def r0v_hmaxArr : S2x1x1.Idx → EReal := fun i => Cert.Spec.hmax a ⟨(i 0).val, (i 0).isLt⟩

include hV11 hV1 hV6 hV12 hV8 hV13 hfs hfe in
theorem m_part (j : Fin 2) : (dat0 V c).arrAt 8 cfg0.N (ix3 j 0 0) = Cert.Spec.hmax a j := by
  obtain ⟨t, ht, rfl⟩ := r0v_odd_of_half j
  refine (dat0 V c).arrAt_apply_of_mem 8 (r0v_hmaxArr a) (fun t hf => ?_) cfg0.N t _ t.isLt
    ((flush0_8 t).mpr ht) (r0v_emb8 t 0 ▸ ((cfg0.win 8).blk t).view.emb_mem_set (ix3 0 0 0))
  show (cfg0.win 8).cut (grid0.coords t) ((dat0 V c).after 8 t) = _
  rw [dat0_after_8]
  refine r0v_ext_11n fun e => ?_
  obtain rfl : e = 0 := Subsingleton.elim _ _
  show k0_pay4 (F := Ideal) (scrAfter0 V c t).m (ix3 0 0 0) = r0v_hmaxArr a (((cfg0.win 8).blk t).view.emb (ix3 0 0 0))
  rw [r0v_emb8, r0v_pay4_apply]
  exact (r0v_parts V a c hV11 hV1 hV6 hV12 hV8 hV13 hfs hfe t ((flush0_8 t).mp hf) (r0v_half t) rfl).1

theorem r0v_idx0_9 : ∀ t : Fin grid0.N, win0_9.index t 0 = t.val / 2 ∧ win0_9.index t 1 = 0 ∧ win0_9.index t 2 = 0 := by
  decide +kernel

theorem r0v_emb9 (t : Fin cfg0.N) (d : Fin 1) :
    ((cfg0.win 9).blk t).view.emb (ix3 0 0 d) = ix3 (r0v_half t) 0 d :=
  funext fun b => Fin.ext (r0v_half_emb (win0_9.index t) (r0v_half t) d (r0v_idx0_9 t) b)

def r0v_hsumArr : S2x1x1.Idx → EReal := fun i => Cert.Spec.hsum a ⟨(i 0).val, (i 0).isLt⟩

include hV11 hV1 hV6 hV12 hV8 hV13 hfs hfe in
theorem l_part (j : Fin 2) : (dat0 V c).arrAt 9 cfg0.N (ix3 j 0 0) = Cert.Spec.hsum a j := by
  obtain ⟨t, ht, rfl⟩ := r0v_odd_of_half j
  refine (dat0 V c).arrAt_apply_of_mem 9 (r0v_hsumArr a) (fun t hf => ?_) cfg0.N t _ t.isLt
    ((flush0_9 t).mpr ht) (r0v_emb9 t 0 ▸ ((cfg0.win 9).blk t).view.emb_mem_set (ix3 0 0 0))
  show (cfg0.win 9).cut (grid0.coords t) ((dat0 V c).after 9 t) = _
  rw [dat0_after_9]
  refine r0v_ext_11n fun e => ?_
  obtain rfl : e = 0 := Subsingleton.elim _ _
  show k0_pay5 (F := Ideal) (scrAfter0 V c t).l (ix3 0 0 0) = r0v_hsumArr a (((cfg0.win 9).blk t).view.emb (ix3 0 0 0))
  rw [r0v_emb9, r0v_pay5_apply]
  exact (r0v_parts V a c hV11 hV1 hV6 hV12 hV8 hV13 hfs hfe t ((flush0_9 t).mp hf) (r0v_half t) rfl).2.1

theorem r0v_idx0_10 : ∀ t : Fin grid0.N, win0_10.index t 0 = t.val / 2 ∧ win0_10.index t 1 = 0 ∧ win0_10.index t 2 = 0 := by
  decide +kernel

theorem r0v_emb10 (t : Fin cfg0.N) (d : Fin 2048) :
    ((cfg0.win 10).blk t).view.emb (ix3 0 0 d) = ix3 (r0v_half t) 0 d :=
  funext fun b => Fin.ext (r0v_half_emb (win0_10.index t) (r0v_half t) d (r0v_idx0_10 t) b)

def r0v_haccArr : S2x1x2048.Idx → EReal := fun i => Cert.Spec.hacc a ⟨(i 0).val, (i 0).isLt⟩ ⟨(i 2).val, (i 2).isLt⟩

include hV11 hV1 hV6 hV12 hV8 hV13 hfs hfe in
theorem acc_part (j : Fin 2) (d : Fin 2048) : (dat0 V c).arrAt 10 cfg0.N (ix3 j 0 d) = Cert.Spec.hacc a j d := by
  obtain ⟨t, ht, rfl⟩ := r0v_odd_of_half j
  refine (dat0 V c).arrAt_apply_of_mem 10 (r0v_haccArr a) (fun t hf => ?_) cfg0.N t _ t.isLt
    ((flush0_10 t).mpr ht) (r0v_emb10 t d ▸ ((cfg0.win 10).blk t).view.emb_mem_set (ix3 0 0 d))
  show (cfg0.win 10).cut (grid0.coords t) ((dat0 V c).after 10 t) = _
  rw [dat0_after_10]
  refine r0v_ext_11n fun e => ?_
  show k0_pay6 (F := Ideal) (scrAfter0 V c t).acc (ix3 0 0 e) = r0v_haccArr a (((cfg0.win 10).blk t).view.emb (ix3 0 0 e))
  rw [r0v_emb10, r0v_pay6_apply]
  exact (r0v_parts V a c hV11 hV1 hV6 hV12 hV8 hV13 hfs hfe t ((flush0_10 t).mp hf) (r0v_half t) rfl).2.2 e

end Parts

end Spec

end Cert.KernelIdeal.Hand

end
-- ==== Proof.R1.Pay.lean ====
import proofs.«409657_j24300924961385_3_alg».proof.Proof.Gen.KernelIdeal.Skeleton
import Idealize.ShloMosaic.PureOps.Ideal.Laws
import Idealize.ShloMosaic.Lib.ValueIdx
import Idealize.ShloMosaic.Lib.Pipeline.Value

namespace Cert.KernelIdeal.Hand

open Cert.KernelIdeal Cert.KernelIdeal.Gen
open Idealize.ShloMosaic Idealize.ShloMosaic.ValueIdx

/-- The accumulator gains the dot product of the row with a column of the block; all four gates compute this. -/
theorem k1_pay9_apply (x : Vec Ideal S1x1024 .f32) (acc : Vec Ideal S1x512 .f32) (w : Vec Ideal S1024x512 .f32)
    (p : Fin 1) (q : Fin 512) :
    k1_pay9 x acc w (ix2 p q) = acc (ix2 p q) + ∑ k : Fin 1024, x (ix2 p k) * w (ix2 k q) := by
  unfold k1_pay9 k1_pay8
  simp only [shapeCast_self]
  refine congrArg (acc (ix2 p q) + ·) ((Ideal.matmul_constant_zero_apply dot_S1x1024_S1024x512_S1x512_1_0_0_1_n_n none _ _ (ix2 p q)).trans ?_)
  rw [← Equiv.sum_comp (contrEquiv1 dot_S1x1024_S1024x512_S1x512_1_0_0_1_n_n 1024 rfl rfl).symm]
  refine Finset.sum_congr rfl fun k _ => ?_
  have hk := contrEquiv1_symm_val dot_S1x1024_S1024x512_S1x512_1_0_0_1_n_n 1024 rfl rfl k
  refine congrArg₂ (· * ·) (congrArg x (Shape.idx_ext₂ ?_ ((dot_S1x1024_S1024x512_S1x512_1_0_0_1_n_n.lhsIdx_val_of_single rfl _ _).trans hk)))
    (congrArg w (Shape.idx_ext₂ ((dot_S1x1024_S1024x512_S1x512_1_0_0_1_n_n.rhsIdx_val_of_single rfl _ _).trans hk) ?_))
  · unfold DotDims.lhsIdx
    rw [dif_neg (by decide), dif_pos (by decide)]
    rfl
  · unfold DotDims.rhsIdx
    rw [dif_neg (by decide), dif_pos (by decide)]
    rfl

/-- The accumulators start from zero. -/
theorem k1_pay4_apply (i : S1x512.Idx) : (k1_pay4 (F := Ideal)) i = 0 := by
  unfold k1_pay4
  simp only [shapeCast_self]
  exact Ideal.ofBits_zero_f32

/-- c' = σ(f)·c + σ(i)·tanh(g), elementwise. -/
theorem k1_pay2_apply (ai bi af bf ac bc cell : Vec Ideal S1x512 .f32) (i : S1x512.Idx) :
    k1_pay2 ai bi af bf ac bc cell i
      = Ideal.logistic (af i + bf i) * cell i + Ideal.logistic (ai i + bi i) * Ideal.tanh (ac i + bc i) := by
  unfold k1_pay2
  simp only [shapeCast_self]
  rfl

/-- h' = σ(o)·tanh(c'), elementwise. -/
theorem k1_pay3_apply (ai bi ao bo af bf ac bc cell : Vec Ideal S1x512 .f32) (i : S1x512.Idx) :
    k1_pay3 ai bi ao bo af bf ac bc cell i
      = Ideal.logistic (ao i + bo i) * Ideal.tanh (k1_pay2 ai bi af bf ac bc cell i) := by
  unfold k1_pay3
  simp only [shapeCast_self]
  rfl

end Cert.KernelIdeal.Hand
-- ==== Proof.R1.Tiles.lean ====
import Mathlib.Algebra.BigOperators.Fin
import Mathlib.Logic.Equiv.Fin.Basic

namespace Cert.KernelIdeal.Hand

/-- Position k of the n-th quarter of a row of 4096. -/
def r1v_row (n : Fin 4) (k : Fin 1024) : Fin 4096 := finProdFinEquiv (n, k)

/-- A sum over the row, taken quarter by quarter. -/
theorem r1v_sum_four_tiles {M : Type} [AddCommMonoid M] (f : Fin 4096 → M) : ∑ k, f k = ∑ n, ∑ k, f (r1v_row n k) :=
  (Equiv.sum_comp (finProdFinEquiv (m := 4) (n := 1024)) f).symm.trans (Fintype.sum_prod_type _)

end Cert.KernelIdeal.Hand
-- ==== Proof.R1.Blocks.lean ====
import proofs.«409657_j24300924961385_3_alg».proof.Proof.Gen.KernelIdeal.Launch
import proofs.«409657_j24300924961385_3_alg».proof.Proof.Gen.KernelIdeal.Points
import proofs.«409657_j24300924961385_3_alg».proof.Proof.R1.Tiles
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-- Grid point t is (column half t / 4, K tile t % 4): the row of a [4096, ·] array under entry k of its K tile. -/
def r1v_rowIx (t : Fin cfg1.N) (k : Fin 1024) : Fin 4096 := r1v_row ⟨t.val % 4, Nat.mod_lt _ (by decide)⟩ k

/-- The column of a [·, 1024] array under entry q of its column half. -/
def r1v_colIx (t : Fin cfg1.N) (q : Fin 512) : Fin 1024 :=
  ⟨(t.val / 4) * 512 + q.val, by have := lt_of_lt_of_eq t.isLt N_1; omega⟩

/-- Block indices at every grid point: the input row's, a weight matrix's, a [1, 1024] row's. -/
theorem r1v_idxA : ∀ t : Fin cfg1.N, win1_0.index t (0 : Fin 2) = 0 ∧ win1_0.index t (1 : Fin 2) = t.val % 4 :=
  (by decide +kernel : ∀ t : Fin grid1.N, _)
theorem r1v_idxB : ∀ t : Fin cfg1.N, win1_1.index t (0 : Fin 2) = t.val % 4 ∧ win1_1.index t (1 : Fin 2) = t.val / 4 :=
  (by decide +kernel : ∀ t : Fin grid1.N, _)
theorem r1v_idxC : ∀ t : Fin cfg1.N, win1_5.index t (0 : Fin 2) = 0 ∧ win1_5.index t (1 : Fin 2) = t.val / 4 :=
  (by decide +kernel : ∀ t : Fin grid1.N, _)

/-- Hence where an element of point t's block sits in its array, for the same three. -/
theorem r1v_embA (t : Fin cfg1.N) (p : Fin 1) (k : Fin 1024) : (win1_0.rect t).emb (ix2 p k) = ix2 p (r1v_rowIx t k) :=
  Shape.idx_ext₂ (by show win1_0.index t (0 : Fin 2) * 1 + 1 * p.val = p.val; rw [(r1v_idxA t).1]; omega)
    (by show win1_0.index t (1 : Fin 2) * 1024 + 1 * k.val = k.val + 1024 * (t.val % 4); rw [(r1v_idxA t).2]; omega)
theorem r1v_embB (t : Fin cfg1.N) (k : Fin 1024) (q : Fin 512) :
    (win1_1.rect t).emb (ix2 k q) = ix2 (r1v_rowIx t k) (r1v_colIx t q) :=
  Shape.idx_ext₂ (by show win1_1.index t (0 : Fin 2) * 1024 + 1 * k.val = k.val + 1024 * (t.val % 4); rw [(r1v_idxB t).1]; omega)
    (by show win1_1.index t (1 : Fin 2) * 512 + 1 * q.val = t.val / 4 * 512 + q.val; rw [(r1v_idxB t).2]; omega)
theorem r1v_embC (t : Fin cfg1.N) (p : Fin 1) (q : Fin 512) : (win1_5.rect t).emb (ix2 p q) = ix2 p (r1v_colIx t q) :=
  Shape.idx_ext₂ (by show win1_5.index t (0 : Fin 2) * 1 + 1 * p.val = p.val; rw [(r1v_idxC t).1]; omega)
    (by show win1_5.index t (1 : Fin 2) * 512 + 1 * q.val = t.val / 4 * 512 + q.val; rw [(r1v_idxC t).2]; omega)

/-- Every column is in the block of the last K tile of its column half. -/
theorem r1v_cover (i : S1x1024.Idx) :
    ∃ t : Fin cfg1.N, t.val % 4 = 3 ∧ ∃ q : Fin 512, (win1_5.rect t).emb (ix2 (i 0) q) = i := by
  have h1 := idx2_lt1 i
  refine ⟨⟨(i 1).val / 512 * 4 + 3, by rw [show cfg1.N = 8 from N_1]; omega⟩, by show ((i 1).val / 512 * 4 + 3) % 4 = 3; omega,
    ⟨(i 1).val % 512, Nat.mod_lt _ (by decide)⟩, (r1v_embC _ _ _).trans (Eq.trans ?_ (eq_ix2 i).symm)⟩
  exact congrArg (ix2 (i 0)) (Fin.ext (by show ((i 1).val / 512 * 4 + 3) / 4 * 512 + (i 1).val % 512 = (i 1).val; omega))

end Cert.KernelIdeal.Hand

end
-- ==== Proof.R1.Val.lean ====
import proofs.«409657_j24300924961385_3_alg».proof.Proof.R1.Pay
import proofs.«409657_j24300924961385_3_alg».proof.Proof.R1.Blocks
import proofs.«409657_j24300924961385_3_alg».proof.Proof.R1.Dat
import proofs.«409657_j24300924961385_3_alg».proof.Proof.Spec

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))
  (c : Dev nD) (a : Cert.Spec.Args) (h54 : ∀ k : Fin 4096, V c main_v54 (ix2 0 k) = Cert.Spec.comb a k)
  (h10 : V c main_arg10 = a.Wi) (h12 : V c main_arg12 = a.Wo) (h14 : V c main_arg14 = a.Wf) (h16 : V c main_arg16 = a.Wc)
  (h55 : ∀ j : Fin 1024, V c main_v55 (ix2 0 j) = a.bi (ix1 j)) (h56 : ∀ j : Fin 1024, V c main_v56 (ix2 0 j) = a.bo (ix1 j))
  (h57 : ∀ j : Fin 1024, V c main_v57 (ix2 0 j) = a.bf (ix1 j)) (h58 : ∀ j : Fin 1024, V c main_v58 (ix2 0 j) = a.bc (ix1 j))
  (h3 : V c main_arg3 = a.cell)

/-- A block that agrees with an array column by column is the array's block at t. -/
theorem r1v_blk_eq (t : Fin cfg1.N) (out : Vec Ideal S1x512 .f32) (G : Cert.Spec.Arr2 1 1024)
    (h : ∀ q, out (ix2 0 q) = G (ix2 0 (r1v_colIx t q))) : out = fun y => G ((win1_5.rect t).emb y) := funext fun y => by
  obtain ⟨p, q, rfl⟩ : ∃ (p : Fin 1) (q : Fin 512), y = ix2 p q := ⟨y 0, y 1, eq_ix2 y⟩
  obtain rfl : p = 0 := Subsingleton.elim _ _
  rw [r1v_embC]
  exact h q

include h54

/-- Four K tiles from zero, each adding the row tile's product with a block of W, sum to the dot product; the bias makes it the gate. -/
theorem r1v_gate (t : Fin cfg1.N) (ht : t.val % 4 = 3) (W : Cert.Spec.Arr2 4096 1024) (b : Cert.Spec.Arr1 1024)
    (sel : Acc1 Ideal → Vec Ideal S1x512 .f32) (wb : Fin cfg1.N → Vec Ideal S1024x512 .f32) (bb : Vec Ideal S1x512 .f32) (B : Cert.Spec.Arr2 1 1024)
    (hsel : ∀ s A, sel (stepAt1 V c s A) = k1_pay9 (blk1 V c 0 s) (sel A) (wb s)) (hz : ∀ i, sel zero1 i = 0)
    (hW : ∀ s y, wb s y = W ((win1_1.rect s).emb y)) (hb : ∀ y, bb y = B ((win1_5.rect t).emb y))
    (hB : ∀ j, B (ix2 0 j) = b (ix1 j)) (q : Fin 512) :
    sel (accAfter1 V c t) (ix2 0 q) + bb (ix2 0 q) = Cert.Spec.gate a W b (r1v_colIx t q) := by
  have hs : ∀ (s : Fin cfg1.N) (n : Fin 4), s.val % 4 = n.val → s.val / 4 = t.val / 4 → ∀ A, sel (stepAt1 V c s A) (ix2 0 q)
      = sel A (ix2 0 q) + ∑ k, Cert.Spec.comb a (r1v_row n k) * W (ix2 (r1v_row n k) (r1v_colIx t q)) := fun s n hn hq A => by
    rw [hsel, k1_pay9_apply]
    refine congrArg (sel A (ix2 0 q) + ·) (Finset.sum_congr rfl fun k _ => ?_)
    rw [hW, r1v_embB, show blk1 V c 0 s (ix2 0 k) = _ from (congrArg (V c main_v54) (r1v_embA s 0 k)).trans (h54 _),
      show r1v_rowIx s k = r1v_row n k from congrArg (r1v_row · k) (Fin.ext hn),
      show r1v_colIx s q = r1v_colIx t q from Fin.ext (congrArg (· * 512 + q.val) hq)]
  rw [accAfter1_last V c t ht, hs t 3 ht rfl, hs (back1 t 1) 2 (by show (t.val - 1) % 4 = 2; omega) (by show (t.val - 1) / 4 = _; omega),
    hs (back1 t 2) 1 (by show (t.val - 2) % 4 = 1; omega) (by show (t.val - 2) / 4 = _; omega),
    hs (back1 t 3) 0 (by show (t.val - 3) % 4 = 0; omega) (by show (t.val - 3) / 4 = _; omega), hz, zero_add, hb, r1v_embC, hB]
  unfold Cert.Spec.gate
  rw [r1v_sum_four_tiles, Fin.sum_univ_four]

include h10 h12 h14 h16 h55 h56 h57 h58 h3

/-- Both results at an element of the blocks the last K tile of a column half leaves. -/
theorem r1v_outs (t : Fin cfg1.N) (ht : t.val % 4 = 3) (q : Fin 512) :
    out10_1 (accAfter1 V c t) (blk1 V c 5 t) (blk1 V c 7 t) (blk1 V c 8 t) (blk1 V c 9 t) (ix2 0 q)
        = Cert.Spec.newCell a (r1v_colIx t q)
      ∧ out11_1 (accAfter1 V c t) (blk1 V c 5 t) (blk1 V c 6 t) (blk1 V c 7 t) (blk1 V c 8 t) (blk1 V c 9 t) (ix2 0 q)
        = Cert.Spec.nextHidden a (r1v_colIx t q) := by
  have gi := r1v_gate V c a h54 t ht a.Wi a.bi (·.1) (blk1 V c 1) (blk1 V c 5 t) (V c main_v55) (fun _ _ => rfl) k1_pay4_apply
    (fun _ _ => congrFun h10 _) (fun _ => rfl) h55 q
  have go := r1v_gate V c a h54 t ht a.Wo a.bo (·.2.1) (blk1 V c 2) (blk1 V c 6 t) (V c main_v56) (fun _ _ => rfl) k1_pay4_apply
    (fun _ _ => congrFun h12 _) (fun _ => rfl) h56 q
  have gf := r1v_gate V c a h54 t ht a.Wf a.bf (·.2.2.1) (blk1 V c 3) (blk1 V c 7 t) (V c main_v57) (fun _ _ => rfl) k1_pay4_apply
    (fun _ _ => congrFun h14 _) (fun _ => rfl) h57 q
  have gc := r1v_gate V c a h54 t ht a.Wc a.bc (·.2.2.2) (blk1 V c 4) (blk1 V c 8 t) (V c main_v58) (fun _ _ => rfl) k1_pay4_apply
    (fun _ _ => congrFun h16 _) (fun _ => rfl) h58 q
  have hc : blk1 V c 9 t (ix2 0 q) = a.cell (ix2 0 (r1v_colIx t q)) :=
    (congrArg (V c main_arg3) (r1v_embC t 0 q)).trans (congrFun h3 _)
  unfold out11_1 out10_1
  rw [k1_pay3_apply, k1_pay2_apply, gi, go, gf, gc, hc]
  exact ⟨rfl, rfl⟩

/-- The blocks of the last K tiles cover the array, so it ends as the specification's new cell state. -/
theorem newCell_eq : (dat1 V c).arrAt 10 cfg1.N = Cert.Spec.newCellArr a :=
  (dat1 V c).arrAt_eq_of_cover 10 (Cert.Spec.newCellArr a)
    (fun t hf => (congrArg ((cfg1.win 10).cut (grid1.coords t)) (dat1_after_10 V c t)).trans (r1v_blk_eq t _ (Cert.Spec.newCellArr a) fun q =>
      (r1v_outs V c a h54 h10 h12 h14 h16 h55 h56 h57 h58 h3 t ((flush1_10 t).mp hf) q).1))
    fun i => (r1v_cover i).imp fun t h => ⟨(flush1_10 t).mpr h.1, h.2.elim fun q e => by rw [← e]; exact ((cfg1.win 10).blk t).view.emb_mem_set _⟩

/-- Likewise the next hidden state. -/
theorem nextHidden_eq : (dat1 V c).arrAt 11 cfg1.N = Cert.Spec.nextHiddenArr a :=
  (dat1 V c).arrAt_eq_of_cover 11 (Cert.Spec.nextHiddenArr a)
    (fun t hf => (congrArg ((cfg1.win 11).cut (grid1.coords t)) (dat1_after_11 V c t)).trans (r1v_blk_eq t _ (Cert.Spec.nextHiddenArr a) fun q =>
      (r1v_outs V c a h54 h10 h12 h14 h16 h55 h56 h57 h58 h3 t ((flush1_11 t).mp hf) q).2))
    fun i => (r1v_cover i).imp fun t h => ⟨(flush1_11 t).mpr h.1, h.2.elim fun q e => by rw [← e]; exact ((cfg1.win 11).blk t).view.emb_mem_set _⟩

end Cert.KernelIdeal.Hand
-- ==== Proof.R2.Val.lean ====
import proofs.«409657_j24300924961385_3_alg».proof.Proof.R2.Dat
import proofs.«409657_j24300924961385_3_alg».proof.Proof.R2.Pay
import proofs.«409657_j24300924961385_3_alg».proof.Proof.Spec

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window cellOf)

variable (V : (c : Dev nD) → (b : Ref sig .tc) → Buf (Elt Ideal) ((c : Thread nD τ).loc b))

/-- The four windows' block indices at each of the fifty points, and the cut width of block `t`. -/
theorem r2v_facts : ∀ t : Fin cfg2.N, (win2_0.index t 0 = 0 ∧ win2_0.index t 1 = 0)
    ∧ (win2_1.index t 0 = 0 ∧ win2_1.index t 1 = t.val) ∧ (win2_2.index t 0 = 0 ∧ win2_2.index t 1 = t.val)
    ∧ (win2_3.index t 0 = 0 ∧ win2_3.index t 1 = t.val)
    ∧ win2_3.xsize (grid2.coords t) 1 = min 1024 (50257 - t.val * 1024) :=
  (by decide +kernel : ∀ t : Fin grid2.N, _)

/-- The row vector's block is the row vector. -/
theorem r2v_iblk2_0_apply (c : Dev nD) (t : Fin cfg2.N) (j : S1x4096.Idx) :
    iblk2 V c 0 t j = V c main_v60 (ix2 0 (j 1)) := by
  unfold iblk2
  rw [View.read_apply]
  exact congrArg (V c main_v60) (ix2_of_val _
    ((win2_0.rect_emb_val_of_index_zero t 0 (r2v_facts t).1.1 j).trans (Nat.lt_one_iff.mp (idx2_lt0 j)))
    (win2_0.rect_emb_val_of_index_zero t 1 (r2v_facts t).1.2 j))

/-- A column of block `t` that lies inside the array is below the block's cut width. -/
theorem r2v_lt_xsize (t : Fin cfg2.N) {q : Nat} (hq : q < 1024) (hv : t.val * 1024 + q < 50257) :
    q < win2_3.xsize (grid2.coords t) 1 := by
  rw [(r2v_facts t).2.2.2.2]; omega

/-- The weights' filled-out block at a column inside the array is the weights there. -/
theorem r2v_wfill2_apply (c : Dev nD) (t : Fin cfg2.N) (j : S4096x1024.Idx) (hv : t.val * 1024 + (j 1).val < 50257) :
    wfill2 V c t j = V c main_arg18 (ix2 (j 0) ⟨t.val * 1024 + (j 1).val, hv⟩) := by
  unfold wfill2
  rw [fill_apply_of_lt win2_1 (grid2.coords t) _ _ j fun a => match a with
    | ⟨0, _⟩ => (j 0).isLt
    | ⟨1, _⟩ => r2v_lt_xsize t (idx2_lt1 j) hv]
  unfold iblk2
  rw [View.read_apply]
  exact congrArg (V c main_arg18) (ix2_of_val _ (win2_1.rect_emb_val_of_index_zero t 0 (r2v_facts t).2.1.1 _)
    ((win2_1.rect_emb_val t _ 1).trans (by rw [(r2v_facts t).2.1.2]; rfl)))

/-- The bias's likewise. -/
theorem r2v_bfill2_apply (c : Dev nD) (t : Fin cfg2.N) (j : S1x1024.Idx) (hv : t.val * 1024 + (j 1).val < 50257) :
    bfill2 V c t j = V c main_v61 (ix2 0 ⟨t.val * 1024 + (j 1).val, hv⟩) := by
  unfold bfill2
  rw [fill_apply_of_lt win2_2 (grid2.coords t) _ _ j fun a => match a with
    | ⟨0, _⟩ => (j 0).isLt
    | ⟨1, _⟩ => r2v_lt_xsize t (idx2_lt1 j) hv]
  unfold iblk2
  rw [View.read_apply]
  exact congrArg (V c main_v61) (ix2_of_val _
    ((win2_2.rect_emb_val_of_index_zero t 0 (r2v_facts t).2.2.1.1 _).trans (Nat.lt_one_iff.mp (idx2_lt0 j)))
    ((win2_2.rect_emb_val t _ 1).trans (by rw [(r2v_facts t).2.2.1.2]; rfl)))

/-- Point `t`'s part of the result is its block of the specification's logits. -/
theorem r2v_flushed2_3 (c : Dev nD) (a : Cert.Spec.Args)
    (h60 : ∀ k : Fin 4096, V c main_v60 (ix2 0 k) = Cert.Spec.outCat a k)
    (h18 : V c main_arg18 = a.Wout)
    (h61 : ∀ v : Fin 50257, V c main_v61 (ix2 0 v) = a.bout (ix1 v)) (t : Fin cfg2.N) :
    (dat2 V c).flushed 3 t = ((cfg2.win 3).blk t).view.read (Elt Ideal) (Cert.Spec.logitArr a) := by
  funext y
  change (win2_3.xblock (grid2.coords t)).Idx at y
  have hv : t.val * 1024 + (y 1).val < 50257 := by
    have h1 : (y 1).val < win2_3.xsize (grid2.coords t) 1 := (y 1).isLt
    rw [(r2v_facts t).2.2.2.2] at h1; omega
  have he : (win2_3.blk t).view.emb y = ix2 (0 : Fin 1) (⟨t.val * 1024 + (y 1).val, hv⟩ : Fin 50257) :=
    ix2_of_val _ ((win2_3.rect_emb_val_of_index_zero t 0 (r2v_facts t).2.2.2.1.1 y).trans (Nat.lt_one_iff.mp (y 0).isLt))
      ((win2_3.rect_emb_val t y 1).trans (by rw [(r2v_facts t).2.2.2.1.2]; rfl))
  rw [View.read_apply]
  show k2_pay1 (iblk2 V c 0 t) (wfill2 V c t) (bfill2 V c t) (win2_3.xinj (grid2.coords t) y) = Cert.Spec.logitArr a ((win2_3.blk t).view.emb y)
  rw [he, Cert.Spec.logitArr_apply, k2_pay1_at]
  unfold Cert.Spec.logit
  refine congrArg₂ (· + ·) (Finset.sum_congr rfl fun k _ => congrArg₂ (· * ·) ?_ ?_) ?_
  · exact (r2v_iblk2_0_apply V c t _).trans (h60 k)
  · exact (r2v_wfill2_apply V c t _ hv).trans (congrFun h18 _)
  · exact (r2v_bfill2_apply V c t _ hv).trans (h61 _)

/-- An index of the array of logits whose column is one of point `t`'s inside the array lies in point `t`'s block. -/
theorem r2v_mem_blk2_3 (t : Fin cfg2.N) (i : S1x50257.Idx)
    (h : t.val * 1024 ≤ (i 1).val ∧ (i 1).val < t.val * 1024 + min 1024 (50257 - t.val * 1024)) :
    i ∈ (win2_3.blk t).view.set := by
  have h0 := idx2_lt0 i
  show i ∈ ((View.whole main_v62).slice (win2_3.rect t)).set
  rw [View.set_slice_whole, Rect.mem_set_unit]
  intro b
  match b with
  | ⟨0, _⟩ =>
    change win2_3.index t 0 * 1 ≤ (i 0).val ∧ (i 0).val < win2_3.index t 0 * 1 + 1
    rw [(r2v_facts t).2.2.2.1.1]; omega
  | ⟨1, _⟩ =>
    change win2_3.index t 1 * 1024 ≤ (i 1).val ∧ (i 1).val < win2_3.index t 1 * 1024 + win2_3.xsize (grid2.coords t) 1
    rwa [(r2v_facts t).2.2.2.1.2, (r2v_facts t).2.2.2.2]

/-- After the fifty points the array of logits holds the specification's logits: column `v` lies in the block of point `v / 1024`. -/
theorem logits_eq (c : Dev nD) (a : Cert.Spec.Args)
    (h60 : ∀ k : Fin 4096, V c main_v60 (ix2 0 k) = Cert.Spec.outCat a k)
    (h18 : V c main_arg18 = a.Wout)
    (h61 : ∀ v : Fin 50257, V c main_v61 (ix2 0 v) = a.bout (ix1 v)) :
    (dat2 V c).arrAt 3 cfg2.N = Cert.Spec.logitArr a := by
  refine (dat2 V c).arrAt_eq_of_cover 3 (Cert.Spec.logitArr a) (fun t _ => r2v_flushed2_3 V c a h60 h18 h61 t) fun i => ?_
  change S1x50257.Idx at i
  have hi := idx2_lt1 i
  refine ⟨⟨(i 1).val / 1024, lt_of_lt_of_eq (by omega : (i 1).val / 1024 < 50) N_2.symm⟩, flush2_3 _, r2v_mem_blk2_3 _ i ?_⟩
  show (i 1).val / 1024 * 1024 ≤ (i 1).val ∧ (i 1).val < (i 1).val / 1024 * 1024 + min 1024 (50257 - (i 1).val / 1024 * 1024)
  omega

end Cert.KernelIdeal.Hand

end
-- ==== Proof.ValueK.lean ====
import proofs.«409657_j24300924961385_3_alg».proof.Proof.Gen.KernelIdeal.Regions
import proofs.«409657_j24300924961385_3_alg».proof.Proof.RunI.Outs
import proofs.«409657_j24300924961385_3_alg».proof.Proof.Spec
import proofs.«409657_j24300924961385_3_alg».proof.Proof.Half
import proofs.«409657_j24300924961385_3_alg».proof.Proof.Math.SpecSplit
import Idealize.ShloMosaic.Lib.ValueIdx
import proofs.«409657_j24300924961385_3_alg».proof.Proof.HostA
import proofs.«409657_j24300924961385_3_alg».proof.Proof.HostA1
import proofs.«409657_j24300924961385_3_alg».proof.Proof.HostA2
import proofs.«409657_j24300924961385_3_alg».proof.Proof.HostA3
import proofs.«409657_j24300924961385_3_alg».proof.Proof.HostB
import proofs.«409657_j24300924961385_3_alg».proof.Proof.R0.ValArr
import proofs.«409657_j24300924961385_3_alg».proof.Proof.R1.Val
import proofs.«409657_j24300924961385_3_alg».proof.Proof.R2.Val

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- An array that no item before the output projection writes still holds its initial contents there. -/
theorem vk_keep (r : Ref sig .tc)
    (h : r ∉ hostOps0_W ++ [main_v14_0, main_v14_1, main_v14_2, main_v14_3] ++ hostOps1_W ++ [main_v59_0, main_v59_1] ++ hostOps2_W) :
    Gen.V1 m c r = m ((c : Thread nD τ).loc r) ∧ Gen.V2 m (outsI m) c r = m ((c : Thread nD τ).loc r)
      ∧ Gen.V3 m (outsI m) c r = m ((c : Thread nD τ).loc r) ∧ Gen.V4 m (outsI m) c r = m ((c : Thread nD τ).loc r)
      ∧ Gen.V5 m (outsI m) c r = m ((c : Thread nD τ).loc r) := by
  simp only [List.mem_append, not_or] at h
  obtain ⟨⟨⟨⟨h0, h1⟩, h2⟩, h3⟩, h4⟩ := h
  have e1 : Gen.V1 m c r = m ((c : Thread nD τ).loc r) := V1_of m c r h0
  have e2 := (V2_of m (outsI m) c r h1).trans e1
  have e3 := (V3_of m (outsI m) c r h2).trans e2
  have e4 := (V4_of m (outsI m) c r h3).trans e3
  exact ⟨e1, e2, e3, e4, (V5_of m (outsI m) c r h4).trans e4⟩

/-- The four results are the specification's: every array a later item reads is followed, item by item, from the inputs. -/
theorem kernel_values (a : Cert.Spec.Args)
    (h0 : (m ((c : Thread nD τ).loc main_arg0) : S1.Idx → BitVec 32) (ix1 0) = BitVec.ofNat 32 a.tok.val)
    (h1 : (m ((c : Thread nD τ).loc main_arg1) : S1x1024.Idx → EReal) = a.hid)
    (h2 : (m ((c : Thread nD τ).loc main_arg2) : S2048x1x2048.Idx → EReal) = a.enc)
    (h3 : (m ((c : Thread nD τ).loc main_arg3) : S1x1024.Idx → EReal) = a.cell)
    (h4 : (m ((c : Thread nD τ).loc main_arg4) : S50257x1024.Idx → EReal) = a.Wemb)
    (h5 : (m ((c : Thread nD τ).loc main_arg5) : S1024.Idx → EReal) = a.bemb)
    (h6 : (m ((c : Thread nD τ).loc main_arg6) : S3072x1024.Idx → EReal) = a.Wattn)
    (h7 : (m ((c : Thread nD τ).loc main_arg7) : S1024.Idx → EReal) = a.battn)
    (h8 : (m ((c : Thread nD τ).loc main_arg8) : S1024x1.Idx → EReal) = a.Wao)
    (h9 : (m ((c : Thread nD τ).loc main_arg9) : S1.Idx → EReal) = a.bao)
    (h10 : (m ((c : Thread nD τ).loc main_arg10) : S4096x1024.Idx → EReal) = a.Wi)
    (h11 : (m ((c : Thread nD τ).loc main_arg11) : S1024.Idx → EReal) = a.bi)
    (h12 : (m ((c : Thread nD τ).loc main_arg12) : S4096x1024.Idx → EReal) = a.Wo)
    (h13 : (m ((c : Thread nD τ).loc main_arg13) : S1024.Idx → EReal) = a.bo)
    (h14 : (m ((c : Thread nD τ).loc main_arg14) : S4096x1024.Idx → EReal) = a.Wf)
    (h15 : (m ((c : Thread nD τ).loc main_arg15) : S1024.Idx → EReal) = a.bf)
    (h16 : (m ((c : Thread nD τ).loc main_arg16) : S4096x1024.Idx → EReal) = a.Wc)
    (h17 : (m ((c : Thread nD τ).loc main_arg17) : S1024.Idx → EReal) = a.bc)
    (h18 : (m ((c : Thread nD τ).loc main_arg18) : S4096x50257.Idx → EReal) = a.Wout)
    (h19 : (m ((c : Thread nD τ).loc main_arg19) : S50257.Idx → EReal) = a.bout)
    (hfin_enc : ∀ i, ∃ r : ℝ, a.enc i = (r : EReal)) (hfin_Wao : ∀ i, ∃ r : ℝ, a.Wao i = (r : EReal))
    (hfin_bao : ∀ i, ∃ r : ℝ, a.bao i = (r : EReal)) :
    (Gen.V7 m (outsI m) c main_v63 : S1x50257.Idx → EReal) = Cert.Spec.logSoftmaxArr a
      ∧ (Gen.V7 m (outsI m) c main_v59_1 : S1x1024.Idx → EReal) = Cert.Spec.nextHiddenArr a
      ∧ (Gen.V7 m (outsI m) c main_v52 : S2048x1.Idx → EReal) = Cert.Spec.attnWArr a
      ∧ (Gen.V7 m (outsI m) c main_v59_0 : S1x1024.Idx → EReal) = Cert.Spec.newCellArr a := by
  have hfs : ∀ l, ∃ r : ℝ, Cert.Spec.score a l = (r : EReal) := Cert.Math.score_real a hfin_Wao hfin_bao
  have K := vk_keep m c
  have A10 : (Gen.V1 m c main_v10 : S1x1024.Idx → EReal) = Cert.Spec.embArr a := host0_v10 (Gen.V0 m c) a h0 h4 h5
  have A11 : ∀ l k : Fin 2048, entry0 m c main_v11 (ix2 l k) = a.enc (ix3 l 0 k) := host0_v11 (Gen.V0 m c) a h2
  have A12 : ∀ j : Fin 1024, entry0 m c main_v12 (ix2 0 j) = a.battn (ix1 j) := host0_v12 (Gen.V0 m c) a h7
  have A13 : entry0 m c main_v13 (ix2 0 0) = a.bao (ix1 0) := host0_v13 (Gen.V0 m c) a h9
  have A1 : entry0 m c main_arg1 = a.hid := (K main_arg1 (by decide)).1.trans h1
  have A6 : entry0 m c main_arg6 = a.Wattn := (K main_arg6 (by decide)).1.trans h6
  have A8 : entry0 m c main_arg8 = a.Wao := (K main_arg8 (by decide)).1.trans h8
  have S0 : Gen.V2 m (outsI m) c main_v14_0 = Cert.Spec.scoreArr a :=
    (V2_v14_0 m (outsI m) c).trans ((outsI_v14_0 m c).trans (scores_eq (entry0 m) a c A11 A1 A6 A12 A8 A13))
  have S1 : ∀ j : Fin 2, Gen.V2 m (outsI m) c main_v14_1 (ix3 j 0 0) = Cert.Spec.hmax a j := fun j =>
    (congrFun ((V2_v14_1 m (outsI m) c).trans (outsI_v14_1 m c)) _).trans (m_part (entry0 m) a c A11 A1 A6 A12 A8 A13 hfs hfin_enc j)
  have S2 : ∀ j : Fin 2, Gen.V2 m (outsI m) c main_v14_2 (ix3 j 0 0) = Cert.Spec.hsum a j := fun j =>
    (congrFun ((V2_v14_2 m (outsI m) c).trans (outsI_v14_2 m c)) _).trans (l_part (entry0 m) a c A11 A1 A6 A12 A8 A13 hfs hfin_enc j)
  have S3 : ∀ (j : Fin 2) (d : Fin 2048), Gen.V2 m (outsI m) c main_v14_3 (ix3 j 0 d) = Cert.Spec.hacc a j d := fun j d =>
    (congrFun ((V2_v14_3 m (outsI m) c).trans (outsI_v14_3 m c)) _).trans (acc_part (entry0 m) a c A11 A1 A6 A12 A8 A13 hfs hfin_enc j d)
  have C41 : Gen.V3 m (outsI m) c main_v41 = Cert.Spec.contextArr a := hostB_context (Gen.V2 m (outsI m) c) a S1 S2 S3 hfin_enc hfs
  have C54 : ∀ k : Fin 4096, entry1 m c main_v54 (ix2 0 k) = Cert.Spec.comb a k :=
    hostB_comb (Gen.V2 m (outsI m) c) a C41 ((V2_of m (outsI m) c main_v10 (by decide)).trans A10)
      ((K main_arg1 (by decide)).2.1.trans h1)
  have B := fun j => hostB_bias (Gen.V2 m (outsI m) c) a ((K main_arg11 (by decide)).2.1.trans h11)
    ((K main_arg13 (by decide)).2.1.trans h13) ((K main_arg15 (by decide)).2.1.trans h15) ((K main_arg17 (by decide)).2.1.trans h17) j
  have E10 : entry1 m c main_arg10 = a.Wi := (K main_arg10 (by decide)).2.2.1.trans h10
  have E12 : entry1 m c main_arg12 = a.Wo := (K main_arg12 (by decide)).2.2.1.trans h12
  have E14 : entry1 m c main_arg14 = a.Wf := (K main_arg14 (by decide)).2.2.1.trans h14
  have E16 : entry1 m c main_arg16 = a.Wc := (K main_arg16 (by decide)).2.2.1.trans h16
  have E3 : entry1 m c main_arg3 = a.cell := (K main_arg3 (by decide)).2.2.1.trans h3
  have G10 : (Gen.V4 m (outsI m) c main_v10 : S1x1024.Idx → EReal) = Cert.Spec.embArr a :=
    (V4_of m (outsI m) c main_v10 (by decide)).trans ((V3_of m (outsI m) c main_v10 (by decide)).trans
      ((V2_of m (outsI m) c main_v10 (by decide)).trans A10))
  have G1 : (Gen.V4 m (outsI m) c main_arg1 : S1x1024.Idx → EReal) = a.hid := (K main_arg1 (by decide)).2.2.2.1.trans h1
  have G41 : (Gen.V4 m (outsI m) c main_v41 : S1x2048.Idx → EReal) = Cert.Spec.contextArr a :=
    (V4_of m (outsI m) c main_v41 (by decide)).trans C41
  have G19 : (Gen.V4 m (outsI m) c main_arg19 : S50257.Idx → EReal) = a.bout := (K main_arg19 (by decide)).2.2.2.1.trans h19
  have F60 : ∀ k : Fin 4096, entry2 m c main_v60 (ix2 0 k) = Cert.Spec.outCat a k := host2_v60 (Gen.V4 m (outsI m) c) a G10 G1 G41
  have F61 : ∀ v : Fin 50257, entry2 m c main_v61 (ix2 0 v) = a.bout (ix1 v) := host2_v61 (Gen.V4 m (outsI m) c) a G19
  have F18 : entry2 m c main_arg18 = a.Wout := (K main_arg18 (by decide)).2.2.2.2.trans h18
  have H62 : (Gen.V6 m (outsI m) c main_v62 : S1x50257.Idx → EReal) = Cert.Spec.logitArr a :=
    (V6_v62 m (outsI m) c).trans ((outsI_v62 m c).trans (logits_eq (entry2 m) c a F60 F18 F61))
  refine ⟨host3_v63 (Gen.V6 m (outsI m) c) a H62, ?_, ?_, ?_⟩
  · exact (V7_of m (outsI m) c main_v59_1 (by decide)).trans ((V6_of m (outsI m) c main_v59_1 (by decide)).trans
      ((V5_of m (outsI m) c main_v59_1 (by decide)).trans ((V4_v59_1 m (outsI m) c).trans ((outsI_v59_1 m c).trans
        (nextHidden_eq (entry1 m) c a C54 E10 E12 E14 E16 (fun j => (B j).1) (fun j => (B j).2.1) (fun j => (B j).2.2.1)
          (fun j => (B j).2.2.2) E3)))))
  · exact (V7_of m (outsI m) c main_v52 (by decide)).trans ((V6_of m (outsI m) c main_v52 (by decide)).trans
      ((V5_of m (outsI m) c main_v52 (by decide)).trans ((V4_of m (outsI m) c main_v52 (by decide)).trans
        (hostB_attnW (Gen.V2 m (outsI m) c) a S0))))
  · exact (V7_of m (outsI m) c main_v59_0 (by decide)).trans ((V6_of m (outsI m) c main_v59_0 (by decide)).trans
      ((V5_of m (outsI m) c main_v59_0 (by decide)).trans ((V4_v59_0 m (outsI m) c).trans ((outsI_v59_0 m c).trans
        (newCell_eq (entry1 m) c a C54 E10 E12 E14 E16 (fun j => (B j).1) (fun j => (B j).2.1) (fun j => (B j).2.2.1)
          (fun j => (B j).2.2.2) E3)))))

end Cert.KernelIdeal.Hand

end
-- ==== Proof.PreFacts.lean ====
import proofs.«409657_j24300924961385_3_alg».proof.Pre_finite_inputs
import Idealize.ShloMosaic.Lib.ReduceAll
import Idealize.ShloMosaic.Lib.ValueIdx

noncomputable section

namespace Cert.KernelIdeal.Hand

open Idealize.ShloMosaic Idealize.ShloMosaic.ValueIdx
open Cert.Pre_finite_inputs

variable [Cert.Pre_finite_inputs.Facts]

instance hA_subsingleton_S_ : Subsingleton S_.Idx := ⟨fun a b => funext fun d => d.elim0⟩

theorem hA_inf_bits : Ideal.ofBits .f32 0x7F800000#32 = (⊤ : EReal) := by
  simp [Ideal.ofBits, Ideal.ieee]

/-- |x| < +∞ excludes both infinities. -/
theorem hA_real_of_abs_lt_top (x : EReal) (h : max x (-x) < (⊤ : EReal)) : ∃ r : ℝ, x = (r : EReal) := by
  induction x using EReal.rec with
  | bot => simp at h
  | coe r => exact ⟨r, rfl⟩
  | top => simp at h

/-- An all-reduction of |x| < +∞ that came out true makes every entry of x a real number. -/
theorem hA_finite_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ix0 = 1#1)
    (i : s.Idx) : ∃ r : ℝ, x i = (r : EReal) := by
  have h2 : Ideal.cmp .olt (max (x i) (-(x i))) (Ideal.ofBits .f32 0x7F800000#32) = 1#1 :=
    Host.reduce_andi_all _ _ hr h0 ix0 e i
  rw [hA_inf_bits] at h2
  refine hA_real_of_abs_lt_top _ (Classical.byContradiction fun hn => ?_)
  rw [show Ideal.cmp .olt (max (x i) (-(x i))) (⊤ : EReal) = 0#1 by simp only [Ideal.cmp, hn, decide_false]; rfl] at h2
  exact absurd h2 (by decide)

/-- The token's two signed comparisons, true at its one element, bound the word read unsigned. -/
theorem hA_tok_of_all (x0 : IVec S1 32) (hb : S_.BroadcastsInDim S1 (![] : Fin 0 → Fin S1.rank))
    (hr : S1.ReducesTo [0] S_) (h0 : 0 < S_.numel)
    (e : Host.reduce IntOp.andi
          (andi (cmpi .sge x0 (broadcastInDim S1 ![] hb (constantI S_ 32 0#32)))
                (cmpi .slt x0 (broadcastInDim S1 ![] hb (constantI S_ 32 50257#32))))
          (constantI S_ 1 1#1) hr h0 ix0 = 1#1) :
    (x0 (ix1 0)).toNat < 50257 := by
  have h2 : IntOp.andi (IntOp.cmpi .sge (x0 (ix1 0)) 0#32) (IntOp.cmpi .slt (x0 (ix1 0)) 50257#32) = 1#1 :=
    Host.reduce_andi_all _ _ hr h0 ix0 e (ix1 0)
  obtain ⟨ha, hb'⟩ := IntOp.andi_eq_one.1 h2
  have ha' := IntOp.cmpi_sge.1 ha
  have hb'' := IntOp.cmpi_slt.1 hb'
  rw [show (0#32 : BitVec 32).toInt = 0 by decide] at ha'
  rw [show (50257#32 : BitVec 32).toInt = 50257 by decide] at hb''
  have := (x0 (ix1 0)).isLt
  rw [BitVec.toInt_eq_toNat_cond] at ha' hb''
  split at ha' <;> omega

structure PreFacts (x0 : IVec S1 32) (x2 : FVec Ideal S2048x1x2048 .f32) (x8 : FVec Ideal S1024x1 .f32) (x9 : FVec Ideal S1 .f32) :
    Prop where
  tok_nat : (x0 (ix1 0)).toNat < 50257
  fin2 : ∀ i, ∃ r : ℝ, x2 i = (r : EReal)
  fin8 : ∀ i, ∃ r : ℝ, x8 i = (r : EReal)
  fin9 : ∀ i, ∃ r : ℝ, x9 i = (r : EReal)

/-- The predicate is a left-nested conjunction of twenty all-reductions, the token's last; four of them are read. -/
theorem pre_facts (x0 : IVec S1 32) (x1 : FVec Ideal S1x1024 .f32) (x2 : FVec Ideal S2048x1x2048 .f32)
    (x3 : FVec Ideal S1x1024 .f32) (x4 : FVec Ideal S50257x1024 .f32) (x5 : FVec Ideal S1024 .f32)
    (x6 : FVec Ideal S3072x1024 .f32) (x7 : FVec Ideal S1024 .f32) (x8 : FVec Ideal S1024x1 .f32)
    (x9 : FVec Ideal S1 .f32) (x10 : FVec Ideal S4096x1024 .f32) (x11 : FVec Ideal S1024 .f32)
    (x12 : FVec Ideal S4096x1024 .f32) (x13 : FVec Ideal S1024 .f32) (x14 : FVec Ideal S4096x1024 .f32)
    (x15 : FVec Ideal S1024 .f32) (x16 : FVec Ideal S4096x1024 .f32) (x17 : FVec Ideal S1024 .f32)
    (x18 : FVec Ideal S4096x50257 .f32) (x19 : FVec Ideal S50257 .f32)
    (h : Cert.Pre_finite_inputs.fn (F := Ideal) x0 x1 x2 x3 x4 x5 x6 x7 x8 x9 x10 x11 x12 x13 x14 x15 x16 x17 x18 x19
          = (fun _ => 1#1)) :
    PreFacts x0 x2 x8 x9 := by
  have h' := congrFun h ix0
  dsimp only [fn, fn_part1, fn_part2, fn_part3, fn_part4, fn_part5] at h'
  obtain ⟨h', c20⟩ := IntOp.andi_eq_one.1 h'
  iterate 10 replace h' := (IntOp.andi_eq_one.1 h').1
  obtain ⟨h', c9⟩ := IntOp.andi_eq_one.1 h'
  obtain ⟨h', c8⟩ := IntOp.andi_eq_one.1 h'
  iterate 5 replace h' := (IntOp.andi_eq_one.1 h').1
  exact ⟨hA_tok_of_all x0 _ _ _ c20, hA_finite_of_all x2 _ _ _ (IntOp.andi_eq_one.1 h').2, hA_finite_of_all x8 _ _ _ c8,
    hA_finite_of_all x9 _ _ _ c9⟩

end Cert.KernelIdeal.Hand

end
-- ==== Proof.Ref.Basics.lean ====
import Idealize.ShloMosaic.PureOps.Ideal.Laws
import Idealize.ShloMosaic.PureOps.Reduce
import Idealize.ShloMosaic.Lib.ValueIdxCoords
import Idealize.ShloMosaic.Lib.IdealHost

noncomputable section

namespace Cert.RefSide

open Idealize.ShloMosaic Idealize.ShloMosaic.ValueIdx

theorem ofBits_ninf_f32 : Ideal.ofBits .f32 0xFF800000#32 = ⊥ := by
  simp [Ideal.ofBits, Ideal.ieee]

/-- Words of two numbers below 2^32 are equal only if the numbers are: the compared bit, as a float, is the one-hot entry. -/
theorem onehot_entry {n : Nat} (hn : n ≤ 4294967296) (t k : Fin n) :
    FloatOps.uitofp (F := Ideal) .f32 (IntOp.cmpi .eq (BitVec.ofNat 32 t.val) (BitVec.ofNat 32 k.val))
      = if k = t then (1 : EReal) else 0 := by
  show (((BitVec.ofBool (BitVec.ofNat 32 t.val == BitVec.ofNat 32 k.val)).toNat : ℝ) : EReal) = _
  by_cases h : k = t
  · subst h
    rw [if_pos rfl, beq_self_eq_true]
    show (((1 : Nat) : ℝ) : EReal) = 1
    rw [Nat.cast_one, EReal.coe_one]
  · rw [if_neg h]
    have hne : (BitVec.ofNat 32 t.val == BitVec.ofNat 32 k.val) = false := by
      rw [beq_eq_false_iff_ne]
      intro e
      have := congrArg BitVec.toNat e
      have ht := t.isLt
      have hk := k.isLt
      rw [BitVec.toNat_ofNat, BitVec.toNat_ofNat, Nat.mod_eq_of_lt (by omega), Nat.mod_eq_of_lt (by omega)] at this
      exact h (Fin.ext this.symm)
    rw [hne]
    show (((0 : Nat) : ℝ) : EReal) = 0
    rw [Nat.cast_zero, EReal.coe_zero]

theorem idx1_one (i : (⟨1, ![1]⟩ : Shape).Idx) : i = ix1 0 := eq_ix1_u0 i

/-- Two rank-two arrays that agree at every pair of coordinates are equal. -/
theorem funext_ix2 {α : Type} {n0 n1 : Nat} {f g : (⟨2, ![n0, n1]⟩ : Shape).Idx → α} (h : ∀ p j, f (ix2 p j) = g (ix2 p j)) : f = g :=
  funext fun i => by rw [eq_ix2 i]; exact h _ _

theorem lift_col {m : Nat} (h : (⟨2, ![m, 1]⟩ : Shape).Reduces [0] (⟨1, ![1]⟩ : Shape))
    (k : Fin ((⟨2, ![m, 1]⟩ : Shape).size 0)) : h.lift (ix1 0) k = ix2 (⟨k.val, k.isLt⟩ : Fin m) (0 : Fin 1) := by
  funext c; apply Fin.ext
  fin_cases c <;> rfl

theorem lift_row {n : Nat} (h : (⟨2, ![1, n]⟩ : Shape).Reduces [1] (⟨1, ![1]⟩ : Shape))
    (k : Fin ((⟨2, ![1, n]⟩ : Shape).size 1)) : h.lift (ix1 0) k = ix2 (0 : Fin 1) (⟨k.val, k.isLt⟩ : Fin n) := by
  funext c; apply Fin.ext
  fin_cases c <;> rfl

/-- From -∞ a one-axis reduction with a maximum body is the supremum along that axis. -/
theorem hostReduce_max {s : Shape} {ax : Fin s.rank} (x : FVec Ideal s .f32)
    (h' : s.ReducesTo [ax] (⟨1, ![1]⟩ : Shape)) (h : s.Reduces [ax] (⟨1, ![1]⟩ : Shape)) (hu : 0 < (⟨0, ![]⟩ : Shape).numel) :
    Host.reduce FloatOps.maximumf x (constant (F := Ideal) (⟨0, ![]⟩ : Shape) .f32 0xFF800000#32) h' hu (ix1 0)
      = Finset.univ.sup (x ∘ h.lift (ix1 0)) := by
  rw [Host.reduce_eq_fold_single FloatOps.maximumf x _ h' h hu]
  exact congrArg (fun b => Finset.fold max b (x ∘ h.lift (ix1 0)) Finset.univ) ofBits_ninf_f32

macro "refside_idx2" : tactic => `(tactic| exact funext fun d => Fin.ext (by match d with | ⟨0, _⟩ => rfl | ⟨1, _⟩ => rfl))

macro "refside_idx1" : tactic => `(tactic| exact funext fun d => Fin.ext (by match d with | ⟨0, _⟩ => rfl))

/-- The logistic function is defined as this quotient, with the number one for the word of 1.0. -/
theorem logistic_quotient (x : EReal) :
    Ideal.div (Ideal.ofBits .f32 0x3F800000#32) (Ideal.ofBits .f32 0x3F800000#32 + Ideal.exp (-x)) = Ideal.logistic x := by
  rw [Ideal.ofBits_one_f32]; rfl

end Cert.RefSide

end
-- ==== Proof.Ref.Attn.lean ====
import proofs.«409657_j24300924961385_3_alg».proof.Proof.RefRead
import proofs.«409657_j24300924961385_3_alg».proof.Proof.Spec
import proofs.«409657_j24300924961385_3_alg».proof.Proof.Ref.Basics
import proofs.«409657_j24300924961385_3_alg».proof.Proof.Math.Sums

noncomputable section

namespace Cert.RefSide

open Cert.ReferenceIdeal Cert.ReferenceIdeal.Gen Cert.ReferenceIdeal.ReadP Idealize.ShloMosaic Idealize.ShloMosaic.TcCoe
  Idealize.ShloMosaic.StableHlo Idealize.ShloMosaic.ValueIdx

variable (a : Spec.Args)

section

variable (x0 : (⟨S1, .i32⟩ : BufTy).Contents (Elt Ideal)) (hx0 : x0 (ix1 0) = BitVec.ofNat 32 a.tok.val)
include hx0

theorem onehot_at (p : Fin 1) (k : Fin 50257) :
    val_main_v0 (F := Ideal) x0 (ix2 p k) = if k = a.tok then (1 : EReal) else 0 := by
  rw [val_main_v0_apply, val_main_call0_v3_apply, val_main_call0_v2_apply, val_main_call0_v0_apply, val_main_call0_v1_apply]
  have e0 : idx_main_call0_v0 (idx_main_call0_v2 (ix2 p k)) = ix1 0 := by refside_idx1
  rw [e0, hx0]
  exact onehot_entry (by decide) a.tok k

/-- A one-hot row times the table is the token's row. -/
theorem emb_eq (p : Fin 1) (h : Fin 1024) :
    val_main_v3 (F := Ideal) x0 a.Wemb a.bemb (ix2 p h) = Spec.emb a h := by
  rw [val_main_v3_apply, val_main_v1_apply, val_main_v2_apply, Ideal.addf_def]
  unfold Spec.emb
  refine congrArg₂ (· + ·) ?_ (congrArg a.bemb (by refside_idx1))
  refine (Finset.sum_congr rfl fun k _ => ?_).trans (Cert.Math.onehot_sum a.tok fun k => a.Wemb (ix2 k h))
  rw [show lidx_main_v1 (ix2 p h) k = ix2 p k from by refside_idx2, show ridx_main_v1 (ix2 p h) k = ix2 k h from by refside_idx2,
    onehot_at a x0 hx0]

end

/-- Row-major position l·2048 + k of the flattened encoder array is its entry (l, 0, k). -/
theorem enc_idx (l k : Fin 2048) : idx_main_v4 (ix2 l k) = ix3 l 0 k :=
  funext fun d => Fin.ext (by
    have := k.isLt
    match d with
    | ⟨0, _⟩ => show (l.val * 2048 + k.val) / 2048 = l.val; omega
    | ⟨1, _⟩ => rfl
    | ⟨2, _⟩ => show (l.val * 2048 + k.val) % 2048 = k.val; omega)

theorem attnIn_eq (l : Fin 2048) (k : Fin 3072) :
    val_main_v6 (F := Ideal) a.hid a.enc (ix2 l k) = Spec.attnIn a l k := by
  unfold val_main_v6 Spec.attnIn
  by_cases hk : k.val < 2048
  · rw [dif_pos hk]
    refine (concatenate_pair_apply_left _ _ _ concatenates_S2048x2048_S2048x1024_S2048x3072_d1 (ix2 l k) rfl
      (ix2 l (⟨k.val, hk⟩ : Fin 2048)) (fun b => by match b with | ⟨0, _⟩ => rfl | ⟨1, _⟩ => rfl)).trans ?_
    rw [val_main_v4_apply, enc_idx]
  · rw [dif_neg hk]
    have hk3 : k.val < 3072 := k.isLt
    refine (concatenate_pair_apply_right _ _ _ concatenates_S2048x2048_S2048x1024_S2048x3072_d1 (ix2 l k) rfl rfl
      (ix2 l (⟨k.val - 2048, by omega⟩ : Fin 1024))
      (fun b hb => by match b with | ⟨0, _⟩ => rfl | ⟨1, _⟩ => exact absurd rfl hb)
      (by show (k.val - 2048) + 2048 = k.val; omega)).trans ?_
    rw [val_main_v5_apply]
    exact congrArg a.hid (by refside_idx2)

theorem preact_eq (l : Fin 2048) (j : Fin 1024) :
    val_main_v10 (F := Ideal) a.hid a.enc a.Wattn a.battn (ix2 l j) = Spec.preact a l j := by
  rw [val_main_v10_apply, val_main_v7_apply, val_main_v9_apply, val_main_v8_apply, Ideal.addf_def]
  unfold Spec.preact
  refine congrArg₂ (· + ·) (Finset.sum_congr rfl fun k _ => ?_) (congrArg a.battn (by refside_idx1))
  rw [show lidx_main_v7 (ix2 l j) k = ix2 l k from by refside_idx2, show ridx_main_v7 (ix2 l j) k = ix2 k j from by refside_idx2,
    attnIn_eq]

theorem score_eq (l : Fin 2048) (q : Fin 1) :
    val_main_v15 (F := Ideal) a.hid a.enc a.Wattn a.battn a.Wao a.bao (ix2 l q) = Spec.score a l := by
  obtain rfl : q = 0 := Subsingleton.elim q 0
  rw [val_main_v15_apply, val_main_v12_apply, val_main_v14_apply, val_main_v13_apply, Ideal.addf_def]
  unfold Spec.score
  refine congrArg₂ (· + ·) (Finset.sum_congr rfl fun j _ => ?_) (congrArg a.bao (by refside_idx1))
  rw [show lidx_main_v12 (ix2 l 0) j = ix2 l j from by refside_idx2, show ridx_main_v12 (ix2 l 0) j = ix2 j 0 from by refside_idx2,
    val_main_v11_apply, Ideal.hostUnary_tanh_def, preact_eq]

/-- The reduction from -∞, then one more maximum with -∞. -/
theorem smax_eq (i : S1.Idx) :
    val_main_v18 (F := Ideal) a.hid a.enc a.Wattn a.battn a.Wao a.bao i = Spec.smax a := by
  rw [idx1_one i, val_main_v18_apply, val_main_v17_apply, val_main_cst_0_apply, Ideal.maximumf_def, Ideal.ofBits_def,
    ofBits_ninf_f32, max_bot_left]
  unfold val_main_v16 Spec.smax
  rw [Finset.sup'_eq_sup]
  refine (hostReduce_max _ reducesTo_S2048x1_S1_d0 (by decide) h_S_).trans ?_
  exact congrArg Finset.univ.sup (funext fun k => (congrArg _ (lift_col _ k)).trans (score_eq a k 0))

theorem sexp_eq (l : Fin 2048) (q : Fin 1) :
    val_main_v22 (F := Ideal) a.hid a.enc a.Wattn a.battn a.Wao a.bao (ix2 l q) = Spec.sexp a l := by
  rw [val_main_v22_apply, val_main_v21_apply, val_main_v20_apply, val_main_v19_apply, Ideal.hostUnary_exp_def,
    Ideal.subf_def, score_eq, smax_eq]
  rfl

theorem ssum_eq (i : S1.Idx) :
    val_main_v23 (F := Ideal) a.hid a.enc a.Wattn a.battn a.Wao a.bao i = Spec.ssum a := by
  rw [idx1_one i, val_main_v23_apply, val_main_cst_1_apply, Ideal.ofBits_def, Ideal.ofBits_zero_f32, zero_add]
  unfold Spec.ssum
  refine Finset.sum_congr rfl fun k _ => ?_
  rw [show idx_main_v23 (ix1 0) k = ix2 k 0 from by refside_idx2, sexp_eq]

theorem attnW_eq (l : Fin 2048) (q : Fin 1) :
    val_main_v26 (F := Ideal) a.hid a.enc a.Wattn a.battn a.Wao a.bao (ix2 l q) = Spec.attnW a l := by
  rw [val_main_v26_apply, val_main_v25_apply, val_main_v24_apply, Ideal.hostDivf_def, sexp_eq, ssum_eq]
  rfl

theorem attnWArr_eq :
    val_main_v26 (F := Ideal) a.hid a.enc a.Wattn a.battn a.Wao a.bao = Spec.attnWArr a :=
  funext_ix2 (attnW_eq a)

theorem context_eq (p : Fin 1) (d : Fin 2048) :
    val_main_v30 (F := Ideal) a.hid a.enc a.Wattn a.battn a.Wao a.bao (ix2 p d) = Spec.context a d := by
  rw [val_main_v30_apply, val_main_v29_apply, val_main_cst_2_apply, Ideal.ofBits_def, Ideal.ofBits_zero_f32, zero_add]
  unfold Spec.context
  refine Finset.sum_congr rfl fun l _ => ?_
  rw [show idx_main_v29 (idx_main_v30 (ix2 p d)) l = ix2 l d from by refside_idx2, val_main_v28_apply, val_main_v27_apply,
    show idx_main_v27 (ix2 l d) = ix2 l 0 from by refside_idx2, attnW_eq, val_main_v4_apply, enc_idx, Ideal.mulf_def]

end Cert.RefSide

end
-- ==== Proof.Ref.Lstm.lean ====
import proofs.«409657_j24300924961385_3_alg».proof.Proof.RefRead
import proofs.«409657_j24300924961385_3_alg».proof.Proof.Spec
import proofs.«409657_j24300924961385_3_alg».proof.Proof.Ref.Basics
import proofs.«409657_j24300924961385_3_alg».proof.Proof.Ref.Attn

noncomputable section

namespace Cert.RefSide

open Cert.ReferenceIdeal Cert.ReferenceIdeal.Gen Cert.ReferenceIdeal.ReadP Idealize.ShloMosaic Idealize.ShloMosaic.TcCoe
  Idealize.ShloMosaic.StableHlo Idealize.ShloMosaic.ValueIdx

variable (a : Spec.Args) (x0 : (⟨S1, .i32⟩ : BufTy).Contents (Elt Ideal)) (hx0 : x0 (ix1 0) = BitVec.ofNat 32 a.tok.val)
include hx0

theorem comb_eq (p : Fin 1) (k : Fin 4096) :
    val_main_v32 (F := Ideal) x0 a.hid a.enc a.Wemb a.bemb a.Wattn a.battn a.Wao a.bao (ix2 p k) = Spec.comb a k := by
  obtain rfl : p = 0 := Subsingleton.elim p 0
  have hk := k.isLt
  unfold val_main_v32 Spec.comb
  by_cases h2 : k.val < 3072
  · refine (concatenate_pair_apply_left _ _ _ concatenates_S1x3072_S1x1024_S1x4096_d1 (ix2 0 k) rfl
      (ix2 0 (⟨k.val, h2⟩ : Fin 3072)) (fun b => by match b with | ⟨0, _⟩ => rfl | ⟨1, _⟩ => rfl)).trans ?_
    unfold val_main_v31
    by_cases h1 : k.val < 1024
    · rw [dif_pos h1]
      refine (concatenate_pair_apply_left _ _ _ concatenates_S1x1024_S1x2048_S1x3072_d1 (ix2 0 (⟨k.val, h2⟩ : Fin 3072)) rfl
        (ix2 0 (⟨k.val, h1⟩ : Fin 1024)) (fun b => by match b with | ⟨0, _⟩ => rfl | ⟨1, _⟩ => rfl)).trans ?_
      exact emb_eq a x0 hx0 0 ⟨k.val, h1⟩
    · rw [dif_neg h1, dif_pos h2]
      refine (concatenate_pair_apply_right _ _ _ concatenates_S1x1024_S1x2048_S1x3072_d1 (ix2 0 (⟨k.val, h2⟩ : Fin 3072)) rfl rfl
        (ix2 0 (⟨k.val - 1024, by omega⟩ : Fin 2048))
        (fun b hb => by match b with | ⟨0, _⟩ => rfl | ⟨1, _⟩ => exact absurd rfl hb)
        (by show (k.val - 1024) + 1024 = k.val; omega)).trans ?_
      exact context_eq a 0 ⟨k.val - 1024, by omega⟩
  · have h1 : ¬ k.val < 1024 := by omega
    rw [dif_neg h1, dif_neg h2]
    exact concatenate_pair_apply_right _ _ _ concatenates_S1x3072_S1x1024_S1x4096_d1 (ix2 0 k) rfl rfl
      (ix2 0 (⟨k.val - 3072, by omega⟩ : Fin 1024))
      (fun b hb => by match b with | ⟨0, _⟩ => rfl | ⟨1, _⟩ => exact absurd rfl hb)
      (by show (k.val - 3072) + 3072 = k.val; omega)

/-- A gate before its nonlinearity, for any weights and bias: the four gates are this one term at their own. -/
theorem gate_eq (W : Spec.Arr2 4096 1024) (b : Spec.Arr1 1024) (p : Fin 1) (j : Fin 1024) :
    val_main_v35 (F := Ideal) x0 a.hid a.enc a.Wemb a.bemb a.Wattn a.battn a.Wao a.bao W b (ix2 p j) = Spec.gate a W b j := by
  rw [val_main_v35_apply, val_main_v33_apply, val_main_v34_apply, Ideal.addf_def]
  unfold Spec.gate
  refine congrArg₂ (· + ·) (Finset.sum_congr rfl fun k _ => ?_) (congrArg b (by refside_idx1))
  rw [show lidx_main_v33 (ix2 p j) k = ix2 p k from by refside_idx2, show ridx_main_v33 (ix2 p j) k = ix2 k j from by refside_idx2,
    comb_eq a x0 hx0]

/-- The sigmoid of a gate, written 1 / (1 + e^(-x)), is the logistic function of it. -/
theorem sig_eq (W : Spec.Arr2 4096 1024) (b : Spec.Arr1 1024) (p : Fin 1) (j : Fin 1024) :
    val_main_v41 (F := Ideal) x0 a.hid a.enc a.Wemb a.bemb a.Wattn a.battn a.Wao a.bao W b (ix2 p j) = Ideal.logistic (Spec.gate a W b j) := by
  rw [val_main_v41_apply, val_main_v40_apply, val_main_cst_4_apply, val_main_v39_apply, val_main_v38_apply, val_main_cst_3_apply,
    val_main_v37_apply, val_main_v36_apply, gate_eq a x0 hx0, Ideal.hostDivf_def, Ideal.addf_def, Ideal.hostUnary_exp_def,
    Ideal.hostNegf_def, Ideal.negf_def, Ideal.ofBits_def]
  exact logistic_quotient _

theorem newCell_eq (p : Fin 1) (j : Fin 1024) :
    val_main_v66 (F := Ideal) x0 a.hid a.enc a.cell a.Wemb a.bemb a.Wattn a.battn a.Wao a.bao a.Wi a.bi a.Wf a.bf a.Wc a.bc (ix2 p j)
      = Spec.newCell a j := by
  obtain rfl : p = 0 := Subsingleton.elim p 0
  rw [val_main_v66_apply, val_main_v64_apply, val_main_v65_apply, val_main_v63_apply,
    show val_main_v59 (F := Ideal) = val_main_v41 from rfl, show val_main_v62 (F := Ideal) = val_main_v35 from rfl,
    sig_eq a x0 hx0, sig_eq a x0 hx0, gate_eq a x0 hx0, Ideal.addf_def, Ideal.mulf_def, Ideal.mulf_def, Ideal.hostUnary_tanh_def]
  rfl

theorem newCellArr_eq :
    val_main_v66 (F := Ideal) x0 a.hid a.enc a.cell a.Wemb a.bemb a.Wattn a.battn a.Wao a.bao a.Wi a.bi a.Wf a.bf a.Wc a.bc
      = Spec.newCellArr a :=
  funext_ix2 (newCell_eq a x0 hx0)

theorem nextHidden_eq (p : Fin 1) (j : Fin 1024) :
    val_main_v68 (F := Ideal) x0 a.hid a.enc a.cell a.Wemb a.bemb a.Wattn a.battn a.Wao a.bao a.Wi a.bi a.Wo a.bo a.Wf a.bf a.Wc a.bc (ix2 p j)
      = Spec.nextHidden a j := by
  rw [val_main_v68_apply, val_main_v67_apply, show val_main_v50 (F := Ideal) = val_main_v41 from rfl, sig_eq a x0 hx0,
    newCell_eq a x0 hx0, Ideal.mulf_def, Ideal.hostUnary_tanh_def]
  rfl

theorem nextHiddenArr_eq :
    val_main_v68 (F := Ideal) x0 a.hid a.enc a.cell a.Wemb a.bemb a.Wattn a.battn a.Wao a.bao a.Wi a.bi a.Wo a.bo a.Wf a.bf a.Wc a.bc
      = Spec.nextHiddenArr a :=
  funext_ix2 (nextHidden_eq a x0 hx0)

end Cert.RefSide

end
-- ==== Proof.Ref.Out.lean ====
import proofs.«409657_j24300924961385_3_alg».proof.Proof.RefRead
import proofs.«409657_j24300924961385_3_alg».proof.Proof.Spec
import proofs.«409657_j24300924961385_3_alg».proof.Proof.Ref.Basics
import proofs.«409657_j24300924961385_3_alg».proof.Proof.Ref.Attn

noncomputable section

namespace Cert.RefSide

open Cert.ReferenceIdeal Cert.ReferenceIdeal.Gen Cert.ReferenceIdeal.ReadP Idealize.ShloMosaic Idealize.ShloMosaic.TcCoe
  Idealize.ShloMosaic.StableHlo Idealize.ShloMosaic.ValueIdx

variable (a : Spec.Args) (x0 : (⟨S1, .i32⟩ : BufTy).Contents (Elt Ideal)) (hx0 : x0 (ix1 0) = BitVec.ofNat 32 a.tok.val)

abbrev outPieces : List ((s : Shape) × (s.Idx → Elt Ideal EltTy.f32)) :=
  [⟨S1x1024, val_main_v3 (F := Ideal) x0 a.Wemb a.bemb⟩, ⟨S1x1024, a.hid⟩,
    ⟨S1x2048, val_main_v30 (F := Ideal) a.hid a.enc a.Wattn a.battn a.Wao a.bao⟩]

include hx0

theorem outCat_eq (p : Fin 1) (k : Fin 4096) :
    val_main_v69 (F := Ideal) x0 a.hid a.enc a.Wemb a.bemb a.Wattn a.battn a.Wao a.bao (ix2 p k) = Spec.outCat a k := by
  obtain rfl : p = 0 := Subsingleton.elim p 0
  have hk := k.isLt
  unfold val_main_v69 Spec.outCat
  have P := concatenate_apply_piece (t := S1x4096) 1 (outPieces a x0) concatenates_S1x1024_S1x1024_S1x2048_S1x4096_d1 (ix2 0 k)
  by_cases h1 : k.val < 1024
  · rw [dif_pos h1]
    refine (P 0 (by show 0 < 3; decide) S1x1024 _ rfl rfl 0 rfl (ix2 0 (⟨k.val, h1⟩ : Fin 1024))
      (fun b hb => by match b with | ⟨0, _⟩ => rfl | ⟨1, _⟩ => exact absurd rfl hb)
      (by show 0 + k.val = k.val; omega)).trans ?_
    exact emb_eq a x0 hx0 0 ⟨k.val, h1⟩
  · rw [dif_neg h1]
    by_cases h2 : k.val < 2048
    · rw [dif_pos h2]
      exact P 1 (by show 1 < 3; decide) S1x1024 _ rfl rfl 1024 rfl (ix2 0 (⟨k.val - 1024, by omega⟩ : Fin 1024))
        (fun b hb => by match b with | ⟨0, _⟩ => rfl | ⟨1, _⟩ => exact absurd rfl hb)
        (by show 1024 + (k.val - 1024) = k.val; omega)
    · rw [dif_neg h2]
      refine (P 2 (by show 2 < 3; decide) S1x2048 _ rfl rfl 2048 rfl (ix2 0 (⟨k.val - 2048, by omega⟩ : Fin 2048))
        (fun b hb => by match b with | ⟨0, _⟩ => rfl | ⟨1, _⟩ => exact absurd rfl hb)
        (by show 2048 + (k.val - 2048) = k.val; omega)).trans ?_
      exact context_eq a 0 ⟨k.val - 2048, by omega⟩

theorem logit_eq (p : Fin 1) (v : Fin 50257) :
    val_main_v72 (F := Ideal) x0 a.hid a.enc a.Wemb a.bemb a.Wattn a.battn a.Wao a.bao a.Wout a.bout (ix2 p v) = Spec.logit a v := by
  rw [val_main_v72_apply, val_main_v70_apply, val_main_v71_apply, Ideal.addf_def]
  unfold Spec.logit
  refine congrArg₂ (· + ·) (Finset.sum_congr rfl fun k _ => ?_) (congrArg a.bout (by refside_idx1))
  rw [show lidx_main_v70 (ix2 p v) k = ix2 p k from by refside_idx2, show ridx_main_v70 (ix2 p v) k = ix2 k v from by refside_idx2,
    outCat_eq a x0 hx0]

/-- The reduction from -∞, then one more maximum with -∞. -/
theorem lmax_eq (i : S1.Idx) :
    val_main_call1_v2 (F := Ideal) x0 a.hid a.enc a.Wemb a.bemb a.Wattn a.battn a.Wao a.bao a.Wout a.bout i = Spec.lmax a := by
  rw [idx1_one i, val_main_call1_v2_apply, val_main_call1_v1_apply, val_main_call1_cst_0_apply, Ideal.maximumf_def,
    Ideal.ofBits_def, ofBits_ninf_f32, max_bot_left]
  unfold val_main_call1_v0 Spec.lmax
  rw [Finset.sup'_eq_sup]
  refine (hostReduce_max _ reducesTo_S1x50257_S1_d1 (by decide) h_S_).trans ?_
  exact congrArg Finset.univ.sup (funext fun k => (congrArg _ (lift_row _ k)).trans (logit_eq a x0 hx0 0 k))

theorem shifted_eq (p : Fin 1) (v : Fin 50257) :
    val_main_call1_v5 (F := Ideal) x0 a.hid a.enc a.Wemb a.bemb a.Wattn a.battn a.Wao a.bao a.Wout a.bout (ix2 p v) = Spec.logit a v - Spec.lmax a := by
  rw [val_main_call1_v5_apply, val_main_call1_v4_apply, val_main_call1_v3_apply, logit_eq a x0 hx0, lmax_eq a x0 hx0,
    Ideal.subf_def]

theorem lsum_eq (i : S1.Idx) :
    val_main_call1_v7 (F := Ideal) x0 a.hid a.enc a.Wemb a.bemb a.Wattn a.battn a.Wao a.bao a.Wout a.bout i = Spec.lsum a := by
  rw [idx1_one i, val_main_call1_v7_apply, val_main_call1_cst_1_apply, Ideal.ofBits_def, Ideal.ofBits_zero_f32, zero_add]
  unfold Spec.lsum
  refine Finset.sum_congr rfl fun k _ => ?_
  rw [show idx_main_call1_v7 (ix1 0) k = ix2 0 k from by refside_idx2, val_main_call1_v6_apply, shifted_eq a x0 hx0,
    Ideal.hostUnary_exp_def]

theorem logSoftmax_eq (p : Fin 1) (v : Fin 50257) :
    val_main_v73 (F := Ideal) x0 a.hid a.enc a.Wemb a.bemb a.Wattn a.battn a.Wao a.bao a.Wout a.bout (ix2 p v) = Spec.logSoftmax a v := by
  rw [val_main_v73_apply, val_main_call1_v10_apply, val_main_call1_v9_apply, val_main_call1_v8_apply, shifted_eq a x0 hx0,
    lsum_eq a x0 hx0, Ideal.subf_def, Ideal.hostUnary_log_def]
  rfl

theorem logSoftmaxArr_eq :
    val_main_v73 (F := Ideal) x0 a.hid a.enc a.Wemb a.bemb a.Wattn a.battn a.Wao a.bao a.Wout a.bout = Spec.logSoftmaxArr a :=
  funext_ix2 (logSoftmax_eq a x0 hx0)

end Cert.RefSide

end
-- ==== Proof.Ref.lean ====
import proofs.«409657_j24300924961385_3_alg».proof.Proof.RefRun
import proofs.«409657_j24300924961385_3_alg».proof.Proof.RefRead
import proofs.«409657_j24300924961385_3_alg».proof.Proof.Spec
import proofs.«409657_j24300924961385_3_alg».proof.Proof.Ref.Attn
import proofs.«409657_j24300924961385_3_alg».proof.Proof.Ref.Lstm
import proofs.«409657_j24300924961385_3_alg».proof.Proof.Ref.Out

noncomputable section

namespace Cert.RefSide

open Cert.ReferenceIdeal Cert.ReferenceIdeal.ReadP Idealize.ShloMosaic Idealize.ShloMosaic.TcCoe Idealize.SL.Sem Idealize.ShloMosaic.ValueIdx

/-- Each result of the reference's run is its stage read at the arguments, and the stages are the specification's arrays. -/
theorem run (m' : (ℓ : Loc nD τ sig) → Buf (Elt Ideal) ℓ) (ρ' : Dev nD → PrngReg) (a : Spec.Args)
    (h0 : ∀ c : Dev nD, m' ((c.tc : Thread nD τ).loc main_arg0) (ix1 0) = BitVec.ofNat 32 a.tok.val)
    (h1 : ∀ c : Dev nD, m' ((c.tc : Thread nD τ).loc main_arg1) = a.hid)
    (h2 : ∀ c : Dev nD, m' ((c.tc : Thread nD τ).loc main_arg2) = a.enc)
    (h3 : ∀ c : Dev nD, m' ((c.tc : Thread nD τ).loc main_arg3) = a.cell)
    (h4 : ∀ c : Dev nD, m' ((c.tc : Thread nD τ).loc main_arg4) = a.Wemb)
    (h5 : ∀ c : Dev nD, m' ((c.tc : Thread nD τ).loc main_arg5) = a.bemb)
    (h6 : ∀ c : Dev nD, m' ((c.tc : Thread nD τ).loc main_arg6) = a.Wattn)
    (h7 : ∀ c : Dev nD, m' ((c.tc : Thread nD τ).loc main_arg7) = a.battn)
    (h8 : ∀ c : Dev nD, m' ((c.tc : Thread nD τ).loc main_arg8) = a.Wao)
    (h9 : ∀ c : Dev nD, m' ((c.tc : Thread nD τ).loc main_arg9) = a.bao)
    (h10 : ∀ c : Dev nD, m' ((c.tc : Thread nD τ).loc main_arg10) = a.Wi)
    (h11 : ∀ c : Dev nD, m' ((c.tc : Thread nD τ).loc main_arg11) = a.bi)
    (h12 : ∀ c : Dev nD, m' ((c.tc : Thread nD τ).loc main_arg12) = a.Wo)
    (h13 : ∀ c : Dev nD, m' ((c.tc : Thread nD τ).loc main_arg13) = a.bo)
    (h14 : ∀ c : Dev nD, m' ((c.tc : Thread nD τ).loc main_arg14) = a.Wf)
    (h15 : ∀ c : Dev nD, m' ((c.tc : Thread nD τ).loc main_arg15) = a.bf)
    (h16 : ∀ c : Dev nD, m' ((c.tc : Thread nD τ).loc main_arg16) = a.Wc)
    (h17 : ∀ c : Dev nD, m' ((c.tc : Thread nD τ).loc main_arg17) = a.bc)
    (h18 : ∀ c : Dev nD, m' ((c.tc : Thread nD τ).loc main_arg18) = a.Wout)
    (h19 : ∀ c : Dev nD, m' ((c.tc : Thread nD τ).loc main_arg19) = a.bout) :
    θ_run (defs (F := Ideal)) (onTc (τ := τ) (main (F := Ideal))) ⟨m', fun _ => 0, ρ'⟩ (fun r => ∀ c : Dev nD,
      r.2.mem ((c.tc : Thread nD τ).loc main_v73) = Spec.logSoftmaxArr a
      ∧ r.2.mem ((c.tc : Thread nD τ).loc main_v68) = Spec.nextHiddenArr a
      ∧ r.2.mem ((c.tc : Thread nD τ).loc main_v26) = Spec.attnWArr a
      ∧ r.2.mem ((c.tc : Thread nD τ).loc main_v66) = Spec.newCellArr a
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)) :=
  (θ_run (defs (F := Ideal)) _ _).mono (fun r h c => by
    have hc := h c
    rw [val_main_v73_eq, val_main_v68_eq, val_main_v26_eq, val_main_v66_eq] at hc
    simp only [h1 c, h2 c, h3 c, h4 c, h5 c, h6 c, h7 c, h8 c, h9 c, h10 c, h11 c, h12 c, h13 c, h14 c, h15 c, h16 c, h17 c, h18 c, h19 c] at hc ⊢
    rw [logSoftmaxArr_eq a _ (h0 c), nextHiddenArr_eq a _ (h0 c), attnWArr_eq a, newCellArr_eq a _ (h0 c)] at hc
    exact hc) (ValueP.run (F := Ideal) m' ρ')

end Cert.RefSide

end
-- ==== Proof.Final.lean ====
import proofs.«409657_j24300924961385_3_alg».proof.Defs
import proofs.«409657_j24300924961385_3_alg».proof.Proof.Gen.Kernel
import proofs.«409657_j24300924961385_3_alg».proof.Proof.Gen.ReferenceIdeal
import proofs.«409657_j24300924961385_3_alg».proof.Proof.Gen.Pre_finite_inputs
import proofs.«409657_j24300924961385_3_alg».proof.Proof.KernelB.Frame
import proofs.«409657_j24300924961385_3_alg».proof.Proof.RunI
import proofs.«409657_j24300924961385_3_alg».proof.Proof.ValueK
import proofs.«409657_j24300924961385_3_alg».proof.Proof.PreFacts
import proofs.«409657_j24300924961385_3_alg».proof.Proof.Ref
import proofs.«409657_j24300924961385_3_alg».proof.Proof.RefRun

noncomputable section

namespace Cert.Proof.Hand

open Idealize.ShloMosaic Idealize.ShloMosaic.TcCoe Idealize.SL.Sem Idealize.ShloMosaic.ValueIdx
open Cert.KernelIdeal Cert.KernelIdeal.Gen Cert.KernelIdeal.Hand

theorem frame_k : Cert.frame_Kernel := fun m ρ _ => Cert.Kernel.Hand.frame m ρ

theorem frame_ki : Cert.frame_KernelIdeal := fun m ρ _ => frame_I m ρ

theorem frame_ri : Cert.frame_ReferenceIdeal := fun m ρ _ =>
  (θ_run Cert.ReferenceIdeal.defs _ _).mono (fun _ h c => (h c).2.2.2.2) (Cert.ReferenceIdeal.ValueP.run (F := Ideal) m ρ)

abbrev c₀ : Dev nD := ⟨0, by decide⟩

theorem eq_c₀ (c : Dev nD) : c = c₀ := Subsingleton.elim _ _

abbrev arg (m : (ℓ : Loc nD τ sig) → Buf (Elt Ideal) ℓ) (b : Ref sig .tc) := m ((c₀.tc : Thread nD τ).loc b)

-- the specification's inputs are the one core's twenty argument buffers, the token as a number below the vocabulary's size
def argsOf (m : (ℓ : Loc nD τ sig) → Buf (Elt Ideal) ℓ)
    (htok : ((arg m main_arg0 : S1.Idx → BitVec 32) (ix1 0)).toNat < 50257) : Cert.Spec.Args where
  tok := ⟨_, htok⟩
  hid := (arg m main_arg1 : S1x1024.Idx → EReal)
  enc := (arg m main_arg2 : S2048x1x2048.Idx → EReal)
  cell := (arg m main_arg3 : S1x1024.Idx → EReal)
  Wemb := (arg m main_arg4 : S50257x1024.Idx → EReal)
  bemb := (arg m main_arg5 : S1024.Idx → EReal)
  Wattn := (arg m main_arg6 : S3072x1024.Idx → EReal)
  battn := (arg m main_arg7 : S1024.Idx → EReal)
  Wao := (arg m main_arg8 : S1024x1.Idx → EReal)
  bao := (arg m main_arg9 : S1.Idx → EReal)
  Wi := (arg m main_arg10 : S4096x1024.Idx → EReal)
  bi := (arg m main_arg11 : S1024.Idx → EReal)
  Wo := (arg m main_arg12 : S4096x1024.Idx → EReal)
  bo := (arg m main_arg13 : S1024.Idx → EReal)
  Wf := (arg m main_arg14 : S4096x1024.Idx → EReal)
  bf := (arg m main_arg15 : S1024.Idx → EReal)
  Wc := (arg m main_arg16 : S4096x1024.Idx → EReal)
  bc := (arg m main_arg17 : S1024.Idx → EReal)
  Wout := (arg m main_arg18 : S4096x50257.Idx → EReal)
  bout := (arg m main_arg19 : S50257.Idx → EReal)

theorem word_of_toNat (w : BitVec 32) (h : w.toNat < 50257) : w = BitVec.ofNat 32 (⟨w.toNat, h⟩ : Fin 50257).val := by
  simp

theorem algebraic : Cert.algebraic_KernelIdeal_ReferenceIdeal := by
  intro m g m' g' hpre hagree
  have pf := pre_facts _ _ _ _ _ _ _ _ _ _ _ _ _ _ _ _ _ _ _ _ (hpre c₀)
  refine ⟨fun _ => Cert.Spec.logSoftmaxArr (argsOf m pf.tok_nat), fun _ => Cert.Spec.nextHiddenArr (argsOf m pf.tok_nat),
    fun _ => Cert.Spec.attnWArr (argsOf m pf.tok_nat), fun _ => Cert.Spec.newCellArr (argsOf m pf.tok_nat), ?_, ?_⟩
  · have kv := kernel_values m c₀ (argsOf m pf.tok_nat)
      (word_of_toNat _ pf.tok_nat) rfl rfl rfl rfl rfl rfl rfl rfl rfl rfl rfl rfl rfl rfl rfl rfl rfl rfl rfl pf.fin2 pf.fin8 pf.fin9
    refine (θ_run _ _ _).mono (fun r h c => ?_) (run_values m g)
    obtain rfl := eq_c₀ c
    exact ⟨(h c₀ _ (mem_uc main_v63 (by decide))).trans kv.1,
      (h c₀ _ (mem_uc main_v59_1 (by decide))).trans kv.2.1,
      (h c₀ _ (mem_uc main_v52 (by decide))).trans kv.2.2.1,
      (h c₀ _ (mem_uc main_v59_0 (by decide))).trans kv.2.2.2,
      (h c₀ _ (mem_uc main_arg0 (by decide))).trans (V7_main_arg0 m (outsI m) c₀),
      (h c₀ _ (mem_uc main_arg1 (by decide))).trans (V7_main_arg1 m (outsI m) c₀),
      (h c₀ _ (mem_uc main_arg2 (by decide))).trans (V7_main_arg2 m (outsI m) c₀),
      (h c₀ _ (mem_uc main_arg3 (by decide))).trans (V7_main_arg3 m (outsI m) c₀),
      (h c₀ _ (mem_uc main_arg4 (by decide))).trans (V7_main_arg4 m (outsI m) c₀),
      (h c₀ _ (mem_uc main_arg5 (by decide))).trans (V7_main_arg5 m (outsI m) c₀),
      (h c₀ _ (mem_uc main_arg6 (by decide))).trans (V7_main_arg6 m (outsI m) c₀),
      (h c₀ _ (mem_uc main_arg7 (by decide))).trans (V7_main_arg7 m (outsI m) c₀),
      (h c₀ _ (mem_uc main_arg8 (by decide))).trans (V7_main_arg8 m (outsI m) c₀),
      (h c₀ _ (mem_uc main_arg9 (by decide))).trans (V7_main_arg9 m (outsI m) c₀),
      (h c₀ _ (mem_uc main_arg10 (by decide))).trans (V7_main_arg10 m (outsI m) c₀),
      (h c₀ _ (mem_uc main_arg11 (by decide))).trans (V7_main_arg11 m (outsI m) c₀),
      (h c₀ _ (mem_uc main_arg12 (by decide))).trans (V7_main_arg12 m (outsI m) c₀),
      (h c₀ _ (mem_uc main_arg13 (by decide))).trans (V7_main_arg13 m (outsI m) c₀),
      (h c₀ _ (mem_uc main_arg14 (by decide))).trans (V7_main_arg14 m (outsI m) c₀),
      (h c₀ _ (mem_uc main_arg15 (by decide))).trans (V7_main_arg15 m (outsI m) c₀),
      (h c₀ _ (mem_uc main_arg16 (by decide))).trans (V7_main_arg16 m (outsI m) c₀),
      (h c₀ _ (mem_uc main_arg17 (by decide))).trans (V7_main_arg17 m (outsI m) c₀),
      (h c₀ _ (mem_uc main_arg18 (by decide))).trans (V7_main_arg18 m (outsI m) c₀),
      (h c₀ _ (mem_uc main_arg19 (by decide))).trans (V7_main_arg19 m (outsI m) c₀)⟩
  · obtain ⟨h0, h1, h2, h3, h4, h5, h6, h7, h8, h9, h10, h11, h12, h13, h14, h15, h16, h17, h18, h19⟩ := hagree c₀
    refine Cert.RefSide.run m' g' (argsOf m pf.tok_nat) ?_ ?_ ?_ ?_ ?_ ?_ ?_ ?_ ?_ ?_ ?_ ?_ ?_ ?_ ?_ ?_ ?_ ?_ ?_ ?_ <;> intro c <;> obtain rfl := eq_c₀ c
    · exact (congrFun h0 (ix1 0)).trans (word_of_toNat _ pf.tok_nat)
    exacts [h1, h2, h3, h4, h5, h6, h7, h8, h9, h10, h11, h12, h13, h14, h15, h16, h17, h18, h19]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof.Hand

end
-- ==== Proof.lean ====
-- One decoder step (additive attention over the encoder rows, an LSTM cell update, the vocabulary projection with a log-softmax): the grid program and the plain array program compute the same four arrays over the extended reals.
import proofs.«409657_j24300924961385_3_alg».proof.Defs
import proofs.«409657_j24300924961385_3_alg».proof.Proof.Final

theorem Cert.Proof.claim : Cert.Claim := Cert.Proof.Hand.claim
